-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 768]⟩ ⟨2, ![2048, 768]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2x256x768 : Shape := ⟨3, ![2, 256, 768]⟩
abbrev S768x512 : Shape := ⟨2, ![768, 512]⟩
abbrev S512x768 : Shape := ⟨2, ![512, 768]⟩
abbrev S_ : Shape := ⟨0, ![]⟩

class Facts : Prop where
  bcast_S_S2x256x768 : S_.BroadcastsInDim S2x256x768 (![] : Fin 0 → Fin S2x256x768.rank)
  reducesTo_S2x256x768_S_d0_1_2 : S2x256x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S512x768 : S_.BroadcastsInDim S512x768 (![] : Fin 0 → Fin S512x768.rank)
  reducesTo_S512x768_S_d0_1 : S512x768.ReducesTo [0, 1] S_

variable [Facts]

def fn_part1 {F : FTy → Type} [FloatOps F] (main_arg4 : FVec F S768x512 .f32) (main_v13 : IVec S_ 1) (main_v16 : IVec S768x512 1) : IVec S_ 1 :=
  let main_c_5 : IVec S_ 1 := constantI S_ 1 1#1
  let main_v17 : IVec S_ 1 := (fun x v => Host.reduce IntOp.andi x v reducesTo_S768x512_S_d0_1 h_S_) main_v16 main_c_5
  let main_v18 : IVec S_ 1 := andi main_v13 main_v17
  let main_v19 : FVec F S768x512 .f32 := Host.absf main_arg4
  let main_cst_6 : FVec F S_ .f32 := constant S_ .f32 0x7F800000#32
  let main_v20 : FVec F S768x512 .f32 := broadcastInDim S768x512 ![] bcast_S_S768x512 main_cst_6
  let main_v21 : IVec S768x512 1 := cmpf .olt main_v19 main_v20
  let main_c_7 : IVec S_ 1 := constantI S_ 1 1#1
  let main_v22 : IVec S_ 1 := (fun x v => Host.reduce IntOp.andi x v reducesTo_S768x512_S_d0_1 h_S_) main_v21 main_c_7
  let main_v23 : IVec S_ 1 := andi main_v18 main_v22
  main_v23

def fn {F : FTy → Type} [FloatOps F] (main_arg0 : FVec F S2x256x768 .f32) (main_arg1 : FVec F S768x512 .f32) (main_arg2 : FVec F S512x768 .f32) (main_arg3 : FVec F S768x512 .f32) (main_arg4 : FVec F S768x512 .f32) : IVec S_ 1 :=
  let main_v0 : FVec F S2x256x768 .f32 := Host.absf main_arg0
  let main_cst : FVec F S_ .f32 := constant S_ .f32 0x7F800000#32
  let main_v1 : FVec F S2x256x768 .f32 := broadcastInDim S2x256x768 ![] bcast_S_S2x256x768 main_cst
  let main_v2 : IVec S2x256x768 1 := cmpf .olt main_v0 main_v1
  let main_c : IVec S_ 1 := constantI S_ 1 1#1
  let main_v3 : IVec S_ 1 := (fun x v => Host.reduce IntOp.andi x v reducesTo_S2x256x768_S_d0_1_2 h_S_) main_v2 main_c
  let main_v4 : FVec F S768x512 .f32 := Host.absf main_arg1
  let main_cst_0 : FVec F S_ .f32 := constant S_ .f32 0x7F800000#32
  let main_v5 : FVec F S768x512 .f32 := broadcastInDim S768x512 ![] bcast_S_S768x512 main_cst_0
  let main_v6 : IVec S768x512 1 := cmpf .olt main_v4 main_v5
  let main_c_1 : IVec S_ 1 := constantI S_ 1 1#1
  let main_v7 : IVec S_ 1 := (fun x v => Host.reduce IntOp.andi x v reducesTo_S768x512_S_d0_1 h_S_) main_v6 main_c_1
  let main_v8 : IVec S_ 1 := andi main_v3 main_v7
  let main_v9 : FVec F S512x768 .f32 := Host.absf main_arg2
  let main_cst_2 : FVec F S_ .f32 := constant S_ .f32 0x7F800000#32
  let main_v10 : FVec F S512x768 .f32 := broadcastInDim S512x768 ![] bcast_S_S512x768 main_cst_2
  let main_v11 : IVec S512x768 1 := cmpf .olt main_v9 main_v10
  let main_c_3 : IVec S_ 1 := constantI S_ 1 1#1
  let main_v12 : IVec S_ 1 := (fun x v => Host.reduce IntOp.andi x v reducesTo_S512x768_S_d0_1 h_S_) main_v11 main_c_3
  let main_v13 : IVec S_ 1 := andi main_v8 main_v12
  let main_v14 : FVec F S768x512 .f32 := Host.absf main_arg3
  let main_cst_4 : FVec F S_ .f32 := constant S_ .f32 0x7F800000#32
  let main_v15 : FVec F S768x512 .f32 := broadcastInDim S768x512 ![] bcast_S_S768x512 main_cst_4
  let main_v16 : IVec S768x512 1 := cmpf .olt main_v14 main_v15
  fn_part1 (F := F) main_arg4 main_v13 main_v16
-- ==== Pre_finite_inputs_ReferenceIdeal.lean ====
abbrev S2x256x768 : Shape := ⟨3, ![2, 256, 768]⟩
abbrev S768x2048 : Shape := ⟨2, ![768, 2048]⟩
abbrev S2048x768 : Shape := ⟨2, ![2048, 768]⟩
abbrev S768x512 : Shape := ⟨2, ![768, 512]⟩
abbrev S_ : Shape := ⟨0, ![]⟩

class Facts : Prop where
  bcast_S_S2x256x768 : S_.BroadcastsInDim S2x256x768 (![] : Fin 0 → Fin S2x256x768.rank)
  reducesTo_S2x256x768_S_d0_1_2 : S2x256x768.ReducesTo [0, 1, 2] S_
  h_S_ : 0 < S_.numel
  bcast_S_S768x2048 : S_.BroadcastsInDim S768x2048 (![] : Fin 0 → Fin S768x2048.rank)
  reducesTo_S768x2048_S_d0_1 : S768x2048.ReducesTo [0, 1] S_
  bcast_S_S2048x768 : S_.BroadcastsInDim S2048x768 (![] : Fin 0 → Fin S2048x768.rank)
  reducesTo_S2048x768_S_d0_1 : S2048x768.ReducesTo [0, 1] S_
  bcast_S_S768x512 : S_.BroadcastsInDim S768x512 (![] : Fin 0 → Fin S768x512.rank)
  reducesTo_S768x512_S_d0_1 : S768x512.ReducesTo [0, 1] S_

variable [Facts]

def fn_part1 {F : FTy → Type} [FloatOps F] (main_arg4 : FVec F S768x512 .f32) (main_v13 : IVec S_ 1) (main_v16 : IVec S768x512 1) : IVec S_ 1 :=
  let main_c_5 : IVec S_ 1 := constantI S_ 1 1#1
  let main_v17 : IVec S_ 1 := (fun x v => Host.reduce IntOp.andi x v reducesTo_S768x512_S_d0_1 h_S_) main_v16 main_c_5
  let main_v18 : IVec S_ 1 := andi main_v13 main_v17
  let main_v19 : FVec F S768x512 .f32 := Host.absf main_arg4
  let main_cst_6 : FVec F S_ .f32 := constant S_ .f32 0x7F800000#32
  let main_v20 : FVec F S768x512 .f32 := broadcastInDim S768x512 ![] bcast_S_S768x512 main_cst_6
  let main_v21 : IVec S768x512 1 := cmpf .olt main_v19 main_v20
  let main_c_7 : IVec S_ 1 := constantI S_ 1 1#1
  let main_v22 : IVec S_ 1 := (fun x v => Host.reduce IntOp.andi x v reducesTo_S768x512_S_d0_1 h_S_) main_v21 main_c_7
  let main_v23 : IVec S_ 1 := andi main_v18 main_v22
  main_v23

def fn {F : FTy → Type} [FloatOps F] (main_arg0 : FVec F S2x256x768 .f32) (main_arg1 : FVec F S768x2048 .f32) (main_arg2 : FVec F S2048x768 .f32) (main_arg3 : FVec F S768x512 .f32) (main_arg4 : FVec F S768x512 .f32) : IVec S_ 1 :=
  let main_v0 : FVec F S2x256x768 .f32 := Host.absf main_arg0
  let main_cst : FVec F S_ .f32 := constant S_ .f32 0x7F800000#32
  let main_v1 : FVec F S2x256x768 .f32 := broadcastInDim S2x256x768 ![] bcast_S_S2x256x768 main_cst
  let main_v2 : IVec S2x256x768 1 := cmpf .olt main_v0 main_v1
  let main_c : IVec S_ 1 := constantI S_ 1 1#1
  let main_v3 : IVec S_ 1 := (fun x v => Host.reduce IntOp.andi x v reducesTo_S2x256x768_S_d0_1_2 h_S_) main_v2 main_c
  let main_v4 : FVec F S768x2048 .f32 := Host.absf main_arg1
  let main_cst_0 : FVec F S_ .f32 := constant S_ .f32 0x7F800000#32
  let main_v5 : FVec F S768x2048 .f32 := broadcastInDim S768x2048 ![] bcast_S_S768x2048 main_cst_0
  let main_v6 : IVec S768x2048 1 := cmpf .olt main_v4 main_v5
  let main_c_1 : IVec S_ 1 := constantI S_ 1 1#1
  let main_v7 : IVec S_ 1 := (fun x v => Host.reduce IntOp.andi x v reducesTo_S768x2048_S_d0_1 h_S_) main_v6 main_c_1
  let main_v8 : IVec S_ 1 := andi main_v3 main_v7
  let main_v9 : FVec F S2048x768 .f32 := Host.absf main_arg2
  let main_cst_2 : FVec F S_ .f32 := constant S_ .f32 0x7F800000#32
  let main_v10 : FVec F S2048x768 .f32 := broadcastInDim S2048x768 ![] bcast_S_S2048x768 main_cst_2
  let main_v11 : IVec S2048x768 1 := cmpf .olt main_v9 main_v10
  let main_c_3 : IVec S_ 1 := constantI S_ 1 1#1
  let main_v12 : IVec S_ 1 := (fun x v => Host.reduce IntOp.andi x v reducesTo_S2048x768_S_d0_1 h_S_) main_v11 main_c_3
  let main_v13 : IVec S_ 1 := andi main_v8 main_v12
  let main_v14 : FVec F S768x512 .f32 := Host.absf main_arg3
  let main_cst_4 : FVec F S_ .f32 := constant S_ .f32 0x7F800000#32
  let main_v15 : FVec F S768x512 .f32 := broadcastInDim S768x512 ![] bcast_S_S768x512 main_cst_4
  let main_v16 : IVec S768x512 1 := cmpf .olt main_v14 main_v15
  fn_part1 (F := F) main_arg4 main_v13 main_v16
-- ==== Kernel.lean ====
abbrev S2x256x768 : Shape := ⟨3, ![2, 256, 768]⟩
abbrev S768x512 : Shape := ⟨2, ![768, 512]⟩
abbrev S512x768 : Shape := ⟨2, ![512, 768]⟩
abbrev S512x512 : Shape := ⟨2, ![512, 512]⟩
abbrev S256x384 : Shape := ⟨2, ![256, 384]⟩
abbrev S128x384 : Shape := ⟨2, ![128, 384]⟩
abbrev S8 : Shape := ⟨1, ![8]⟩
abbrev S_ : Shape := ⟨0, ![]⟩
abbrev S768x128 : Shape := ⟨2, ![768, 128]⟩
abbrev S512x128 : Shape := ⟨2, ![512, 128]⟩
abbrev S256x64 : Shape := ⟨2, ![256, 64]⟩
abbrev S256x256 : Shape := ⟨2, ![256, 256]⟩
abbrev S256 : Shape := ⟨1, ![256]⟩
abbrev S256x1 : Shape := ⟨2, ![256, 1]⟩
abbrev S256x512 : Shape := ⟨2, ![256, 512]⟩
abbrev S512x384 : Shape := ⟨2, ![512, 384]⟩
abbrev S1 : Shape := ⟨1, ![1]⟩
abbrev S1x256x384 : Shape := ⟨3, ![1, 256, 384]⟩

abbrev nBuf : Space → Nat
  | .hbm => 6
  | .vmem => 12
  | .smem => 0
  | _ => 0

abbrev bufTy : (tb : Table) → Fin (tcTables nBuf tb) → BufTy
  | .hbm, ⟨0, _⟩ => ⟨S2x256x768, .f32⟩
  | .hbm, ⟨1, _⟩ => ⟨S768x512, .f32⟩
  | .hbm, ⟨2, _⟩ => ⟨S512x768, .f32⟩
  | .hbm, ⟨3, _⟩ => ⟨S768x512, .f32⟩
  | .hbm, ⟨4, _⟩ => ⟨S768x512, .f32⟩
  | .hbm, ⟨5, _⟩ => ⟨S2x256x768, .f32⟩
  | .local _ .vmem, ⟨0, _⟩ => ⟨S2x256x768, .f32⟩
  | .local _ .vmem, ⟨1, _⟩ => ⟨S768x512, .f32⟩
  | .local _ .vmem, ⟨2, _⟩ => ⟨S512x768, .f32⟩
  | .local _ .vmem, ⟨3, _⟩ => ⟨S768x512, .f32⟩
  | .local _ .vmem, ⟨4, _⟩ => ⟨S768x512, .f32⟩
  | .local _ .vmem, ⟨5, _⟩ => ⟨S2x256x768, .f32⟩
  | .local _ .vmem, ⟨6, _⟩ => ⟨S512x512, .f32⟩
  | .local _ .vmem, ⟨7, _⟩ => ⟨S512x768, .bf16⟩
  | .local _ .vmem, ⟨8, _⟩ => ⟨S256x384, .bf16⟩
  | .local _ .vmem, ⟨9, _⟩ => ⟨S256x384, .bf16⟩
  | .local _ .vmem, ⟨10, _⟩ => ⟨S128x384, .bf16⟩
  | .local _ .vmem, ⟨11, _⟩ => ⟨S128x384, .bf16⟩
  | _, _ => ⟨S2x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.xori v2 c1_i32_2
  let c1_i32_4 : BitVec 32 := 1#32
  let v9 : BitVec 32 := Scalar.muli v6 c1_i32_4
  let v10 : BitVec 32 := Scalar.addi c0_i32 v9
  v10.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.xori v2 c3_i32
  let c1_i32_6 : BitVec 32 := 1#32
  let v11 : BitVec 32 := Scalar.muli v7 c1_i32_6
  let v12 : BitVec 32 := Scalar.addi c0_i32_7 v11
  v12.toNat
def k0_off1 (d0 : Dev nD) : Fin 2 → Nat :=
  let c0_13 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32 : BitVec 32 := 128#32
  let v21 : BitVec 32 := Scalar.muli v2 c128_i32
  let v22 : Index := Scalar.indexCast v21
  ![0, v22.toNat]
def k0_off2 (d0 : Dev nD) : Fin 2 → Nat :=
  let c1_i32_91 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrui v2 c1_i32_0
  let v4 : BitVec 32 := Scalar.xori v2 v3
  let c1_i32_1 : BitVec 32 := 1#32
  let v5 : BitVec 32 := Scalar.andi v4 c1_i32_1
  let v240 : BitVec 32 := Scalar.subi c1_i32_91 v5
  let c256_i32_92 : BitVec 32 := 256#32
  let v241 : BitVec 32 := Scalar.muli v240 c256_i32_92
  let v255 : Index := Scalar.indexCast v241
  let c0_102 : Index := 0#32
  ![v255.toNat, 0]
def k0_off3 (d0 : Dev nD) : Fin 2 → Nat :=
  let c1_i32_91 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrui v2 c1_i32_0
  let v4 : BitVec 32 := Scalar.xori v2 v3
  let c1_i32_1 : BitVec 32 := 1#32
  let v5 : BitVec 32 := Scalar.andi v4 c1_i32_1
  let v240 : BitVec 32 := Scalar.subi c1_i32_91 v5
  let c256_i32_92 : BitVec 32 := 256#32
  let v241 : BitVec 32 := Scalar.muli v240 c256_i32_92
  let v261 : Index := Scalar.indexCast v241
  let c0_106 : Index := 0#32
  ![v261.toNat, 0]
def k0_off4 (d0 : Dev nD) : Fin 2 → Nat :=
  let c1_i32_91 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrui v2 c1_i32_0
  let v4 : BitVec 32 := Scalar.xori v2 v3
  let c1_i32_1 : BitVec 32 := 1#32
  let v5 : BitVec 32 := Scalar.andi v4 c1_i32_1
  let v240 : BitVec 32 := Scalar.subi c1_i32_91 v5
  let c256_i32_92 : BitVec 32 := 256#32
  let v241 : BitVec 32 := Scalar.muli v240 c256_i32_92
  let c0_i32_111 : BitVec 32 := 0#32
  ![v241.toNat, 0]
def k0_dev3 (d0 : Dev nD) : Nat :=
  let c0_i32_110 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.xori v2 c1_i32_2
  let c1_i32_109 : BitVec 32 := 1#32
  let v265 : BitVec 32 := Scalar.muli v6 c1_i32_109
  let v266 : BitVec 32 := Scalar.addi c0_i32_110 v265
  v266.toNat
def k0_off5 (d0 : Dev nD) : Fin 2 → Nat :=
  let c1_i32_94 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrui v2 c1_i32_0
  let v243 : BitVec 32 := Scalar.subi c1_i32_94 v3
  let c256_i32_95 : BitVec 32 := 256#32
  let v244 : BitVec 32 := Scalar.muli v243 c256_i32_95
  let v272 : Index := Scalar.indexCast v244
  let c0_112 : Index := 0#32
  ![v272.toNat, 0]
def k0_off6 (d0 : Dev nD) : Fin 2 → Nat :=
  let c1_i32_94 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrui v2 c1_i32_0
  let v243 : BitVec 32 := Scalar.subi c1_i32_94 v3
  let c256_i32_95 : BitVec 32 := 256#32
  let v244 : BitVec 32 := Scalar.muli v243 c256_i32_95
  let v278 : Index := Scalar.indexCast v244
  let c384_116 : Index := 384#32
  ![v278.toNat, 384]
def k0_off7 (d0 : Dev nD) : Fin 2 → Nat :=
  let c1_i32_94 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrui v2 c1_i32_0
  let v243 : BitVec 32 := Scalar.subi c1_i32_94 v3
  let c256_i32_95 : BitVec 32 := 256#32
  let v244 : BitVec 32 := Scalar.muli v243 c256_i32_95
  let c384_i32 : BitVec 32 := 384#32
  ![v244.toNat, 384]
def k0_dev4 (d0 : Dev nD) : Nat :=
  let c0_i32_120 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.xori v2 c3_i32
  let c1_i32_119 : BitVec 32 := 1#32
  let v282 : BitVec 32 := Scalar.muli v7 c1_i32_119
  let v283 : BitVec 32 := Scalar.addi c0_i32_120 v282
  v283.toNat
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrui v2 c1_i32_0
  let v4 : BitVec 32 := Scalar.xori v2 v3
  let c1_i32_1 : BitVec 32 := 1#32
  let v5 : BitVec 32 := Scalar.andi v4 c1_i32_1
  let c256_i32 : BitVec 32 := 256#32
  let v239 : BitVec 32 := Scalar.muli v5 c256_i32
  let v289 : Index := Scalar.indexCast v239
  let c0_121 : Index := 0#32
  ![v289.toNat, 0]
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrui v2 c1_i32_0
  let c256_i32_93 : BitVec 32 := 256#32
  let v242 : BitVec 32 := Scalar.muli v3 c256_i32_93
  let v295 : Index := Scalar.indexCast v242
  let c0_125 : Index := 0#32
  ![v295.toNat, 0]
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrui v2 c1_i32_0
  let v4 : BitVec 32 := Scalar.xori v2 v3
  let c1_i32_1 : BitVec 32 := 1#32
  let v5 : BitVec 32 := Scalar.andi v4 c1_i32_1
  let c256_i32 : BitVec 32 := 256#32
  let v239 : BitVec 32 := Scalar.muli v5 c256_i32
  let v311 : Index := Scalar.indexCast v239
  let c0_140 : Index := 0#32
  ![v311.toNat, 0]
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrui v2 c1_i32_0
  let v4 : BitVec 32 := Scalar.xori v2 v3
  let c1_i32_1 : BitVec 32 := 1#32
  let v5 : BitVec 32 := Scalar.andi v4 c1_i32_1
  let c256_i32 : BitVec 32 := 256#32
  let v239 : BitVec 32 := Scalar.muli v5 c256_i32
  let c1_i32_97 : BitVec 32 := 1#32
  let v247 : BitVec 32 := Scalar.subi c1_i32_97 v3
  let c128_i32_98 : BitVec 32 := 128#32
  let v248 : BitVec 32 := Scalar.muli v247 c128_i32_98
  let v249 : BitVec 32 := Scalar.addi v239 v248
  let c0_i32_145 : BitVec 32 := 0#32
  ![v249.toNat, 0]
def k0_dev5 (d0 : Dev nD) : Nat :=
  let c0_i32_144 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.xori v2 c3_i32
  let c1_i32_143 : BitVec 32 := 1#32
  let v315 : BitVec 32 := Scalar.muli v7 c1_i32_143
  let v316 : BitVec 32 := Scalar.addi c0_i32_144 v315
  v316.toNat
def k0_off12 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrui v2 c1_i32_0
  let c256_i32_93 : BitVec 32 := 256#32
  let v242 : BitVec 32 := Scalar.muli v3 c256_i32_93
  let v332 : Index := Scalar.indexCast v242
  let c384_157 : Index := 384#32
  ![v332.toNat, 384]
def k0_off13 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrui v2 c1_i32_0
  let c256_i32_93 : BitVec 32 := 256#32
  let v242 : BitVec 32 := Scalar.muli v3 c256_i32_93
  let c1_i32_100 : BitVec 32 := 1#32
  let v4 : BitVec 32 := Scalar.xori v2 v3
  let c1_i32_1 : BitVec 32 := 1#32
  let v5 : BitVec 32 := Scalar.andi v4 c1_i32_1
  let v252 : BitVec 32 := Scalar.subi c1_i32_100 v5
  let c128_i32_101 : BitVec 32 := 128#32
  let v253 : BitVec 32 := Scalar.muli v252 c128_i32_101
  let v254 : BitVec 32 := Scalar.addi v242 v253
  let c384_i32_161 : BitVec 32 := 384#32
  ![v254.toNat, 384]
def k0_dev6 (d0 : Dev nD) : Nat :=
  let c0_i32_160 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.xori v2 c1_i32_2
  let c1_i32_159 : BitVec 32 := 1#32
  let v336 : BitVec 32 := Scalar.muli v6 c1_i32_159
  let v337 : BitVec 32 := Scalar.addi c0_i32_160 v336
  v337.toNat
def k0_off14 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrui v2 c1_i32_0
  let v4 : BitVec 32 := Scalar.xori v2 v3
  let c1_i32_1 : BitVec 32 := 1#32
  let v5 : BitVec 32 := Scalar.andi v4 c1_i32_1
  let c256_i32 : BitVec 32 := 256#32
  let v239 : BitVec 32 := Scalar.muli v5 c256_i32
  let c128_i32_96 : BitVec 32 := 128#32
  let v245 : BitVec 32 := Scalar.muli v3 c128_i32_96
  let v246 : BitVec 32 := Scalar.addi v239 v245
  let v351 : Index := Scalar.indexCast v246
  let c0_171 : Index := 0#32
  ![v351.toNat, 0]
def k0_off15 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrui v2 c1_i32_0
  let v4 : BitVec 32 := Scalar.xori v2 v3
  let c1_i32_1 : BitVec 32 := 1#32
  let v5 : BitVec 32 := Scalar.andi v4 c1_i32_1
  let c256_i32 : BitVec 32 := 256#32
  let v239 : BitVec 32 := Scalar.muli v5 c256_i32
  let c128_i32_96 : BitVec 32 := 128#32
  let v245 : BitVec 32 := Scalar.muli v3 c128_i32_96
  let v246 : BitVec 32 := Scalar.addi v239 v245
  let c0_i32_179 : BitVec 32 := 0#32
  ![v246.toNat, 0]
def k0_dev7 (d0 : Dev nD) : Nat :=
  let c0_i32_178 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.xori v2 c3_i32
  let c1_i32_177 : BitVec 32 := 1#32
  let v359 : BitVec 32 := Scalar.muli v7 c1_i32_177
  let v360 : BitVec 32 := Scalar.addi c0_i32_178 v359
  v360.toNat
def k0_off16 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrui v2 c1_i32_0
  let c256_i32_93 : BitVec 32 := 256#32
  let v242 : BitVec 32 := Scalar.muli v3 c256_i32_93
  let v4 : BitVec 32 := Scalar.xori v2 v3
  let c1_i32_1 : BitVec 32 := 1#32
  let v5 : BitVec 32 := Scalar.andi v4 c1_i32_1
  let c128_i32_99 : BitVec 32 := 128#32
  let v250 : BitVec 32 := Scalar.muli v5 c128_i32_99
  let v251 : BitVec 32 := Scalar.addi v242 v250
  let v375 : Index := Scalar.indexCast v251
  let c384_190 : Index := 384#32
  ![v375.toNat, 384]
def k0_off17 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrui v2 c1_i32_0
  let c256_i32_93 : BitVec 32 := 256#32
  let v242 : BitVec 32 := Scalar.muli v3 c256_i32_93
  let v4 : BitVec 32 := Scalar.xori v2 v3
  let c1_i32_1 : BitVec 32 := 1#32
  let v5 : BitVec 32 := Scalar.andi v4 c1_i32_1
  let c128_i32_99 : BitVec 32 := 128#32
  let v250 : BitVec 32 := Scalar.muli v5 c128_i32_99
  let v251 : BitVec 32 := Scalar.addi v242 v250
  let c384_i32_197 : BitVec 32 := 384#32
  ![v251.toNat, 384]
def k0_dev8 (d0 : Dev nD) : Nat :=
  let c0_i32_196 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.xori v2 c1_i32_2
  let c1_i32_195 : BitVec 32 := 1#32
  let v383 : BitVec 32 := Scalar.muli v6 c1_i32_195
  let v384 : BitVec 32 := Scalar.addi c0_i32_196 v383
  v384.toNat
def k0_off18 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrui v2 c1_i32_0
  let v4 : BitVec 32 := Scalar.xori v2 v3
  let c1_i32_1 : BitVec 32 := 1#32
  let v5 : BitVec 32 := Scalar.andi v4 c1_i32_1
  let c256_i32 : BitVec 32 := 256#32
  let v239 : BitVec 32 := Scalar.muli v5 c256_i32
  let c0_i32_214 : BitVec 32 := 0#32
  ![v239.toNat, 0]
def k0_dev9 (d0 : Dev nD) : Nat :=
  let c0_i32_213 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.xori v2 c1_i32_2
  let c1_i32_212 : BitVec 32 := 1#32
  let v401 : BitVec 32 := Scalar.muli v6 c1_i32_212
  let v402 : BitVec 32 := Scalar.addi c0_i32_213 v401
  v402.toNat
def k0_off19 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrui v2 c1_i32_0
  let c256_i32_93 : BitVec 32 := 256#32
  let v242 : BitVec 32 := Scalar.muli v3 c256_i32_93
  let c384_i32_230 : BitVec 32 := 384#32
  ![v242.toNat, 384]
def k0_dev10 (d0 : Dev nD) : Nat :=
  let c0_i32_229 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.xori v2 c3_i32
  let c1_i32_228 : BitVec 32 := 1#32
  let v419 : BitVec 32 := Scalar.muli v7 c1_i32_228
  let v420 : BitVec 32 := Scalar.addi c0_i32_229 v419
  v420.toNat
def k0_off20 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrui v2 c1_i32_0
  let v4 : BitVec 32 := Scalar.xori v2 v3
  let c1_i32_1 : BitVec 32 := 1#32
  let v5 : BitVec 32 := Scalar.andi v4 c1_i32_1
  let v431 : Index := Scalar.indexCast v5
  let c0_233 : Index := 0#32
  let c0_234 : Index := 0#32
  ![v431.toNat, 0, 0]
def k0_off21 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrui v2 c1_i32_0
  let v437 : Index := Scalar.indexCast v3
  let c0_236 : Index := 0#32
  let c384_237 : Index := 384#32
  ![v437.toNat, 0, 384]
def k0_off22 (d0 : Dev nD) : Fin 3 → Nat :=
  let c1_i32_250 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrui v2 c1_i32_0
  let v4 : BitVec 32 := Scalar.xori v2 v3
  let c1_i32_1 : BitVec 32 := 1#32
  let v5 : BitVec 32 := Scalar.andi v4 c1_i32_1
  let v453 : BitVec 32 := Scalar.subi c1_i32_250 v5
  let v454 : Index := Scalar.indexCast v453
  let c0_251 : Index := 0#32
  let c0_252 : Index := 0#32
  ![v454.toNat, 0, 0]
def k0_off23 (d0 : Dev nD) : Fin 3 → Nat :=
  let c1_i32_265 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrui v2 c1_i32_0
  let v470 : BitVec 32 := Scalar.subi c1_i32_265 v3
  let v471 : Index := Scalar.indexCast v470
  let c0_266 : Index := 0#32
  let c384_267 : Index := 384#32
  ![v471.toNat, 0, 384]
abbrev stage0_0 : Fin 1 → Memref sig .tc .vmem S2x256x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

class Facts₀ : Prop where
  hamt_1 : (1#32 : BitVec 32).msb = false
  hamt_2 : (2#32 : BitVec 32).msb = false
  inb_S2x256x768_S2x256x768_0_0_0 : ∀ a, (![0, 0, 0] : Fin 3 → Nat) a + S2x256x768.size a ≤ S2x256x768.size a
  h_S2x256x768 : 0 < S2x256x768.numel
  shapeCasts_S2x256x768_S2x256x768 : S2x256x768.ShapeCasts S2x256x768
  shapeCasts_S2x256x768_S512x768 : S2x256x768.ShapeCasts S512x768
  inb_S768x512_S768x512_0_0 : ∀ a, (![0, 0] : Fin 2 → Nat) a + S768x512.size a ≤ S768x512.size a
  h_S768x512 : 0 < S768x512.numel
  shapeCasts_S768x512_S768x512 : S768x512.ShapeCasts S768x512
  h_S768x128 : 0 < S768x128.numel
  shapeCasts_S768x128_S768x128 : S768x128.ShapeCasts S768x128
  slices_S512x512_o0_0_S256x64 : S512x512.Slices ![0, 0] S256x64
  slices_S512x128_o0_0_S256x64 : S512x128.Slices ![0, 0] S256x64
  reduces_S256x256_S256 : S256x256.Reduces [1] S256
  shapeCasts_S256_S256x1 : S256.ShapeCasts S256x1
  broadcasts_S256x1_S256x64 : S256x1.Broadcasts S256x64
  inb_S512x512_S256x64_0_0 : ∀ a, (![0, 0] : Fin 2 → Nat) a + S256x64.size a ≤ S512x512.size a
  h_S256x64 : 0 < S256x64.numel
  shapeCasts_S256x64_S256x64 : S256x64.ShapeCasts S256x64
  slices_S512x512_o0_64_S256x64 : S512x512.Slices ![0, 64] S256x64
  inb_S512x512_S256x64_0_64 : ∀ a, (![0, 64] : Fin 2 → Nat) a + S256x64.size a ≤ S512x512.size a
  slices_S512x512_o0_128_S256x64 : S512x512.Slices ![0, 128] S256x64
  inb_S512x512_S256x64_0_128 : ∀ a, (![0, 128] : Fin 2 → Nat) a + S256x64.size a ≤ S512x512.size a
  slices_S512x512_o0_192_S256x64 : S512x512.Slices ![0, 192] S256x64
  inb_S512x512_S256x64_0_192 : ∀ a, (![0, 192] : Fin 2 → Nat) a + S256x64.size a ≤ S512x512.size a
  slices_S512x512_o0_256_S256x64 : S512x512.Slices ![0, 256] S256x64
  slices_S512x128_o0_64_S256x64 : S512x128.Slices ![0, 64] S256x64
  inb_S512x512_S256x64_0_256 : ∀ a, (![0, 256] : Fin 2 → Nat) a + S256x64.size a ≤ S512x512.size a
  slices_S512x512_o0_320_S256x64 : S512x512.Slices ![0, 320] S256x64
  inb_S512x512_S256x64_0_320 : ∀ a, (![0, 320] : Fin 2 → Nat) a + S256x64.size a ≤ S512x512.size a
  slices_S512x512_o0_384_S256x64 : S512x512.Slices ![0, 384] S256x64
  inb_S512x512_S256x64_0_384 : ∀ a, (![0, 384] : Fin 2 → Nat) a + S256x64.size a ≤ S512x512.size a
  slices_S512x512_o0_448_S256x64 : S512x512.Slices ![0, 448] S256x64
  inb_S512x512_S256x64_0_448 : ∀ a, (![0, 448] : Fin 2 → Nat) a + S256x64.size a ≤ S512x512.size a
  slices_S512x512_o256_0_S256x64 : S512x512.Slices ![256, 0] S256x64
  slices_S512x128_o256_0_S256x64 : S512x128.Slices ![256, 0] S256x64
  inb_S512x512_S256x64_256_0 : ∀ a, (![256, 0] : Fin 2 → Nat) a + S256x64.size a ≤ S512x512.size a
  slices_S512x512_o256_64_S256x64 : S512x512.Slices ![256, 64] S256x64
  inb_S512x512_S256x64_256_64 : ∀ a, (![256, 64] : Fin 2 → Nat) a + S256x64.size a ≤ S512x512.size a
  slices_S512x512_o256_128_S256x64 : S512x512.Slices ![256, 128] S256x64
  inb_S512x512_S256x64_256_128 : ∀ a, (![256, 128] : Fin 2 → Nat) a + S256x64.size a ≤ S512x512.size a
  slices_S512x512_o256_192_S256x64 : S512x512.Slices ![256, 192] S256x64
  inb_S512x512_S256x64_256_192 : ∀ a, (![256, 192] : Fin 2 → Nat) a + S256x64.size a ≤ S512x512.size a
  slices_S512x512_o256_256_S256x64 : S512x512.Slices ![256, 256] S256x64
  slices_S512x128_o256_64_S256x64 : S512x128.Slices ![256, 64] S256x64
  inb_S512x512_S256x64_256_256 : ∀ a, (![256, 256] : Fin 2 → Nat) a + S256x64.size a ≤ S512x512.size a
  slices_S512x512_o256_320_S256x64 : S512x512.Slices ![256, 320] S256x64
  inb_S512x512_S256x64_256_320 : ∀ a, (![256, 320] : Fin 2 → Nat) a + S256x64.size a ≤ S512x512.size a
  slices_S512x512_o256_384_S256x64 : S512x512.Slices ![256, 384] S256x64
  inb_S512x512_S256x64_256_384 : ∀ a, (![256, 384] : Fin 2 → Nat) a + S256x64.size a ≤ S512x512.size a
  slices_S512x512_o256_448_S256x64 : S512x512.Slices ![256, 448] S256x64
  inb_S512x512_S256x64_256_448 : ∀ a, (![256, 448] : Fin 2 → Nat) a + S256x64.size a ≤ S512x512.size a
  h_S256x512 : 0 < S256x512.numel
  inb_S512x768_S512x384_0_0 : ∀ a, (![0, 0] : Fin 2 → Nat) a + S512x384.size a ≤ S512x768.size a
  h_S512x384 : 0 < S512x384.numel
  shapeCasts_S512x384_S512x384 : S512x384.ShapeCasts S512x384
  bitsLt_bf16_f32 : FTy.bits .bf16 < FTy.bits .f32
  h_S256x384 : 0 < S256x384.numel
  shapeCasts_S256x384_S256x384 : S256x384.ShapeCasts S256x384
  inb_S8_S1_0 : ∀ a, (![0] : Fin 1 → Nat) a + S1.size a ≤ S8.size a
  squeezes_S1_S_ : S1.Squeezes S_
  inb_S512x768_S512x384_0_384 : ∀ a, (![0, 384] : Fin 2 → Nat) a + S512x384.size a ≤ S512x768.size a
  inb_S8_S1_4 : ∀ a, (![4] : Fin 1 → Nat) a + S1.size a ≤ S8.size a
  inb_S256x384_S256x384_0_0 : ∀ a, (![0, 0] : Fin 2 → Nat) a + S256x384.size a ≤ S256x384.size a
  inb_S8_S1_1 : ∀ a, (![1] : Fin 1 → Nat) a + S1.size a ≤ S8.size a
  inb_S8_S1_5 : ∀ a, (![5] : Fin 1 → Nat) a + S1.size a ≤ S8.size a
  h_S128x384 : 0 < S128x384.numel
  inb_S128x384_S128x384_0_0 : ∀ a, (![0, 0] : Fin 2 → Nat) a + S128x384.size a ≤ S128x384.size a
  shapeCasts_S128x384_S128x384 : S128x384.ShapeCasts S128x384
  inb_S8_S1_2 : ∀ a, (![2] : Fin 1 → Nat) a + S1.size a ≤ S8.size a
  inb_S8_S1_6 : ∀ a, (![6] : Fin 1 → Nat) a + S1.size a ≤ S8.size a
  inb_S8_S1_3 : ∀ a, (![3] : Fin 1 → Nat) a + S1.size a ≤ S8.size a
  inb_S8_S1_7 : ∀ a, (![7] : Fin 1 → Nat) a + S1.size a ≤ S8.size a
  shapeCasts_S256x384_S1x256x384 : S256x384.ShapeCasts S1x256x384
  h_S1x256x384 : 0 < S1x256x384.numel
  dot_S512x768_S768x512_S512x512_1_0_0_1_n_n_wf : DotDims.WF S512x768 S768x512 S512x512 [1] [0] [0] [1] [] []
  dot_S512x768_S768x128_S512x128_1_0_0_1_n_n_wf : DotDims.WF S512x768 S768x128 S512x128 [1] [0] [0] [1] [] []
  dot_S256x64_S256x64_S256x256_1_1_0_0_n_n_wf : DotDims.WF S256x64 S256x64 S256x256 [1] [1] [0] [0] [] []
  dot_S256x256_S256x64_S256x64_1_0_0_1_n_n_wf : DotDims.WF S256x256 S256x64 S256x64 [1] [0] [0] [1] [] []
  dot_S256x512_S512x384_S256x384_1_0_0_1_n_n_wf : DotDims.WF S256x512 S512x384 S256x384 [1] [0] [0] [1] [] []
  hcc0_scratch6 : 6 + S8.numel ≤ 22
  hcc0_scratch7 : 14 + S8.numel ≤ 22
  k0_dev1_lt : ∀ d0 : Dev nD, (k0_dev1 d0) < nD
  k0_dev2_lt : ∀ d0 : Dev nD, (k0_dev2 d0) < nD
  k0_off1_inb : ∀ d0 : Dev nD, ∀ a, (k0_off1 d0) a + S768x128.size a ≤ S768x512.size a
  k0_off2_inb : ∀ d0 : Dev nD, ∀ a, (k0_off2 d0) a + S256x512.size a ≤ S512x512.size a
  k0_off3_inb : ∀ d0 : Dev nD, ∀ a, (k0_off3 d0) a + S256x384.size a ≤ S512x768.size a
  k0_off3_packedbf16 : ∀ d0 : Dev nD, (Rect.unit (s := S512x768) (k0_off3 d0) S256x384.size (k0_off3_inb d0)).PackedRows (EltTy.packing .bf16)
  k0_off4_inb : ∀ d0 : Dev nD, ∀ a, (k0_off4 d0) a + S256x384.size a ≤ S512x768.size a
  k0_off4_wordsbf16 : ∀ d0 : Dev nD, (Rect.unit (s := S512x768) (k0_off4 d0) S256x384.size (k0_off4_inb d0)).WholeWords (EltTy.packing .bf16)
  k0_dev3_lt : ∀ d0 : Dev nD, (k0_dev3 d0) < nD
  k0_off5_inb : ∀ d0 : Dev nD, ∀ a, (k0_off5 d0) a + S256x512.size a ≤ S512x512.size a
  k0_off6_inb : ∀ d0 : Dev nD, ∀ a, (k0_off6 d0) a + S256x384.size a ≤ S512x768.size a
  k0_off6_packedbf16 : ∀ d0 : Dev nD, (Rect.unit (s := S512x768) (k0_off6 d0) S256x384.size (k0_off6_inb d0)).PackedRows (EltTy.packing .bf16)
  k0_off7_inb : ∀ d0 : Dev nD, ∀ a, (k0_off7 d0) a + S256x384.size a ≤ S512x768.size a
  k0_off7_wordsbf16 : ∀ d0 : Dev nD, (Rect.unit (s := S512x768) (k0_off7 d0) S256x384.size (k0_off7_inb d0)).WholeWords (EltTy.packing .bf16)
  k0_dev4_lt : ∀ d0 : Dev nD, (k0_dev4 d0) < nD
  k0_off8_inb : ∀ d0 : Dev nD, ∀ a, (k0_off8 d0) a + S256x512.size a ≤ S512x512.size a
  k0_off9_inb : ∀ d0 : Dev nD, ∀ a, (k0_off9 d0) a + S256x512.size a ≤ S512x512.size a
  k0_off10_inb : ∀ d0 : Dev nD, ∀ a, (k0_off10 d0) a + S256x384.size a ≤ S512x768.size a
  k0_off10_packedbf16 : ∀ d0 : Dev nD, (Rect.unit (s := S512x768) (k0_off10 d0) S256x384.size (k0_off10_inb d0)).PackedRows (EltTy.packing .bf16)
  k0_off11_inb : ∀ d0 : Dev nD, ∀ a, (k0_off11 d0) a + S128x384.size a ≤ S512x768.size a
  k0_off11_wordsbf16 : ∀ d0 : Dev nD, (Rect.unit (s := S512x768) (k0_off11 d0) S128x384.size (k0_off11_inb d0)).WholeWords (EltTy.packing .bf16)
  k0_dev5_lt : ∀ d0 : Dev nD, (k0_dev5 d0) < nD
  k0_off12_inb : ∀ d0 : Dev nD, ∀ a, (k0_off12 d0) a + S256x384.size a ≤ S512x768.size a
  k0_off12_packedbf16 : ∀ d0 : Dev nD, (Rect.unit (s := S512x768) (k0_off12 d0) S256x384.size (k0_off12_inb d0)).PackedRows (EltTy.packing .bf16)
  k0_off13_inb : ∀ d0 : Dev nD, ∀ a, (k0_off13 d0) a + S128x384.size a ≤ S512x768.size a
  k0_off13_wordsbf16 : ∀ d0 : Dev nD, (Rect.unit (s := S512x768) (k0_off13 d0) S128x384.size (k0_off13_inb d0)).WholeWords (EltTy.packing .bf16)
  k0_dev6_lt : ∀ d0 : Dev nD, (k0_dev6 d0) < nD
  k0_off14_inb : ∀ d0 : Dev nD, ∀ a, (k0_off14 d0) a + S128x384.size a ≤ S512x768.size a
  k0_off14_packedbf16 : ∀ d0 : Dev nD, (Rect.unit (s := S512x768) (k0_off14 d0) S128x384.size (k0_off14_inb d0)).PackedRows (EltTy.packing .bf16)
  k0_off15_inb : ∀ d0 : Dev nD, ∀ a, (k0_off15 d0) a + S128x384.size a ≤ S512x768.size a
  k0_off15_wordsbf16 : ∀ d0 : Dev nD, (Rect.unit (s := S512x768) (k0_off15 d0) S128x384.size (k0_off15_inb d0)).WholeWords (EltTy.packing .bf16)
  k0_dev7_lt : ∀ d0 : Dev nD, (k0_dev7 d0) < nD
  k0_off16_inb : ∀ d0 : Dev nD, ∀ a, (k0_off16 d0) a + S128x384.size a ≤ S512x768.size a
  k0_off16_packedbf16 : ∀ d0 : Dev nD, (Rect.unit (s := S512x768) (k0_off16 d0) S128x384.size (k0_off16_inb d0)).PackedRows (EltTy.packing .bf16)
  k0_off17_inb : ∀ d0 : Dev nD, ∀ a, (k0_off17 d0) a + S128x384.size a ≤ S512x768.size a
  k0_off17_wordsbf16 : ∀ d0 : Dev nD, (Rect.unit (s := S512x768) (k0_off17 d0) S128x384.size (k0_off17_inb d0)).WholeWords (EltTy.packing .bf16)
  k0_dev8_lt : ∀ d0 : Dev nD, (k0_dev8 d0) < nD
  k0_off18_inb : ∀ d0 : Dev nD, ∀ a, (k0_off18 d0) a + S256x384.size a ≤ S512x768.size a
  k0_off18_wordsbf16 : ∀ d0 : Dev nD, (Rect.unit (s := S512x768) (k0_off18 d0) S256x384.size (k0_off18_inb d0)).WholeWords (EltTy.packing .bf16)
  k0_dev9_lt : ∀ d0 : Dev nD, (k0_dev9 d0) < nD
  k0_off19_inb : ∀ d0 : Dev nD, ∀ a, (k0_off19 d0) a + S256x384.size a ≤ S512x768.size a
  k0_off19_wordsbf16 : ∀ d0 : Dev nD, (Rect.unit (s := S512x768) (k0_off19 d0) S256x384.size (k0_off19_inb d0)).WholeWords (EltTy.packing .bf16)
  k0_dev10_lt : ∀ d0 : Dev nD, (k0_dev10 d0) < nD
  k0_off20_inb : ∀ d0 : Dev nD, ∀ a, (k0_off20 d0) a + S1x256x384.size a ≤ S2x256x768.size a
  k0_off21_inb : ∀ d0 : Dev nD, ∀ a, (k0_off21 d0) a + S1x256x384.size a ≤ S2x256x768.size a
  k0_off22_inb : ∀ d0 : Dev nD, ∀ a, (k0_off22 d0) a + S1x256x384.size a ≤ S2x256x768.size a
  k0_off23_inb : ∀ d0 : Dev nD, ∀ a, (k0_off23 d0) a + S1x256x384.size a ≤ S2x256x768.size a
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole

variable [Facts₀]

abbrev cc0_scratch6 : DmaSems sig S8 := SemArray.consecutive 6 S8 hcc0_scratch6
abbrev cc0_scratch7 : DmaSems sig S8 := SemArray.consecutive 14 S8 hcc0_scratch7
def dot_S512x768_S768x512_S512x512_1_0_0_1_n_n : DotDims S512x768 S768x512 S512x512 where
  lhsContracting := [1]
  rhsContracting := [0]
  lhsNonContracting := [0]
  rhsNonContracting := [1]
  lhsBatch := []
  rhsBatch := []
  wf := dot_S512x768_S768x512_S512x512_1_0_0_1_n_n_wf
def dot_S512x768_S768x128_S512x128_1_0_0_1_n_n : DotDims S512x768 S768x128 S512x128 where
  lhsContracting := [1]
  rhsContracting := [0]
  lhsNonContracting := [0]
  rhsNonContracting := [1]
  lhsBatch := []
  rhsBatch := []
  wf := dot_S512x768_S768x128_S512x128_1_0_0_1_n_n_wf
def dot_S256x64_S256x64_S256x256_1_1_0_0_n_n : DotDims S256x64 S256x64 S256x256 where
  lhsContracting := [1]
  rhsContracting := [1]
  lhsNonContracting := [0]
  rhsNonContracting := [0]
  lhsBatch := []
  rhsBatch := []
  wf := dot_S256x64_S256x64_S256x256_1_1_0_0_n_n_wf
def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf
def dot_S256x512_S512x384_S256x384_1_0_0_1_n_n : DotDims S256x512 S512x384 S256x384 where
  lhsContracting := [1]
  rhsContracting := [0]
  lhsNonContracting := [0]
  rhsNonContracting := [1]
  lhsBatch := []
  rhsBatch := []
  wf := dot_S256x512_S512x384_S256x384_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_arg4) false false (stage0_4 0) (sem0_4 0) (Memref.isWhole_whole _) (hstage0_4 0)

abbrev win0_5 : Pipeline.Window sig grid0 :=
  Pipeline.Window.whole (Memref.whole main_v1) true false (stage0_5 0) (sem0_5 0) (Memref.isWhole_whole _) (hstage0_5 0)

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x256x768 : Shape := ⟨3, ![2, 256, 768]⟩
abbrev S768x2048 : Shape := ⟨2, ![768, 2048]⟩
abbrev S2048x768 : Shape := ⟨2, ![2048, 768]⟩
abbrev S768x512 : Shape := ⟨2, ![768, 512]⟩
abbrev S2x256x2048 : Shape := ⟨3, ![2, 256, 2048]⟩
abbrev S2x256x32x64 : Shape := ⟨4, ![2, 256, 32, 64]⟩
abbrev S2x256x512 : Shape := ⟨3, ![2, 256, 512]⟩
abbrev S2x256x8x64 : Shape := ⟨4, ![2, 256, 8, 64]⟩
abbrev S2x256x8x4x64 : Shape := ⟨5, ![2, 256, 8, 4, 64]⟩
abbrev S_ : Shape := ⟨0, ![]⟩
abbrev S2x32x256x1 : Shape := ⟨4, ![2, 32, 256, 1]⟩
abbrev S2x32x256x256 : Shape := ⟨4, ![2, 32, 256, 256]⟩
abbrev S2x32x256 : Shape := ⟨3, ![2, 32, 256]⟩
abbrev S2x256x32x1 : Shape := ⟨4, ![2, 256, 32, 1]⟩
abbrev S2x32x64x256 : Shape := ⟨4, ![2, 32, 64, 256]⟩

abbrev nBuf : Space → Nat
  | .hbm => 50
  | .vmem => 0
  | .smem => 0
  | _ => 0

abbrev bufTy : (tb : Table) → Fin (tcTables nBuf tb) → BufTy
  | .hbm, ⟨0, _⟩ => ⟨S2x256x768, .f32⟩
  | .hbm, ⟨1, _⟩ => ⟨S768x2048, .f32⟩
  | .hbm, ⟨2, _⟩ => ⟨S2048x768, .f32⟩
  | .hbm, ⟨3, _⟩ => ⟨S768x512, .f32⟩
  | .hbm, ⟨4, _⟩ => ⟨S768x512, .f32⟩
  | .hbm, ⟨5, _⟩ => ⟨S2x256x2048, .f32⟩
  | .hbm, ⟨6, _⟩ => ⟨S2x256x32x64, .f32⟩
  | .hbm, ⟨7, _⟩ => ⟨S2x256x512, .f32⟩
  | .hbm, ⟨8, _⟩ => ⟨S2x256x8x64, .f32⟩
  | .hbm, ⟨9, _⟩ => ⟨S2x256x512, .f32⟩
  | .hbm, ⟨10, _⟩ => ⟨S2x256x8x64, .f32⟩
  | .hbm, ⟨11, _⟩ => ⟨S2x256x8x4x64, .f32⟩
  | .hbm, ⟨12, _⟩ => ⟨S2x256x32x64, .f32⟩
  | .hbm, ⟨13, _⟩ => ⟨S2x256x8x4x64, .f32⟩
  | .hbm, ⟨14, _⟩ => ⟨S2x256x32x64, .f32⟩
  | .hbm, ⟨15, _⟩ => ⟨S_, .f32⟩
  | .hbm, ⟨16, _⟩ => ⟨S2x256x32x64, .f32⟩
  | .hbm, ⟨17, _⟩ => ⟨S_, .f32⟩
  | .hbm, ⟨18, _⟩ => ⟨S2x32x256x1, .f32⟩
  | .hbm, ⟨19, _⟩ => ⟨S_, .f32⟩
  | .hbm, ⟨20, _⟩ => ⟨S2x32x256x1, .f32⟩
  | .hbm, ⟨21, _⟩ => ⟨S2x32x256x256, .f32⟩
  | .hbm, ⟨22, _⟩ => ⟨S_, .f32⟩
  | .hbm, ⟨23, _⟩ => ⟨S2x32x256x256, .f32⟩
  | .hbm, ⟨24, _⟩ => ⟨S2x32x256x256, .f32⟩
  | .hbm, ⟨25, _⟩ => ⟨S_, .f32⟩
  | .hbm, ⟨26, _⟩ => ⟨S2x32x256, .f32⟩
  | .hbm, ⟨27, _⟩ => ⟨S2x32x256x1, .f32⟩
  | .hbm, ⟨28, _⟩ => ⟨S2x32x256x1, .f32⟩
  | .hbm, ⟨29, _⟩ => ⟨S2x32x256x1, .f32⟩
  | .hbm, ⟨30, _⟩ => ⟨S2x32x256x1, .f32⟩
  | .hbm, ⟨31, _⟩ => ⟨S2x32x256x256, .f32⟩
  | .hbm, ⟨32, _⟩ => ⟨S2x32x256x256, .f32⟩
  | .hbm, ⟨33, _⟩ => ⟨S2x32x256x256, .f32⟩
  | .hbm, ⟨34, _⟩ => ⟨S2x32x256x1, .f32⟩
  | .hbm, ⟨35, _⟩ => ⟨S_, .f32⟩
  | .hbm, ⟨36, _⟩ => ⟨S2x32x256, .f32⟩
  | .hbm, ⟨37, _⟩ => ⟨S2x32x256x1, .f32⟩
  | .hbm, ⟨38, _⟩ => ⟨S2x32x256x1, .f32⟩
  | .hbm, ⟨39, _⟩ => ⟨S2x256x32x1, .f32⟩
  | .hbm, ⟨40, _⟩ => ⟨S2x256x32x64, .f32⟩
  | .hbm, ⟨41, _⟩ => ⟨S2x256x32x64, .f32⟩
  | .hbm, ⟨42, _⟩ => ⟨S2x32x64x256, .f32⟩
  | .hbm, ⟨43, _⟩ => ⟨S2x256x32x64, .f32⟩
  | .hbm, ⟨44, _⟩ => ⟨S2x256x32x64, .f32⟩
  | .hbm, ⟨45, _⟩ => ⟨S2x256x32x1, .f32⟩
  | .hbm, ⟨46, _⟩ => ⟨S2x256x32x64, .f32⟩
  | .hbm, ⟨47, _⟩ => ⟨S2x256x32x64, .f32⟩
  | .hbm, ⟨48, _⟩ => ⟨S2x256x2048, .f32⟩
  | .hbm, ⟨49, _⟩ => ⟨S2x256x768, .f32⟩
  | _, _ => ⟨S2x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]

class Facts₀ : Prop where
  shapeCasts_S2x256x2048_S2x256x32x64 : S2x256x2048.ShapeCasts S2x256x32x64
  shapeCasts_S2x256x512_S2x256x8x64 : S2x256x512.ShapeCasts S2x256x8x64
  bcast_S2x256x8x64_S2x256x8x4x64_0_1_2_4 : S2x256x8x64.BroadcastsInDim S2x256x8x4x64 (![0, 1, 2, 4] : Fin 4 → Fin S2x256x8x4x64.rank)
  shapeCasts_S2x256x8x4x64_S2x256x32x64 : S2x256x8x4x64.ShapeCasts S2x256x32x64
  bcast_S_S2x256x32x64 : S_.BroadcastsInDim S2x256x32x64 (![] : Fin 0 → Fin S2x256x32x64.rank)
  bcast_S_S2x32x256x1 : S_.BroadcastsInDim S2x32x256x1 (![] : Fin 0 → Fin S2x32x256x1.rank)
  bcast_S_S2x32x256x256 : S_.BroadcastsInDim S2x32x256x256 (![] : Fin 0 → Fin S2x32x256x256.rank)
  reducesTo_S2x32x256x256_S2x32x256_d3 : S2x32x256x256.ReducesTo [3] S2x32x256
  h_S_ : 0 < S_.numel
  bcast_S2x32x256_S2x32x256x1_0_1_2 : S2x32x256.BroadcastsInDim S2x32x256x1 (![0, 1, 2] : Fin 3 → Fin S2x32x256x1.rank)
  bcast_S2x32x256x1_S2x32x256x256_0_1_2_3 : S2x32x256x1.BroadcastsInDim S2x32x256x256 (![0, 1, 2, 3] : Fin 4 → Fin S2x32x256x256.rank)
  transposes_S2x32x256x1_S2x256x32x1_0_2_1_3 : S2x32x256x1.Transposes [0, 2, 1, 3] S2x256x32x1
  bcast_S2x256x32x1_S2x256x32x64_0_1_2_3 : S2x256x32x1.BroadcastsInDim S2x256x32x64 (![0, 1, 2, 3] : Fin 4 → Fin S2x256x32x64.rank)
  transposes_S2x32x64x256_S2x256x32x64_0_3_1_2 : S2x32x64x256.Transposes [0, 3, 1, 2] S2x256x32x64
  shapeCasts_S2x256x32x64_S2x256x2048 : S2x256x32x64.ShapeCasts S2x256x2048
  dot_S2x256x768_S768x2048_S2x256x2048_2_0_01_1_n_n_wf : DotDims.WF S2x256x768 S768x2048 S2x256x2048 [2] [0] [0, 1] [1] [] []
  dot_S2x256x768_S768x512_S2x256x512_2_0_01_1_n_n_wf : DotDims.WF S2x256x768 S768x512 S2x256x512 [2] [0] [0, 1] [1] [] []
  dot_S2x256x32x64_S2x256x32x64_S2x32x256x256_3_3_1_1_02_02_wf : DotDims.WF S2x256x32x64 S2x256x32x64 S2x32x256x256 [3] [3] [1] [1] [0, 2] [0, 2]
  dot_S2x256x32x64_S2x32x256x256_S2x32x64x256_1_3_3_2_02_01_wf : DotDims.WF S2x256x32x64 S2x32x256x256 S2x32x64x256 [1] [3] [3] [2] [0, 2] [0, 1]
  dot_S2x256x2048_S2048x768_S2x256x768_2_0_01_1_n_n_wf : DotDims.WF S2x256x2048 S2048x768 S2x256x768 [2] [0] [0, 1] [1] [] []

variable [Facts₀]

def dot_S2x256x768_S768x2048_S2x256x2048_2_0_01_1_n_n : DotDims S2x256x768 S768x2048 S2x256x2048 where
  lhsContracting := [2]
  rhsContracting := [0]
  lhsNonContracting := [0, 1]
  rhsNonContracting := [1]
  lhsBatch := []
  rhsBatch := []
  wf := dot_S2x256x768_S768x2048_S2x256x2048_2_0_01_1_n_n_wf
def dot_S2x256x768_S768x512_S2x256x512_2_0_01_1_n_n : DotDims S2x256x768 S768x512 S2x256x512 where
  lhsContracting := [2]
  rhsContracting := [0]
  lhsNonContracting := [0, 1]
  rhsNonContracting := [1]
  lhsBatch := []
  rhsBatch := []
  wf := dot_S2x256x768_S768x512_S2x256x512_2_0_01_1_n_n_wf
def dot_S2x256x32x64_S2x256x32x64_S2x32x256x256_3_3_1_1_02_02 : DotDims S2x256x32x64 S2x256x32x64 S2x32x256x256 where
  lhsContracting := [3]
  rhsContracting := [3]
  lhsNonContracting := [1]
  rhsNonContracting := [1]
  lhsBatch := [0, 2]
  rhsBatch := [0, 2]
  wf := dot_S2x256x32x64_S2x256x32x64_S2x32x256x256_3_3_1_1_02_02_wf
def dot_S2x256x32x64_S2x32x256x256_S2x32x64x256_1_3_3_2_02_01 : DotDims S2x256x32x64 S2x32x256x256 S2x32x64x256 where
  lhsContracting := [1]
  rhsContracting := [3]
  lhsNonContracting := [3]
  rhsNonContracting := [2]
  lhsBatch := [0, 2]
  rhsBatch := [0, 1]
  wf := dot_S2x256x32x64_S2x32x256x256_S2x32x64x256_1_3_3_2_02_01_wf
def dot_S2x256x2048_S2048x768_S2x256x768_2_0_01_1_n_n : DotDims S2x256x2048 S2048x768 S2x256x768 where
  lhsContracting := [2]
  rhsContracting := [0]
  lhsNonContracting := [0, 1]
  rhsNonContracting := [1]
  lhsBatch := []
  rhsBatch := []
  wf := dot_S2x256x2048_S2048x768_S2x256x768_2_0_01_1_n_n_wf

class Facts : Prop extends Facts₀ where

variable [Facts]
-- ==== Proof.Mesh.lean ====
import proofs.«900513_g7700000000000514_dist_attn_self_gqa_htp_b2_sq256_skv256_d768_hq8_dh64_v7x_i4_f32_1_alg».proof.Proof.Gen.KernelIdeal

namespace Cert.KernelIdeal.Mesh

open Cert.KernelIdeal Cert.KernelIdeal.Gen Idealize.ShloMosaic

-- Four devices as a 2×2 torus in Gray order: `py`, `px` are the partners along the two coordinates `cy`, `cx`; `aK·`/`aS·` (`bK·`/`bS·`) are the row offsets of the block kept / sent at each step of the left (right) column half.
def py (c : Dev nD) : Dev nD := ⟨c.val ^^^ 1, by revert c; decide⟩
def px (c : Dev nD) : Dev nD := ⟨c.val ^^^ 3, by revert c; decide⟩
def cx (c : Dev nD) : Nat := c.val / 2
def cy (c : Dev nD) : Nat := (c.val ^^^ (c.val / 2)) % 2

def aK1 (c : Dev nD) : Nat := 256 * cy c
def aS1 (c : Dev nD) : Nat := 256 * (1 - cy c)
def bK1 (c : Dev nD) : Nat := 256 * cx c
def bS1 (c : Dev nD) : Nat := 256 * (1 - cx c)
def aK2 (c : Dev nD) : Nat := aK1 c + 128 * cx c
def aS2 (c : Dev nD) : Nat := aK1 c + 128 * (1 - cx c)
def bK2 (c : Dev nD) : Nat := bK1 c + 128 * cy c
def bS2 (c : Dev nD) : Nat := bK1 c + 128 * (1 - cy c)

theorem py_py (c : Dev nD) : py (py c) = c := by revert c; decide
theorem px_px (c : Dev nD) : px (px c) = c := by revert c; decide
theorem py_px (c : Dev nD) : py (px c) = px (py c) := by revert c; decide

theorem aS1_py (c : Dev nD) : aS1 (py c) = aK1 c := by revert c; decide
theorem aK1_py (c : Dev nD) : aK1 (py c) = aS1 c := by revert c; decide
theorem aS2_px (c : Dev nD) : aS2 (px c) = aK2 c := by revert c; decide
theorem aK2_px (c : Dev nD) : aK2 (px c) = aS2 c := by revert c; decide
theorem bS1_px (c : Dev nD) : bS1 (px c) = bK1 c := by revert c; decide
theorem bK1_px (c : Dev nD) : bK1 (px c) = bS1 c := by revert c; decide
theorem bS2_py (c : Dev nD) : bS2 (py c) = bK2 c := by revert c; decide
theorem bK2_py (c : Dev nD) : bK2 (py c) = bS2 c := by revert c; decide

theorem dev1_eq (c : Dev nD) : (⟨k0_dev1 c, k0_dev1_lt c⟩ : Dev nD) = py c := by revert c; decide +kernel
theorem dev2_eq (c : Dev nD) : (⟨k0_dev2 c, k0_dev2_lt c⟩ : Dev nD) = px c := by revert c; decide +kernel
theorem dev3_eq (c : Dev nD) : (⟨k0_dev3 c, k0_dev3_lt c⟩ : Dev nD) = py c := by revert c; decide +kernel
theorem dev4_eq (c : Dev nD) : (⟨k0_dev4 c, k0_dev4_lt c⟩ : Dev nD) = px c := by revert c; decide +kernel
theorem dev5_eq (c : Dev nD) : (⟨k0_dev5 c, k0_dev5_lt c⟩ : Dev nD) = px c := by revert c; decide +kernel
theorem dev6_eq (c : Dev nD) : (⟨k0_dev6 c, k0_dev6_lt c⟩ : Dev nD) = py c := by revert c; decide +kernel
theorem dev7_eq (c : Dev nD) : (⟨k0_dev7 c, k0_dev7_lt c⟩ : Dev nD) = px c := by revert c; decide +kernel
theorem dev8_eq (c : Dev nD) : (⟨k0_dev8 c, k0_dev8_lt c⟩ : Dev nD) = py c := by revert c; decide +kernel
theorem dev9_eq (c : Dev nD) : (⟨k0_dev9 c, k0_dev9_lt c⟩ : Dev nD) = py c := by revert c; decide +kernel
theorem dev10_eq (c : Dev nD) : (⟨k0_dev10 c, k0_dev10_lt c⟩ : Dev nD) = px c := by revert c; decide +kernel

theorem off2_eq (c : Dev nD) : k0_off2 c = ![aS1 c, 0] := by revert c; decide +kernel
theorem off3_eq (c : Dev nD) : k0_off3 c = ![aS1 c, 0] := by revert c; decide +kernel
theorem off4_eq (c : Dev nD) : k0_off4 c = ![aS1 c, 0] := by revert c; decide +kernel
theorem off5_eq (c : Dev nD) : k0_off5 c = ![bS1 c, 0] := by revert c; decide +kernel
theorem off6_eq (c : Dev nD) : k0_off6 c = ![bS1 c, 384] := by revert c; decide +kernel
theorem off7_eq (c : Dev nD) : k0_off7 c = ![bS1 c, 384] := by revert c; decide +kernel
theorem off8_eq (c : Dev nD) : k0_off8 c = ![aK1 c, 0] := by revert c; decide +kernel
theorem off9_eq (c : Dev nD) : k0_off9 c = ![bK1 c, 0] := by revert c; decide +kernel
theorem off10_eq (c : Dev nD) : k0_off10 c = ![aK1 c, 0] := by revert c; decide +kernel
theorem off11_eq (c : Dev nD) : k0_off11 c = ![aS2 c, 0] := by revert c; decide +kernel
theorem off12_eq (c : Dev nD) : k0_off12 c = ![bK1 c, 384] := by revert c; decide +kernel
theorem off13_eq (c : Dev nD) : k0_off13 c = ![bS2 c, 384] := by revert c; decide +kernel
theorem off14_eq (c : Dev nD) : k0_off14 c = ![aK2 c, 0] := by revert c; decide +kernel
theorem off15_eq (c : Dev nD) : k0_off15 c = ![aK2 c, 0] := by revert c; decide +kernel
theorem off16_eq (c : Dev nD) : k0_off16 c = ![bK2 c, 384] := by revert c; decide +kernel
theorem off17_eq (c : Dev nD) : k0_off17 c = ![bK2 c, 384] := by revert c; decide +kernel
theorem off18_eq (c : Dev nD) : k0_off18 c = ![aK1 c, 0] := by revert c; decide +kernel
theorem off19_eq (c : Dev nD) : k0_off19 c = ![bK1 c, 384] := by revert c; decide +kernel
theorem off20_eq (c : Dev nD) : k0_off20 c = ![cy c, 0, 0] := by revert c; decide +kernel
theorem off21_eq (c : Dev nD) : k0_off21 c = ![cx c, 0, 384] := by revert c; decide +kernel
theorem off22_eq (c : Dev nD) : k0_off22 c = ![1 - cy c, 0, 0] := by revert c; decide +kernel
theorem off23_eq (c : Dev nD) : k0_off23 c = ![1 - cx c, 0, 384] := by revert c; decide +kernel

end Cert.KernelIdeal.Mesh
-- ==== Proof.Core.lean ====
import proofs.«900513_g7700000000000514_dist_attn_self_gqa_htp_b2_sq256_skv256_d768_hq8_dh64_v7x_i4_f32_1_alg».proof.Proof.Gen.KernelIdeal.Skeleton
import proofs.«900513_g7700000000000514_dist_attn_self_gqa_htp_b2_sq256_skv256_d768_hq8_dh64_v7x_i4_f32_1_alg».proof.Proof.Gen.KernelIdeal.Launch
import proofs.«900513_g7700000000000514_dist_attn_self_gqa_htp_b2_sq256_skv256_d768_hq8_dh64_v7x_i4_f32_1_alg».proof.Proof.Mesh
import Idealize.ShloMosaic.Lib.Pipeline.Launch
import Idealize.ShloMosaic.Lib.Pipeline.Kit
import Idealize.ShloMosaic.Lib.Tactic
import Idealize.ShloMosaic.Lib.ValueIdx

noncomputable section

namespace Cert.KernelIdeal.Proto

open Cert.KernelIdeal Cert.KernelIdeal.Gen Cert.KernelIdeal.Mesh
open Idealize.ShloMosaic Idealize.ShloMosaic.TcCoe Idealize.ShloMosaic.Rounds
open Idealize.SL Idealize.SL.RA Idealize.SL.BI

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev woM : Memref sig .tc .vmem S512x768 .f32 := Memref.whole cc0_stg2_0
abbrev outM : Memref sig .tc .vmem S2x256x768 .f32 := Memref.whole cc0_stg5_0

abbrev attM : Memref sig .tc .vmem S512x512 .f32 := Memref.whole cc0_scratch0
abbrev accM : Memref sig .tc .vmem S512x768 .bf16 := Memref.whole cc0_scratch1
abbrev la1M : Memref sig .tc .vmem S256x384 .bf16 := Memref.whole cc0_scratch2
abbrev lb1M : Memref sig .tc .vmem S256x384 .bf16 := Memref.whole cc0_scratch3
abbrev la2M : Memref sig .tc .vmem S128x384 .bf16 := Memref.whole cc0_scratch4
abbrev lb2M : Memref sig .tc .vmem S128x384 .bf16 := Memref.whole cc0_scratch5

abbrev slA1 (d : Dev nD) : Memref sig .tc .vmem S256x384 .bf16 := accM.slice (Rect.unit (s := S512x768) (k0_off4 d) S256x384.size (k0_off4_inb d)) (fun _ => rfl)
abbrev slB1 (d : Dev nD) : Memref sig .tc .vmem S256x384 .bf16 := accM.slice (Rect.unit (s := S512x768) (k0_off7 d) S256x384.size (k0_off7_inb d)) (fun _ => rfl)
abbrev slA2 (d : Dev nD) : Memref sig .tc .vmem S128x384 .bf16 := accM.slice (Rect.unit (s := S512x768) (k0_off11 d) S128x384.size (k0_off11_inb d)) (fun _ => rfl)
abbrev slB2 (d : Dev nD) : Memref sig .tc .vmem S128x384 .bf16 := accM.slice (Rect.unit (s := S512x768) (k0_off13 d) S128x384.size (k0_off13_inb d)) (fun _ => rfl)
abbrev slA3 (d : Dev nD) : Memref sig .tc .vmem S128x384 .bf16 := accM.slice (Rect.unit (s := S512x768) (k0_off15 d) S128x384.size (k0_off15_inb d)) (fun _ => rfl)
abbrev slB3 (d : Dev nD) : Memref sig .tc .vmem S128x384 .bf16 := accM.slice (Rect.unit (s := S512x768) (k0_off17 d) S128x384.size (k0_off17_inb d)) (fun _ => rfl)
abbrev slA4 (d : Dev nD) : Memref sig .tc .vmem S256x384 .bf16 := accM.slice (Rect.unit (s := S512x768) (k0_off18 d) S256x384.size (k0_off18_inb d)) (fun _ => rfl)
abbrev slB4 (d : Dev nD) : Memref sig .tc .vmem S256x384 .bf16 := accM.slice (Rect.unit (s := S512x768) (k0_off19 d) S256x384.size (k0_off19_inb d)) (fun _ => rfl)

abbrev barS : Sem sig := (SemArray.scalar (sig.barrier 0 rfl) : Sems sig S_).sem
abbrev sendS (j : Fin 8) : DmaSem sig := ⟨6 + j.val, by have := j.isLt; have h22 : sig.nDmaSem = 22 := rfl; omega⟩
abbrev recvS (j : Fin 8) : DmaSem sig := ⟨14 + j.val, by have := j.isLt; have h22 : sig.nDmaSem = 22 := rfl; omega⟩

abbrev barCell (c : Dev nD) : GSem nD τ sig := ((c : Thread nD τ), .reg barS)
abbrev sendCell (c : Dev nD) (j : Fin 8) : GSem nD τ sig := ((c : Thread nD τ), .dma (sendS j))
abbrev recvCell (c : Dev nD) (j : Fin 8) : GSem nD τ sig := ((c : Thread nD τ), .dma (recvS j))

abbrev N256 : ℕ := la1M.view.dmaCredit
abbrev N128 : ℕ := la2M.view.dmaCredit

-- Transfer `j` moves 256 rows at the first and last step of its column half, 128 at the two middle ones, and goes to `peer c j`.
def amt (j : Fin 8) : ℕ := if j.val % 4 = 0 ∨ j.val % 4 = 3 then N256 else N128
theorem amt_pos (j : Fin 8) : 0 < amt j := by unfold amt; split <;> exact View.dmaCredit_pos _ (by decide)

def peer (c : Dev nD) (j : Fin 8) : Dev nD :=
  if j.val = 0 ∨ j.val = 3 ∨ j.val = 5 ∨ j.val = 6 then py c else px c
theorem peer_peer (c : Dev nD) (j : Fin 8) : peer (peer c j) j = c := by
  unfold peer; split <;> first | exact py_py c | exact px_px c

variable (m : (ℓ : Loc nD τ sig) → Buf (Elt F) ℓ)

variable (attnC : (d : Dev nD) → Buf (Elt F) (attM.view.loc (d : Thread nD τ)))

def woC (d : Dev nD) : (cc0_stg2_0 : Ref sig .tc).ty.Contents (Elt F) :=
  (win0_2.blk (0 : Fin 1)).view.read (Elt F) (m ((d : Thread nD τ).loc main_arg2))

def attRows (d : Dev nD) (off : Fin 2 → Nat) (inb : ∀ a, off a + S256x512.size a ≤ S512x512.size a) : Vec F S256x512 .f32 :=
  attM.view.readAt (Elt F) (Rect.unit (s := S512x512) off S256x512.size inb).toLoadRect (attnC d)
def woL (d : Dev nD) : Vec F S512x384 .f32 :=
  woM.view.readAt (Elt F) (Rect.unit (s := S512x768) ![0, 0] S512x384.size inb_S512x768_S512x384_0_0).toLoadRect (woC m d)
def woR (d : Dev nD) : Vec F S512x384 .f32 :=
  woM.view.readAt (Elt F) (Rect.unit (s := S512x768) ![0, 384] S512x384.size inb_S512x768_S512x384_0_384).toLoadRect (woC m d)

-- The value each buffer holds stage by stage, as a function of the devices' local data: the four quadrants of the partial product, the sums of halves, of quarters, and the quarters glued back.
def pAs (d : Dev nD) : FVec F S256x384 .bf16 := k0_pay33 (attRows attnC d (k0_off2 d) (k0_off2_inb d)) (woL m d)
def pBs (d : Dev nD) : FVec F S256x384 .bf16 := k0_pay34 (attRows attnC d (k0_off5 d) (k0_off5_inb d)) (woR m d)
def pAk (d : Dev nD) : FVec F S256x384 .bf16 := k0_pay35 (attRows attnC d (k0_off8 d) (k0_off8_inb d)) (woL m d)
def pBk (d : Dev nD) : FVec F S256x384 .bf16 := k0_pay36 (attRows attnC d (k0_off9 d) (k0_off9_inb d)) (woR m d)

def sA1 (d : Dev nD) : FVec F S256x384 .bf16 := k0_pay37 (pAk m attnC d) (pAs m attnC (py d))
def sB1 (d : Dev nD) : FVec F S256x384 .bf16 := k0_pay39 (k0_pay38 (pBk m attnC d) (pBs m attnC (px d)))

def rows128 {α : Type} (r0 : Nat) (v : S256x384.Idx → α) : S128x384.Idx → α := fun y =>
  v (ValueIdx.ix2 ⟨(r0 + (y 0).val) % 256, Nat.mod_lt _ (by decide)⟩ ⟨(y 1).val, (y 1).isLt⟩)
def glue128 {α : Type} (r0 : Nat) (a b : S128x384.Idx → α) : S256x384.Idx → α := fun y =>
  if r0 ≤ (y 0).val ∧ (y 0).val < r0 + 128
  then a (ValueIdx.ix2 ⟨((y 0).val - r0) % 128, Nat.mod_lt _ (by decide)⟩ ⟨(y 1).val, (y 1).isLt⟩)
  else b (ValueIdx.ix2 ⟨(y 0).val % 128, Nat.mod_lt _ (by decide)⟩ ⟨(y 1).val, (y 1).isLt⟩)

def hAs (d : Dev nD) : FVec F S128x384 .bf16 := rows128 (aS2 d - aK1 d) (sA1 m attnC d)
def hAk (d : Dev nD) : FVec F S128x384 .bf16 := rows128 (aK2 d - aK1 d) (sA1 m attnC d)
def hBs (d : Dev nD) : FVec F S128x384 .bf16 := rows128 (bS2 d - bK1 d) (sB1 m attnC d)
def hBk (d : Dev nD) : FVec F S128x384 .bf16 := rows128 (bK2 d - bK1 d) (sB1 m attnC d)

def tA (d : Dev nD) : FVec F S128x384 .bf16 := k0_pay40 (hAk m attnC d) (hAs m attnC (px d))
def tB (d : Dev nD) : FVec F S128x384 .bf16 := k0_pay41 (hBk m attnC d) (hBs m attnC (py d))

def uA (d : Dev nD) : FVec F S256x384 .bf16 := glue128 (aK2 d - aK1 d) (tA m attnC d) (tA m attnC (px d))
def uB (d : Dev nD) : FVec F S256x384 .bf16 := glue128 (bK2 d - bK1 d) (tB m attnC d) (tB m attnC (py d))

abbrev rO (off : Fin 3 → Nat) (inb : ∀ a, off a + S1x256x384.size a ≤ S2x256x768.size a) : Rect S2x256x768 :=
  Rect.unit (s := S2x256x768) off S1x256x384.size inb

def outOver (d : Dev nD) (f : (cc0_stg5_0 : Ref sig .tc).ty.Contents (Elt F)) : (cc0_stg5_0 : Ref sig .tc).ty.Contents (Elt F) :=
  (outM.access (rO (k0_off23 d) (k0_off23_inb d))).write (Elt F)
    ((outM.access (rO (k0_off22 d) (k0_off22_inb d))).write (Elt F)
      ((outM.access (rO (k0_off21 d) (k0_off21_inb d))).write (Elt F)
        ((outM.access (rO (k0_off20 d) (k0_off20_inb d))).write (Elt F) f
          (k0_pay42 (uA m attnC d)) Finset.univ)
        (k0_pay43 (uB m attnC d)) Finset.univ)
      (k0_pay44 (uA m attnC (py d))) Finset.univ)
    (k0_pay1 (uB m attnC (px d))) Finset.univ

def outV (d : Dev nD) : (cc0_stg5_0 : Ref sig .tc).ty.Contents (Elt F) :=
  outOver m attnC d (fun _ => Classical.arbitrary _)

end Cert.KernelIdeal.Proto

end
-- ==== Proof.Sched.lean ====
import proofs.«900513_g7700000000000514_dist_attn_self_gqa_htp_b2_sq256_skv256_d768_hq8_dh64_v7x_i4_f32_1_alg».proof.Proof.Core

noncomputable section

namespace Cert.KernelIdeal.Proto

open Cert.KernelIdeal Cert.KernelIdeal.Gen Cert.KernelIdeal.Mesh
open Idealize.ShloMosaic Idealize.ShloMosaic.TcCoe Idealize.ShloMosaic.Rounds
open Idealize.SL Idealize.SL.RA Idealize.SL.BI
open scoped Idealize.SL.BI
open Idealize.SL.BI.BIBase Idealize.SL.Sem

variable {F : FTy → Type} [FloatOps F]

local notation "𝕄" => MT nD τ sig Unit (Elt F) ℕ UU ℕ

-- `holds c M q v`: device `c` has `M`'s elements at share `q` and they read as `v`; `owned c M`: it has them whole, at any contents.
def holds (c : Dev nD) {S : Shape} {e : EltTy} (M : Memref sig .tc .vmem S e) (q : PosShare TreeShare) (v : S.Idx → Elt F e) : sProp 𝕄 :=
  iprop(∃ f : Buf (Elt F) (M.view.loc (c : Thread nD τ)), (M.view.loc (c : Thread nD τ) ↦[M.view.set]{q} f) ∗ ⌜M.view.read (Elt F) f = v⌝)

def owned (c : Dev nD) {S : Shape} {e : EltTy} (M : Memref sig .tc .vmem S e) : sProp 𝕄 :=
  iprop(∃ f : Buf (Elt F) (M.view.loc (c : Thread nD τ)), M.view.loc (c : Thread nD τ) ↦[M.view.set]{fullShare} f)

instance holds_storable (c : Dev nD) {S : Shape} {e : EltTy} (M : Memref sig .tc .vmem S e) (q : PosShare TreeShare) (v : S.Idx → Elt F e) :
    BI.Storable (upEmb : UEmb _ 𝕄) (holds (F := F) c M q v) := by unfold holds; infer_instance
instance owned_storable (c : Dev nD) {S : Shape} {e : EltTy} (M : Memref sig .tc .vmem S e) :
    BI.Storable (upEmb : UEmb _ 𝕄) (owned (F := F) c M) := by unfold owned; infer_instance

variable (m : (ℓ : Loc nD τ sig) → Buf (Elt F) ℓ)
variable (attnC : (d : Dev nD) → Buf (Elt F) (attM.view.loc (d : Thread nD τ)))

-- What a barrier signal, the landing of the partner's transfer `j`, and the completion of its own transfer `j` hand device `c`.
def barPay (c : Dev nD) (d : Bool) : sProp 𝕄 :=
  if d then iprop(owned (px c) lb1M ∗ owned (px c) la2M ∗ reached ER (recvCell (px c) 4) 0 ∗ reached ER (recvCell (px c) 1) 0
      ∗ reached ER (recvCell (px c) 2) 0 ∗ reached ER (recvCell (px c) 7) 0)
  else iprop(owned (py c) la1M ∗ owned (py c) lb2M ∗ reached ER (recvCell (py c) 0) 0 ∗ reached ER (recvCell (py c) 5) 0
      ∗ reached ER (recvCell (py c) 6) 0 ∗ reached ER (recvCell (py c) 3) 0)

def recvPay (c : Dev nD) (j : Fin 8) : sProp 𝕄 :=
  match j with
  | ⟨0, _⟩ => iprop(holds c la1M fullShare (pAs m attnC (py c)) ∗ owned (py c) (slA1 (py c)))
  | ⟨1, _⟩ => iprop(holds c la2M fullShare (hAs m attnC (px c)) ∗ owned (px c) (slA2 (px c)))
  | ⟨2, _⟩ => holds c (slA3 (px c)) fullShare (tA m attnC (px c))
  | ⟨3, _⟩ => holds c (slA4 (py c)) fullShare (uA m attnC (py c))
  | ⟨4, _⟩ => iprop(holds c lb1M fullShare (pBs m attnC (px c)) ∗ owned (px c) (slB1 (px c)))
  | ⟨5, _⟩ => iprop(holds c lb2M fullShare (hBs m attnC (py c)) ∗ owned (py c) (slB2 (py c)))
  | ⟨6, _⟩ => holds c (slB3 (py c)) fullShare (tB m attnC (py c))
  | ⟨_ + 7, _⟩ => holds c (slB4 (px c)) fullShare (uB m attnC (px c))

def sendPay (c : Dev nD) (j : Fin 8) : sProp 𝕄 :=
  match j with
  | ⟨2, _⟩ => holds c (slA3 c) fullShare (tA m attnC c)
  | ⟨3, _⟩ => holds c (slA4 c) fullShare.left (uA m attnC c)
  | ⟨6, _⟩ => holds c (slB3 c) fullShare (tB m attnC c)
  | ⟨7, _⟩ => holds c (slB4 c) fullShare.left (uB m attnC c)
  | _ => iprop(emp)

instance barPay_storable (c : Dev nD) (d : Bool) : BI.Storable (upEmb : UEmb _ 𝕄) (barPay (F := F) c d) := by
  unfold barPay; split <;> infer_instance
instance recvPay_storable (c : Dev nD) (j : Fin 8) : BI.Storable (upEmb : UEmb _ 𝕄) (recvPay (F := F) m attnC c j) := by
  unfold recvPay; split <;> infer_instance
instance sendPay_storable (c : Dev nD) (j : Fin 8) : BI.Storable (upEmb : UEmb _ 𝕄) (sendPay (F := F) m attnC c j) := by
  unfold sendPay; split <;> infer_instance

def sendIx (sm : SemLoc sig) : Option (Fin 8) :=
  match sm with
  | .dma q => if h : 6 ≤ q.val ∧ q.val < 14 then some ⟨q.val - 6, by omega⟩ else none
  | _ => none
def recvIx (sm : SemLoc sig) : Option (Fin 8) :=
  match sm with
  | .dma q => if h : 14 ≤ q.val ∧ q.val < 22 then some ⟨q.val - 14, by omega⟩ else none
  | _ => none

theorem sendIx_send (j : Fin 8) : sendIx (.dma (sendS j) : SemLoc sig) = some j := by revert j; decide
theorem recvIx_send (j : Fin 8) : recvIx (.dma (sendS j) : SemLoc sig) = none := by revert j; decide
theorem sendIx_recv (j : Fin 8) : sendIx (.dma (recvS j) : SemLoc sig) = none := by revert j; decide
theorem recvIx_recv (j : Fin 8) : recvIx (.dma (recvS j) : SemLoc sig) = some j := by revert j; decide

-- One round per cell: two unit duties on a barrier cell, one duty of the transfer's amount on a send or a receive cell.
def Rd : Rounds.Schedule (GSem nD τ sig) Bool 𝕄 where
  duties g r :=
    if r = 0 ∧ g.1.2 = .tc then
      (if g.2 = .reg barS then Finset.univ else if (sendIx g.2).isSome ∨ (recvIx g.2).isSome then {false} else ∅)
    else ∅
  unitless _ := False
  amount g _ _ :=
    match sendIx g.2, recvIx g.2 with
    | some j, _ => amt j
    | none, some j => amt j
    | none, none => 1
  payload g _ d :=
    if g.2 = .reg barS then barPay g.1.1 d
    else match sendIx g.2, recvIx g.2 with
      | some j, _ => sendPay m attnC g.1.1 j
      | none, some j => recvPay m attnC g.1.1 j
      | none, none => iprop(emp)
  amount_pos g _ _ _ := by
    split
    · exact amt_pos _
    · exact amt_pos _
    · exact Nat.one_pos

instance Rd_payload_storable (g : GSem nD τ sig) (r : ℕ) (d : Bool) :
    BI.Storable (upEmb : UEmb _ 𝕄) ((Rd (F := F) m attnC).payload g r d) := by
  dsimp only [Rd]; split
  · infer_instance
  · split <;> infer_instance

end Cert.KernelIdeal.Proto

end
-- ==== Proof.Owed.lean ====
import proofs.«900513_g7700000000000514_dist_attn_self_gqa_htp_b2_sq256_skv256_d768_hq8_dh64_v7x_i4_f32_1_alg».proof.Proof.Sched

noncomputable section

namespace Cert.KernelIdeal.Proto

open Cert.KernelIdeal Cert.KernelIdeal.Gen Cert.KernelIdeal.Mesh
open Idealize.ShloMosaic Idealize.ShloMosaic.TcCoe

def pr (b : Bool) (c : Dev nD) : Dev nD := if b then px c else py c

theorem pr_pr (b : Bool) (c : Dev nD) : pr b (pr b c) = c := by cases b <;> first | exact py_py c | exact px_px c

-- Payment `i` of a device, in program order: along which coordinate the partner lies, the partner's semaphore, the amount. Two barrier signals, then the eight landings in the order the partners wait for them.
def pay : ℕ → Bool × SemLoc sig × ℕ
  | 0 => (false, .reg barS, 1) | 1 => (true, .reg barS, 1)
  | 2 => (false, .dma (recvS 0), amt 0) | 3 => (true, .dma (recvS 4), amt 4) | 4 => (true, .dma (recvS 1), amt 1) | 5 => (false, .dma (recvS 5), amt 5)
  | 6 => (true, .dma (recvS 2), amt 2) | 7 => (false, .dma (recvS 6), amt 6) | 8 => (false, .dma (recvS 3), amt 3) | _ => (true, .dma (recvS 7), amt 7)

def payCell (c : Dev nD) (i : ℕ) : GSem nD τ sig := ((pr (pay i).1 c : Thread nD τ), (pay i).2.1)

-- What device `c` owes for its payments `k, …, k + n - 1` (the earliest outermost), and what it still owes after the first `k` of the ten.
def Ofrom (c : Dev nD) : ℕ → ℕ → CellTallies nD τ sig Unit
  | 0, _ => 0
  | n + 1, k => Ofrom c n (k + 1) + tallyAt (payCell c k) () (pay k).2.2

def Oafter (c : Dev nD) (k : ℕ) : CellTallies nD τ sig Unit := Ofrom c (10 - k) k

def L (g : GSem nD τ sig) : Finset Unit := if g.1.2 = .tc then {()} else ∅
-- A barrier cell sits at level 1, receive cell `j` at the position of its landing among the ten payments, every other cell at 0.
def lv (g : GSem nD τ sig) (_ : Unit) : ℕ :=
  if g.2 = .reg barS then 1 else match recvIx g.2 with | some j => 2 + 2 * (j.val % 4) + j.val / 4 | none => 0

end Cert.KernelIdeal.Proto

end
-- ==== Proof.Levels.lean ====
import proofs.«900513_g7700000000000514_dist_attn_self_gqa_htp_b2_sq256_skv256_d768_hq8_dh64_v7x_i4_f32_1_alg».proof.Proof.Owed

noncomputable section

namespace Cert.KernelIdeal.Proto

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type}

local notation "𝕄" => MT nD τ sig Unit (Elt F) ℕ UU ℕ

theorem L_of_ne (g : GSem nD τ sig) (h : g.1.2 ≠ .tc) : L g = ∅ := if_neg h
theorem mem_L (c : Dev nD) (s : SemLoc sig) (u : Unit) : u ∈ L ((c : Thread nD τ), s) := by
  rw [L, if_pos rfl]; exact Finset.mem_singleton_self _

theorem lv_bar (c : Dev nD) (u : Unit) : lv (barCell c) u = 1 := if_pos rfl
theorem lv_recv (c : Dev nD) (j : Fin 8) (u : Unit) : lv (recvCell c j) u = 2 + 2 * (j.val % 4) + j.val / 4 := by
  dsimp only [lv]; rw [if_neg (fun h => by cases h), recvIx_recv]
theorem lv_stage (c : Dev nD) (q : DmaSem sig) (hq : recvIx (.dma q) = none) (u : Unit) : lv ((c : Thread nD τ), .dma q) u = 0 := by
  dsimp only [lv]; rw [if_neg (fun h => by cases h), hq]

-- Payment `i` lands on a cell of level `max 1 i`.
theorem lv_pay (c : Dev nD) {i : ℕ} (hi : i < 10) (u : Unit) : lv (payCell c i) u = if i < 2 then 1 else i := by
  interval_cases i <;> first | exact lv_bar _ u | exact lv_recv _ _ u

-- A cell owed under `Ofrom c n k` is the cell of one of the payments `k, …, k + n - 1`.
theorem Ofrom_pos {c : Dev nD} {n k : ℕ} {g : GSem nD τ sig} {u : Unit} (h : 0 < Ofrom c n k g u) :
    ∃ i, k ≤ i ∧ i < k + n ∧ g = payCell c i := by
  induction n generalizing k with
  | zero => exact absurd h (Nat.lt_irrefl 0)
  | succ n ih =>
    rcases Pipeline.add_pos_cases (D₁ := Ofrom c n (k + 1)) h with h | h
    · obtain ⟨i, hi, hn, e⟩ := ih h; exact ⟨i, by omega, by omega, e⟩
    · exact ⟨k, Nat.le_refl k, by omega, (Pipeline.tallyAt_pos h).1⟩

theorem Oafter_pos {c : Dev nD} {k : ℕ} {g : GSem nD τ sig} {u : Unit} (h : 0 < Oafter c k g u) :
    ∃ i, k ≤ i ∧ i < 10 ∧ g = payCell c i := by
  obtain ⟨i, hi, hn, e⟩ := Ofrom_pos (n := 10 - k) h; exact ⟨i, hi, by omega, e⟩

-- A wait is allowed when its cell lies strictly below the cells of all payments still to come.
theorem mayWait_of_lt (c : Dev nD) (s : SemLoc sig) (k : ℕ)
    (h : ∀ i, k ≤ i → i < 10 → lv ((c : Thread nD τ), s) () < lv (payCell c i) ()) :
    (levAts L lv : sProp 𝕄) ⊢ MayWait (c : Thread nD τ) s () (Oafter c k) :=
  Pipeline.mayWait_of_levAts (mem_L c s ()) fun g u hg => by
    obtain ⟨i, hi, h10, rfl⟩ := Oafter_pos hg; exact ⟨mem_L _ _ u, h i hi h10⟩

theorem mayWait_lv0 (c : Dev nD) (s : SemLoc sig) (hs : lv ((c : Thread nD τ), s) () = 0) (k : ℕ) :
    (levAts L lv : sProp 𝕄) ⊢ MayWait (c : Thread nD τ) s () (Oafter c k) :=
  mayWait_of_lt c s k fun i _ hi => by rw [hs, lv_pay c hi]; split <;> omega

theorem mayWait_stage (c : Dev nD) (q : DmaSem sig) (hq : recvIx (.dma q) = none) (O : CellTallies nD τ sig Unit)
    (hO : O = Oafter c 0 ∨ O = 0) : (levAts L lv : sProp 𝕄) ⊢ MayWait (c : Thread nD τ) (.dma q) () O := by
  rcases hO with rfl | rfl
  · exact mayWait_lv0 c (.dma q) (lv_stage c q hq ()) 0
  · rw [MayWait_zero]; iintro -; iempintro

theorem mayWait_send (c : Dev nD) (j : Fin 8) (k : ℕ) :
    (levAts L lv : sProp 𝕄) ⊢ MayWait (c : Thread nD τ) (.dma (sendS j)) () (Oafter c k) :=
  mayWait_lv0 c _ (lv_stage c _ (recvIx_send j) ()) k

theorem mayWait_bar (c : Dev nD) : (levAts L lv : sProp 𝕄) ⊢ MayWait (c : Thread nD τ) (.reg barS) () (Oafter c 2) :=
  mayWait_of_lt c (.reg barS) 2 fun i hi h10 => by rw [lv_bar c (), lv_pay c h10]; split <;> omega

theorem mayWait_recv (c : Dev nD) (j : Fin 8) (k : ℕ) (hk : 2 + 2 * (j.val % 4) + j.val / 4 < k) :
    (levAts L lv : sProp 𝕄) ⊢ MayWait (c : Thread nD τ) (.dma (recvS j)) () (Oafter c k) :=
  mayWait_of_lt c (.dma (recvS j)) k fun i hi h10 => by rw [lv_recv c j (), lv_pay c h10]; split <;> omega

-- Every payment goes to a partner's cell and the partner map is an involution, so the launch deals device `c` one token on its own cell per payment.
theorem cred_from (c : Dev nD) (n k : ℕ) : (Pipeline.launchCred (fun d => Ofrom d n k) c : sProp 𝕄)
    ⊢ bigSepL (List.range' k n) fun i => cred (tallyAt ((c : Thread nD τ), (pay i).2.1) () (pay i).2.2) := by
  induction n generalizing k with
  | zero => exact (Entails.of_eq (Pipeline.launchCred_zero c))
  | succ n ih =>
    rw [show (fun d => Ofrom d (n + 1) k) = fun d => Ofrom d n (k + 1) + tallyAt (payCell d k) () (pay k).2.2 from rfl,
      Pipeline.launchCred_add, List.range'_succ, bigSepL_cons]
    exact BIBase.Entails.trans BI.sep_comm (BI.sep_mono (Pipeline.launchCred_tallyAt _ (pr _) (pr _) (pr_pr _) (pr_pr _) () _ c) (ih (k + 1)))

-- The two unit tokens on the barrier cell join into one; the eight landings are listed by transfer index.
theorem creds (c : Dev nD) :
    (Pipeline.launchCred (fun d => Oafter d 0) c : sProp 𝕄)
      ⊢ iprop(cred (tallyAt (barCell c) () 2) ∗ cred (tallyAt (recvCell c 0) () (amt 0)) ∗ cred (tallyAt (recvCell c 1) () (amt 1))
          ∗ cred (tallyAt (recvCell c 2) () (amt 2)) ∗ cred (tallyAt (recvCell c 3) () (amt 3)) ∗ cred (tallyAt (recvCell c 4) () (amt 4))
          ∗ cred (tallyAt (recvCell c 5) () (amt 5)) ∗ cred (tallyAt (recvCell c 6) () (amt 6)) ∗ cred (tallyAt (recvCell c 7) () (amt 7))) := by
  refine (cred_from c 10 0).trans ?_
  simp only [List.range', bigSepL_cons_cons, bigSepL_singleton, pay]
  change iprop(_ ∗ _ ∗ _ ∗ _ ∗ _ ∗ _ ∗ _ ∗ _ ∗ _ ∗ _) ⊢ _
  iintro ⟨H0, H1, R0, R4, R1, R5, R2, R6, R3, R7⟩
  iframe R0 R1 R2 R3 R4 R5 R6 R7
  iapply ((cred_add _ _).2.trans (Entails.of_eq (congrArg cred (tallyAt_add (barCell c) () 1 1))))
  iframe

end Cert.KernelIdeal.Proto

end
-- ==== Proof.Ghost.lean ====
import proofs.«900513_g7700000000000514_dist_attn_self_gqa_htp_b2_sq256_skv256_d768_hq8_dh64_v7x_i4_f32_1_alg».proof.Proof.Owed
import proofs.«900513_g7700000000000514_dist_attn_self_gqa_htp_b2_sq256_skv256_d768_hq8_dh64_v7x_i4_f32_1_alg».proof.Proof.Gen.KernelIdeal.Frame

noncomputable section

namespace Cert.KernelIdeal.Proto

open Cert.KernelIdeal Cert.KernelIdeal.Gen Cert.KernelIdeal.Mesh
open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (attnC : (d : Dev nD) → Buf (Elt F) ((attM : Memref sig .tc .vmem S512x512 .f32).view.loc (d : Thread nD τ)))

abbrev 𝒱₀ : Variants := Variants.none

abbrev csem : Fin 17 → SemLoc sig := fun | 0 => .reg barS | 1 => .dma (sendS 0) | 2 => .dma (sendS 1) | 3 => .dma (sendS 2) | 4 => .dma (sendS 3) | 5 => .dma (sendS 4) | 6 => .dma (sendS 5) | 7 => .dma (sendS 6) | 8 => .dma (sendS 7) | 9 => .dma (recvS 0) | 10 => .dma (recvS 1) | 11 => .dma (recvS 2) | 12 => .dma (recvS 3) | 13 => .dma (recvS 4) | 14 => .dma (recvS 5) | 15 => .dma (recvS 6) | 16 => .dma (recvS 7) | ⟨_ + 17, h⟩ => absurd h (Nat.not_lt.2 (Nat.le_add_left _ _))
abbrev kcell (ck : Dev nD × Fin 17) : GSem nD τ sig := ((ck.1 : Thread nD τ), csem ck.2)

abbrev osem (i : Fin 16) : SemLoc sig := csem i.succ
abbrev kS (j : Fin 8) : Fin 17 := ⟨1 + j.val, by have := j.isLt; omega⟩
abbrev kR (j : Fin 8) : Fin 17 := ⟨9 + j.val, by have := j.isLt; omega⟩
theorem kcell_send (c : Dev nD) (j : Fin 8) : kcell (c, kS j) = sendCell c j := by fin_cases j <;> rfl
theorem kcell_recv (c : Dev nD) (j : Fin 8) : kcell (c, kR j) = recvCell c j := by fin_cases j <;> rfl

def records (K : Dev nD × Fin 17 → ℕ) : sProp 𝕄 :=
  iprop((bigSep Finset.univ fun ck : Dev nD × Fin 17 => cellInv ER (Rd m attnC) (K ck) (kcell ck))
    ∗ bigSep Finset.univ fun ck : Dev nD × Fin 17 => reached ER (kcell ck) 0)

instance records_persistent (K : Dev nD × Fin 17 → ℕ) : BI.Persistent (records m attnC K) := by unfold records; infer_instance

def payToks (c : Dev nD) : sProp 𝕄 :=
  iprop(dutyTok ER (barCell (py c)) 0 false ∗ dutyTok ER (barCell (px c)) 0 true
    ∗ (bigSep Finset.univ fun j : Fin 8 => dutyTok ER (recvCell (peer c j) j) 0 false)
    ∗ (bigSep Finset.univ fun j : Fin 8 => dutyTok ER (sendCell c j) 0 false))
def linear (c : Dev nD) : sProp 𝕄 :=
  iprop((bigSep Finset.univ fun k : Fin 17 => atPos ER (kcell (c, k)) 0 ∅ 0) ∗ payToks c)
def ghost (K : Dev nD × Fin 17 → ℕ) (c : Dev nD) : sProp 𝕄 := iprop(records m attnC K ∗ linear c)

def creds8 (c : Dev nD) : sProp 𝕄 := iprop(cred (tallyAt (recvCell c 0) () (amt 0)) ∗ cred (tallyAt (recvCell c 1) () (amt 1)) ∗ cred (tallyAt (recvCell c 2) () (amt 2)) ∗ cred (tallyAt (recvCell c 3) () (amt 3)) ∗ cred (tallyAt (recvCell c 4) () (amt 4)) ∗ cred (tallyAt (recvCell c 5) () (amt 5)) ∗ cred (tallyAt (recvCell c 6) () (amt 6)) ∗ cred (tallyAt (recvCell c 7) () (amt 7)))
def start (c : Dev nD) : sProp 𝕄 :=
  iprop((∃ K, ghost m attnC K c) ∗ cred (tallyAt (barCell c) () 2) ∗ creds8 c ∗ levAts L lv)

def scr (c : Dev nD) : sProp 𝕄 := iprop((∃ f, ((c : Thread nD τ).loc cc0_scratch0) ↦{fullShare} f) ∗ (∃ f, ((c : Thread nD τ).loc cc0_scratch1) ↦{fullShare} f) ∗ (∃ f, ((c : Thread nD τ).loc cc0_scratch2) ↦{fullShare} f) ∗ (∃ f, ((c : Thread nD τ).loc cc0_scratch3) ↦{fullShare} f) ∗ (∃ f, ((c : Thread nD τ).loc cc0_scratch4) ↦{fullShare} f) ∗ (∃ f, ((c : Thread nD τ).loc cc0_scratch5) ↦{fullShare} f))

def Φ₀ (c : Dev nD) : sProp 𝕄 := iprop(start m attnC c ∗ scr c)
def Φ₁ (c : Dev nD) : sProp 𝕄 :=
  iprop(scr c ∗ Pipeline.ownSems0 osem c)

def inC0 (c : Dev nD) : (cc0_stg0_0 : Ref sig .tc).ty.Contents (Elt F) := (win0_0.blk (0 : Fin 1)).view.read (Elt F) (m ((c : Thread nD τ).loc main_arg0))
def inC1 (c : Dev nD) : (cc0_stg1_0 : Ref sig .tc).ty.Contents (Elt F) := (win0_1.blk (0 : Fin 1)).view.read (Elt F) (m ((c : Thread nD τ).loc main_arg1))
def inC3 (c : Dev nD) : (cc0_stg3_0 : Ref sig .tc).ty.Contents (Elt F) := (win0_3.blk (0 : Fin 1)).view.read (Elt F) (m ((c : Thread nD τ).loc main_arg3))
def inC4 (c : Dev nD) : (cc0_stg4_0 : Ref sig .tc).ty.Contents (Elt F) := (win0_4.blk (0 : Fin 1)).view.read (Elt F) (m ((c : Thread nD τ).loc main_arg4))

def dats (_ : Fin 1) (c : Dev nD) : Dat τ (Elt F) Unit ℕ UU ℕ cfg0 c where
  A w := m ((cfg0.win w).arr.view.loc (c : Thread nD τ))
  after w _ := match w with
    | ⟨0, _⟩ => inC0 m c
    | ⟨1, _⟩ => inC1 m c
    | ⟨2, _⟩ => woC m c
    | ⟨3, _⟩ => inC3 m c
    | ⟨4, _⟩ => inC4 m c
    | ⟨5, _⟩ => outV m attnC c
  Φ t := match t with
    | ⟨0, _⟩ => Φ₀ m attnC c
    | ⟨_ + 1, _⟩ => Φ₁ c
  q _ := fullShare
  owed t := match t with
    | ⟨0, _⟩ => Oafter c 0
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

end Cert.KernelIdeal.Proto

end
-- ==== Proof.Tables.lean ====
import proofs.«900513_g7700000000000514_dist_attn_self_gqa_htp_b2_sq256_skv256_d768_hq8_dh64_v7x_i4_f32_1_alg».proof.Proof.Sched

noncomputable section

namespace Cert.KernelIdeal.Proto

open Cert.KernelIdeal Cert.KernelIdeal.Gen Cert.KernelIdeal.Mesh
open Idealize.ShloMosaic Idealize.ShloMosaic.TcCoe Idealize.ShloMosaic.Rounds
open Idealize.SL Idealize.SL.RA Idealize.SL.BI
open scoped Idealize.SL.BI
open Idealize.SL.BI.BIBase Idealize.SL.Sem

variable {F : FTy → Type} [FloatOps F]

local notation "𝕄" => MT nD τ sig Unit (Elt F) ℕ UU ℕ

variable (m : (ℓ : Loc nD τ sig) → Buf (Elt F) ℓ)
variable (attnC : (d : Dev nD) → Buf (Elt F) (attM.view.loc (d : Thread nD τ)))

theorem duties_bar (c : Dev nD) : (Rd (F := F) m attnC).duties (barCell c) 0 = Finset.univ := by
  dsimp only [Rd]; rw [if_pos ⟨rfl, rfl⟩, if_pos rfl]
theorem duties_send (c : Dev nD) (j : Fin 8) : (Rd (F := F) m attnC).duties (sendCell c j) 0 = {false} := by
  dsimp only [Rd]
  rw [if_pos ⟨rfl, rfl⟩, if_neg nofun, if_pos (Or.inl (by rw [sendIx_send]; rfl))]
theorem duties_recv (c : Dev nD) (j : Fin 8) : (Rd (F := F) m attnC).duties (recvCell c j) 0 = {false} := by
  dsimp only [Rd]
  rw [if_pos ⟨rfl, rfl⟩, if_neg nofun, if_pos (Or.inr (by rw [recvIx_recv]; rfl))]
theorem duties_later (g : GSem nD τ sig) : ∀ r, 1 ≤ r → (Rd (F := F) m attnC).duties g r = ∅ :=
  fun r hr => by dsimp only [Rd]; rw [if_neg fun h => by omega]

theorem amount_bar (c : Dev nD) (d : Bool) : (Rd (F := F) m attnC).amount (barCell c) 0 d = 1 := rfl
theorem amount_send (c : Dev nD) (j : Fin 8) (d : Bool) : (Rd (F := F) m attnC).amount (sendCell c j) 0 d = amt j := by
  dsimp only [Rd]; rw [sendIx_send]
theorem amount_recv (c : Dev nD) (j : Fin 8) (d : Bool) : (Rd (F := F) m attnC).amount (recvCell c j) 0 d = amt j := by
  dsimp only [Rd]; rw [sendIx_recv, recvIx_recv]

theorem expect_bar (c : Dev nD) : (Rd (F := F) m attnC).expect (barCell c) 0 = 2 := by
  unfold Schedule.expect Schedule.amountOf
  rw [duties_bar, Finset.sum_congr rfl fun d _ => amount_bar m attnC c d, Finset.sum_const, Finset.card_univ, Fintype.card_bool, smul_eq_mul]
theorem expect_send (c : Dev nD) (j : Fin 8) : (Rd (F := F) m attnC).expect (sendCell c j) 0 = amt j := by
  unfold Schedule.expect Schedule.amountOf; rw [duties_send, Finset.sum_singleton, amount_send]
theorem expect_recv (c : Dev nD) (j : Fin 8) : (Rd (F := F) m attnC).expect (recvCell c j) 0 = amt j := by
  unfold Schedule.expect Schedule.amountOf; rw [duties_recv, Finset.sum_singleton, amount_recv]

theorem payload_bar (c : Dev nD) (d : Bool) : (Rd (F := F) m attnC).payload (barCell c) 0 d = barPay c d := by
  dsimp only [Rd]; rw [if_pos rfl]
theorem payload_send (c : Dev nD) (j : Fin 8) (d : Bool) : (Rd (F := F) m attnC).payload (sendCell c j) 0 d = sendPay m attnC c j := by
  dsimp only [Rd]; rw [if_neg nofun, sendIx_send]
theorem payload_recv (c : Dev nD) (j : Fin 8) (d : Bool) : (Rd (F := F) m attnC).payload (recvCell c j) 0 d = recvPay m attnC c j := by
  dsimp only [Rd]; rw [if_neg nofun, sendIx_recv, recvIx_recv]

theorem rest_bar (c : Dev nD) : bigSep ((Rd (F := F) m attnC).duties (barCell c) 0 \ ∅) (fun d => (Rd (F := F) m attnC).payload (barCell c) 0 d) = iprop(barPay c false ∗ barPay c true) := by
  rw [Finset.sdiff_empty, duties_bar, bigSep_univ_eq_bigSepL [false, true] (by decide) (by decide), bigSepL_cons_cons, bigSepL_singleton,
    payload_bar, payload_bar]
  rfl
theorem rest_send (c : Dev nD) (j : Fin 8) : bigSep ((Rd (F := F) m attnC).duties (sendCell c j) 0 \ ∅) (fun d => (Rd (F := F) m attnC).payload (sendCell c j) 0 d) = sendPay m attnC c j := by
  rw [Finset.sdiff_empty, duties_send, bigSep_singleton, payload_send]
theorem rest_recv (c : Dev nD) (j : Fin 8) : bigSep ((Rd (F := F) m attnC).duties (recvCell c j) 0 \ ∅) (fun d => (Rd (F := F) m attnC).payload (recvCell c j) 0 d) = recvPay m attnC c j := by
  rw [Finset.sdiff_empty, duties_recv, bigSep_singleton, payload_recv]

theorem barPay_false (c : Dev nD) : barPay (F := F) c false = iprop(owned (py c) la1M ∗ owned (py c) lb2M ∗ reached ER (recvCell (py c) 0) 0
    ∗ reached ER (recvCell (py c) 5) 0 ∗ reached ER (recvCell (py c) 6) 0 ∗ reached ER (recvCell (py c) 3) 0) := rfl
theorem barPay_true (c : Dev nD) : barPay (F := F) c true = iprop(owned (px c) lb1M ∗ owned (px c) la2M ∗ reached ER (recvCell (px c) 4) 0
    ∗ reached ER (recvCell (px c) 1) 0 ∗ reached ER (recvCell (px c) 2) 0 ∗ reached ER (recvCell (px c) 7) 0) := rfl

theorem recvPay_0 (c : Dev nD) : recvPay m attnC c 0 = iprop(holds c la1M fullShare (pAs m attnC (py c)) ∗ owned (py c) (slA1 (py c))) := rfl
theorem recvPay_1 (c : Dev nD) : recvPay m attnC c 1 = iprop(holds c la2M fullShare (hAs m attnC (px c)) ∗ owned (px c) (slA2 (px c))) := rfl
theorem recvPay_2 (c : Dev nD) : recvPay m attnC c 2 = holds c (slA3 (px c)) fullShare (tA m attnC (px c)) := rfl
theorem recvPay_3 (c : Dev nD) : recvPay m attnC c 3 = holds c (slA4 (py c)) fullShare (uA m attnC (py c)) := rfl
theorem recvPay_4 (c : Dev nD) : recvPay m attnC c 4 = iprop(holds c lb1M fullShare (pBs m attnC (px c)) ∗ owned (px c) (slB1 (px c))) := rfl
theorem recvPay_5 (c : Dev nD) : recvPay m attnC c 5 = iprop(holds c lb2M fullShare (hBs m attnC (py c)) ∗ owned (py c) (slB2 (py c))) := rfl
theorem recvPay_6 (c : Dev nD) : recvPay m attnC c 6 = holds c (slB3 (py c)) fullShare (tB m attnC (py c)) := rfl
theorem recvPay_7 (c : Dev nD) : recvPay m attnC c 7 = holds c (slB4 (px c)) fullShare (uB m attnC (px c)) := rfl

theorem sendPay_2 (c : Dev nD) : sendPay m attnC c 2 = holds c (slA3 c) fullShare (tA m attnC c) := rfl
theorem sendPay_3 (c : Dev nD) : sendPay m attnC c 3 = holds c (slA4 c) fullShare.left (uA m attnC c) := rfl
theorem sendPay_6 (c : Dev nD) : sendPay m attnC c 6 = holds c (slB3 c) fullShare (tB m attnC c) := rfl
theorem sendPay_7 (c : Dev nD) : sendPay m attnC c 7 = holds c (slB4 c) fullShare.left (uB m attnC c) := rfl

end Cert.KernelIdeal.Proto

end
-- ==== Proof.Glob.lean ====
import proofs.«900513_g7700000000000514_dist_attn_self_gqa_htp_b2_sq256_skv256_d768_hq8_dh64_v7x_i4_f32_1_alg».proof.Proof.Ghost
import proofs.«900513_g7700000000000514_dist_attn_self_gqa_htp_b2_sq256_skv256_d768_hq8_dh64_v7x_i4_f32_1_alg».proof.Proof.Tables

noncomputable section

namespace Cert.KernelIdeal.Proto

open Cert.KernelIdeal Cert.KernelIdeal.Gen Cert.KernelIdeal.Mesh
open Idealize.ShloMosaic
open Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (attnC : (d : Dev nD) → Buf (Elt F) (attM.view.loc (d : Thread nD τ)))

theorem ownSemFacts : Pipeline.OwnSemFacts cfg0.spec osem := by decide

theorem kcell_injective : Function.Injective (kcell : Dev nD × Fin 17 → GSem nD τ sig) := by
  rintro ⟨c, k⟩ ⟨c', k'⟩ h
  cases (congrArg (fun g : GSem nD τ sig => g.1.1) h : c = c')
  cases (by decide : Function.Injective csem) (congrArg Prod.snd h)
  rfl
def allCells : Finset (GSem nD τ sig) := Finset.univ.map ⟨kcell, kcell_injective⟩

/-- Device `c`'s token `i`: the barrier cell's two, then one for each send and each receive cell. -/
abbrev tokOf (ci : Dev nD × Fin 18) : GSem nD τ sig × ℕ × Bool :=
  (kcell (ci.1, ⟨ci.2.val - 1, by have := ci.2.isLt; omega⟩), 0, decide (ci.2.val = 1))

theorem tokOf_injective : Function.Injective (tokOf : Dev nD × Fin 18 → GSem nD τ sig × ℕ × Bool) := by
  rintro ⟨c, i⟩ ⟨c', i'⟩ h
  obtain ⟨rfl, h1⟩ := Prod.mk.inj (kcell_injective (congrArg (·.1) h))
  have h1 := Fin.val_eq_of_eq h1
  have h2 := decide_eq_decide.1 (congrArg (·.2.2) h)
  exact congrArg _ (Fin.ext (by dsimp only at h1 h2; omega))
def allToks : Finset (GSem nD τ sig × ℕ × Bool) := Finset.univ.map ⟨tokOf, tokOf_injective⟩

def u₀ : UU :=
  (initOf (Pipeline.cells cfgs cellOf_inj) (Pipeline.launchToks cfgs cellOf_inj), initOf allCells allToks)

def toks (c : Dev nD) : sProp 𝕄 :=
  iprop(dutyTok ER (barCell c) 0 false ∗ dutyTok ER (barCell c) 0 true
    ∗ (bigSep Finset.univ fun j : Fin 8 => dutyTok ER (sendCell c j) 0 false)
    ∗ (bigSep Finset.univ fun j : Fin 8 => dutyTok ER (recvCell c j) 0 false))

/-- What a device holds of the launch element, with `X` at each of its cells. -/
def dealt (X : Dev nD × Fin 17 → sProp 𝕄) (c : Dev nD) : sProp 𝕄 :=
  iprop((bigSep Finset.univ fun k : Fin 17 => X (c, k))
    ∗ (bigSep Finset.univ fun k : Fin 17 => atPos ER (kcell (c, k)) 0 ∅ 0) ∗ (bigSep Finset.univ fun k : Fin 17 => reached ER (kcell (c, k)) 0) ∗ toks c)

def G : Dev nD → sProp 𝕄 := dealt fun ck => roundState ER (Rd m attnC) (kcell ck) 0

def G' (c : Dev nD) : sProp 𝕄 := iprop(∃ K, ghost m attnC K c)

theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep_fin17 (Φ : Fin 17 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) :=
  bigSep_univ_eq_bigSepL [0, 1, 2, 3, 4, 5, 6, 7, 8, 9, 10, 11, 12, 13, 14, 15, 16] (by decide) (by decide) Φ

theorem toks_intro (c : Dev nD) :
    (bigSep Finset.univ fun i : Fin 18 => (dutyTok ER (tokOf (c, i)).1 0 (tokOf (c, i)).2.2 : sProp 𝕄)) ⊢ toks c := by
  unfold toks
  rw [show ∀ Φ : Fin 18 → sProp 𝕄, bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) from
    bigSep_univ_eq_bigSepL [0, 1, 2, 3, 4, 5, 6, 7, 8, 9, 10, 11, 12, 13, 14, 15, 16, 17] (by decide) (by decide), bigSep_fin8, bigSep_fin8]
  simp only [tokOf, Fin.coe_ofNat_eq_mod, Nat.reduceMod, Nat.reduceSub, Nat.reduceEqDiff, Fin.val_zero, Fin.val_one, decide_true, decide_false]
  iintro ⟨H0, H1, H2, H3, H4, H5, H6, H7, H8, H9, H10, H11, H12, H13, H14, H15, H16, H17⟩
  iframe

theorem fund_all : BI.own (ER (initOf allCells allToks)) ⊢ (|==> bigSep Finset.univ (G m attnC) : sProp 𝕄) := by
  have hX (Φ : GSem nD τ sig → sProp 𝕄) : bigSep allCells Φ = bigSep Finset.univ fun c : Dev nD => bigSep Finset.univ fun k : Fin 17 => Φ (kcell (c, k)) := by
    unfold allCells; rw [bigSep_map, bigSep_univ_prod]; rfl
  have hT : bigSep allToks (fun x => (dutyTok ER x.1 x.2.1 x.2.2 : sProp 𝕄)) ⊢ bigSep Finset.univ fun c : Dev nD => toks c := by
    unfold allToks; rw [bigSep_map, bigSep_univ_prod]
    exact bigSep_mono fun c _ => toks_intro c
  iintro HX
  imod (Rounds.fund ER (Rd m attnC) allCells allToks) $$ HX with ⟨Hst, Hr, Hat, Htok⟩
  imodintro
  ihave Hst := (Entails.of_eq (hX _)) $$ Hst
  ihave Hr := (Entails.of_eq (hX _)) $$ Hr
  ihave Hat := (Entails.of_eq (hX _)) $$ Hat
  ihave Htok := hT $$ Htok
  unfold G dealt; simp only [bigSep_sep']
  iframe

theorem hu₀_all : (ownU (u₀ : UU) : sProp 𝕄)
    ⊢ |={Set.univ}=> iprop(BI.own (EP (initOf (Pipeline.cells cfgs cellOf_inj) (Pipeline.launchToks cfgs cellOf_inj))) ∗ bigSep Finset.univ (G m attnC)) := by
  unfold u₀
  iintro Hu
  icases (ownU_pair _ _) $$ Hu with ⟨HP, HX⟩
  imod (fund_all m attnC) $$ HX with HG
  imodintro
  iframe

theorem ownSems0_eq' (c : Dev nD) : (Pipeline.ownSems0 osem c : sProp 𝕄)
    = iprop(semVal (sendCell c 0) 0 ∗ semVal (sendCell c 1) 0 ∗ semVal (sendCell c 2) 0 ∗ semVal (sendCell c 3) 0 ∗ semVal (sendCell c 4) 0 ∗ semVal (sendCell c 5) 0 ∗ semVal (sendCell c 6) 0 ∗ semVal (sendCell c 7) 0 ∗ semVal (recvCell c 0) 0 ∗ semVal (recvCell c 1) 0 ∗ semVal (recvCell c 2) 0 ∗ semVal (recvCell c 3) 0 ∗ semVal (recvCell c 4) 0 ∗ semVal (recvCell c 5) 0 ∗ semVal (recvCell c 6) 0 ∗ semVal (recvCell c 7) 0) := by
  rw [Pipeline.ownSems0_eq_of_list c osem [0, 1, 2, 3, 4, 5, 6, 7, 8, 9, 10, 11, 12, 13, 14, 15] (by decide) (by decide)]; rfl

theorem sems0_eq (c : Dev nD) :
    iprop(Pipeline.ownSems0 osem c ∗ unscopedSems0 c) ⊢ (bigSep Finset.univ fun k : Fin 17 => semVal (kcell (c, k)) 0 : sProp 𝕄) := by
  unfold unscopedSems0
  rw [ownSems0_eq', bigSep_eq_bigSepL_of_eq [SemLoc.reg barS] (by decide) (by decide), bigSepL_singleton, bigSep_fin17]
  iintro ⟨HO, HB⟩
  isplitl [HB]; · iexact HB
  iexact HO

theorem core_alloc (c : Dev nD) :
    iprop(Pipeline.ownSems0 osem c ∗ unscopedSems0 c ∗ G m attnC c)
      ⊢ |={Set.univ}=> dealt (fun ck => iprop(∃ κ : ℕ, cellInv ER (Rd m attnC) κ (kcell ck))) c := by
  unfold G dealt
  iintro ⟨Hos, Hus, Hst, Hrest⟩
  imod ((sep_mono_left (sems0_eq (F := F) c)).trans ((Entails.of_eq (bigSep_sep' _ _ _).symm).trans
    ((bigSep_mono fun k _ => (Rounds.body_intro ER (Rd m attnC) (kcell (c, k))).trans inv_alloc).trans (bigSep_fupd _ _)))) $$ [$Hos $Hus $Hst] with Hinv
  imodintro
  iframe

def pyE : Dev nD ≃ Dev nD := ⟨py, py, py_py, py_py⟩
def pxE : Dev nD ≃ Dev nD := ⟨px, px, px_px, px_px⟩
def peerE : Dev nD × Fin 8 ≃ Dev nD × Fin 8 :=
  ⟨fun cj => (peer cj.1 cj.2, cj.2), fun cj => (peer cj.1 cj.2, cj.2),
    fun cj => by show (peer (peer cj.1 cj.2) cj.2, cj.2) = cj; rw [peer_peer],
    fun cj => by show (peer (peer cj.1 cj.2) cj.2, cj.2) = cj; rw [peer_peer]⟩

/-- Reindexed along the partner maps, each its own inverse, every token is with the device that pays it. -/
theorem toks_around : (bigSep Finset.univ fun c : Dev nD => (toks c : sProp 𝕄)) ⊢ bigSep Finset.univ fun c : Dev nD => payToks c := by
  have hR : (bigSep Finset.univ fun c : Dev nD => bigSep Finset.univ fun j : Fin 8 => (dutyTok ER (recvCell c j) 0 false : sProp 𝕄))
      = bigSep Finset.univ fun c : Dev nD => bigSep Finset.univ fun j : Fin 8 => dutyTok ER (recvCell (peer c j) j) 0 false :=
    (bigSep_univ_prod (fun cj : Dev nD × Fin 8 => (dutyTok ER (recvCell cj.1 cj.2) 0 false : sProp 𝕄))).symm.trans
      ((bigSep_univ_equiv peerE _).trans (bigSep_univ_prod _))
  unfold toks payToks
  simp only [bigSep_sep']
  rw [hR]
  iintro ⟨H1, H2, H3, H4⟩
  ihave H1 := (Entails.of_eq (bigSep_univ_equiv pyE _)) $$ H1
  ihave H2 := (Entails.of_eq (bigSep_univ_equiv pxE _)) $$ H2
  iframe H3 H4
  isplitl [H1]; · iexact H1
  iexact H2

theorem regroup :
    bigSep Finset.univ (dealt fun ck => iprop(∃ κ : ℕ, cellInv ER (Rd m attnC) κ (kcell ck)) : Dev nD → sProp 𝕄) ⊢ bigSep Finset.univ (G' m attnC) := by
  unfold dealt
  simp only [bigSep_sep']
  rw [← bigSep_univ_prod (fun ck : Dev nD × Fin 17 => iprop(∃ κ : ℕ, cellInv ER (Rd m attnC) κ (kcell ck))),
    ← bigSep_univ_prod (fun ck : Dev nD × Fin 17 => (reached ER (kcell ck) 0 : sProp 𝕄))]
  iintro ⟨HI, Hat, #HR, Htok⟩
  icases (BI.bigSep_exists_pi (Y := fun _ => ℕ) _ _) $$ HI with ⟨%K, #HI⟩
  ihave Htk := (toks_around (F := F)) $$ Htok
  iapply (bigSep_with_persistent (R := records m attnC K) fun c _ => show _ ⊢ G' m attnC c from exists_intro (Φ := fun K => ghost m attnC K c) K)
  unfold records linear
  rw [bigSep_sep']
  iframe # ∗

theorem glob : (bigSep Finset.univ fun c => iprop(Pipeline.ownSems0 osem c ∗ unscopedSems0 c ∗ G m attnC c) : sProp 𝕄)
    ⊢ |={Set.univ}=> bigSep Finset.univ (G' m attnC) :=
  ((bigSep_mono fun c _ => core_alloc m attnC c).trans (bigSep_fupd _ _)).trans (BI.fupd_mono (regroup m attnC))

end Cert.KernelIdeal.Proto

end
-- ==== Proof.Launch.lean ====
import proofs.«900513_g7700000000000514_dist_attn_self_gqa_htp_b2_sq256_skv256_d768_hq8_dh64_v7x_i4_f32_1_alg».proof.Proof.Levels
import proofs.«900513_g7700000000000514_dist_attn_self_gqa_htp_b2_sq256_skv256_d768_hq8_dh64_v7x_i4_f32_1_alg».proof.Proof.Ghost
import proofs.«900513_g7700000000000514_dist_attn_self_gqa_htp_b2_sq256_skv256_d768_hq8_dh64_v7x_i4_f32_1_alg».proof.Proof.Glob

noncomputable section

namespace Cert.KernelIdeal.Proto

open Cert.KernelIdeal Cert.KernelIdeal.Gen Cert.KernelIdeal.Mesh
open Idealize.ShloMosaic
open Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (attnC : (d : Dev nD) → Buf (Elt F) (attM.view.loc (d : Thread nD τ)))

theorem share_eq (c : Dev nD) (w : Fin cfg0.W) : (dats m attnC 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => Oafter d 0) c ∗ prngReg c (ρ c) ∗ G' m attnC c)
      ⊢ |={Set.univ}=> iprop(start m attnC c ∗ emp) := by
  iintro ⟨-, Hlev, Hcr, -, HG⟩
  icases (creds (F := F) c) $$ Hcr with ⟨H1, H8⟩
  imodintro
  unfold start G' creds8
  iframe

theorem phi0_intro (c : Dev nD) :
    iprop(start m attnC c ∗ Pipeline.prefHeld Pipeline.Prefetch.none c (fun _ => fullShare.right) (fun k => k.elim0) ∗ Pipeline.scopedRest cfg0.spec c)
      ⊢ (dats m attnC 0 c).Φ 0 := by
  rw [show (dats m attnC 0 c).Φ 0 = Φ₀ m attnC c from rfl, scopedRest0_eq]
  unfold Φ₀ scr
  iintro ⟨Hs, -, Hr⟩
  iframe

theorem phi1_exit (c : Dev nD) :
    (dats m attnC 0 c).Φ (Fin.last cfg0.N) ⊢ iprop(emp ∗ Pipeline.ownSems0 osem c ∗ Pipeline.scopedRest cfg0.spec c) := by
  rw [show (dats m attnC 0 c).Φ (Fin.last cfg0.N) = Φ₁ c from rfl, scopedRest0_eq]
  unfold Φ₁ scr
  iintro ⟨Hr, Hz⟩
  iframe

theorem waits (c : Dev nD) : (levAts L lv : sProp 𝕄) ⊢ Pipeline.cellsWaits cfgs (dats m attnC) () 0 c :=
  Pipeline.cellsWaits_intro cfgs (dats m attnC) () 0 c fun w s t =>
    mayWait_stage c _ (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m attnC 0 c).arrAt w cfg0.N

def QC : PUnit × MemSt nD τ sig (Elt F) → Prop := fun r =>
  ∀ c : Dev nD, ∀ w : Fin cfg0.W, r.2.mem ((cfg0.win w).arr.view.loc (c : Thread nD τ)) = finalA m attnC c w

set_option maxRecDepth 8000 in
theorem run_main (hbody : ∀ c : Dev nD, BodyObligation (dats (F := F) m attnC 0 c) (defs₀ (F := F)) 𝒱₀ () Set.univ) :
    θ_run defs (onTc (τ := τ) (main (F := F))) ⟨m, fun _ => 0, ρ⟩ (QC m attnC) :=
  Pipeline.θ_run_region_owing_glob_pf (fun p => (cfgs p).toPCfg) (fun p => (cfgs p).toPCfg_adm) (dats m attnC) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m attnC)
    (hdistinct := winFacts0.arr_inj)
    (howed₀ := fun _ => rfl) (howedN := fun _ => rfl) (hL := L_of_ne) (hwaits := waits m attnC)
    (hu₀ := hu₀_all m attnC) (hglob := glob m attnC)
    (hA := fun _ _ => rfl) (hpf := fun _ k => k.elim0)
    (hX := start_intro m ρ attnC) (hin := phi0_intro m attnC) (hout := phi1_exit m attnC)
    (QY := fun _ _ => True)
    (hY := fun c s' => by
      iintro ⟨-, -, HSI⟩
      imodintro
      iframe)
    (hQ := fun _ h c w => (h c).1 w)

theorem finalA_in (c : Dev nD) (w : Fin cfg0.W) (hw : w.val < 5) :
    finalA m attnC c w = m ((cfg0.win w).arr.view.loc (c : Thread nD τ)) := by
  fin_cases w <;> first | exact absurd hw (by decide) | exact (dats (F := F) m attnC 0 c).arrAt_in _ rfl _

theorem after_out (c : Dev nD) (t : Fin cfg0.N) : (dats (F := F) m attnC 0 c).after 5 t = outV m attnC c := by dsimp only [dats]

theorem finalA_out (c : Dev nD) : finalA m attnC c (5 : Fin 6) = outV m attnC c := by
  unfold finalA
  rw [show cfg0.N = (t₀ : Fin cfg0.N).val + 1 from rfl, (dats (F := F) m attnC 0 c).arrAt_succ (5 : Fin 6) t₀, if_pos (flush0_5 t₀)]
  have hz : (fun a => (win0_5.index t₀) a * main_v1.ty.shape.size a) = fun _ => 0 := funext fun a => by fin_cases a <;> decide
  refine (Memref.write_access_unit_zero_univ (Elt F) main_v1 hz (fun a => by fin_cases a <;> decide) _ _).trans ?_
  show (cfg0.win (5 : Fin 6)).cut _ ((dats (F := F) m attnC 0 c).after 5 t₀) = _
  rw [after_out]
  exact funext fun j => congrArg (outV m attnC c) (funext fun a => Fin.ext rfl)

end Cert.KernelIdeal.Proto

end
-- ==== Proof.Offs.lean ====
import proofs.«900513_g7700000000000514_dist_attn_self_gqa_htp_b2_sq256_skv256_d768_hq8_dh64_v7x_i4_f32_1_alg».proof.Proof.Mesh
import Idealize.ShloMosaic.Lib.Tactic

namespace Cert.KernelIdeal.Mesh

open Cert.KernelIdeal Cert.KernelIdeal.Gen Idealize.ShloMosaic

instance (c : Dev nD) : ClosedOff (k0_off2 c) := ⟨_, off2_eq c⟩
instance (c : Dev nD) : ClosedOff (k0_off3 c) := ⟨_, off3_eq c⟩
instance (c : Dev nD) : ClosedOff (k0_off4 c) := ⟨_, off4_eq c⟩
instance (c : Dev nD) : ClosedOff (k0_off5 c) := ⟨_, off5_eq c⟩
instance (c : Dev nD) : ClosedOff (k0_off6 c) := ⟨_, off6_eq c⟩
instance (c : Dev nD) : ClosedOff (k0_off7 c) := ⟨_, off7_eq c⟩
instance (c : Dev nD) : ClosedOff (k0_off8 c) := ⟨_, off8_eq c⟩
instance (c : Dev nD) : ClosedOff (k0_off9 c) := ⟨_, off9_eq c⟩
instance (c : Dev nD) : ClosedOff (k0_off10 c) := ⟨_, off10_eq c⟩
instance (c : Dev nD) : ClosedOff (k0_off11 c) := ⟨_, off11_eq c⟩
instance (c : Dev nD) : ClosedOff (k0_off12 c) := ⟨_, off12_eq c⟩
instance (c : Dev nD) : ClosedOff (k0_off13 c) := ⟨_, off13_eq c⟩
instance (c : Dev nD) : ClosedOff (k0_off14 c) := ⟨_, off14_eq c⟩
instance (c : Dev nD) : ClosedOff (k0_off15 c) := ⟨_, off15_eq c⟩
instance (c : Dev nD) : ClosedOff (k0_off16 c) := ⟨_, off16_eq c⟩
instance (c : Dev nD) : ClosedOff (k0_off17 c) := ⟨_, off17_eq c⟩
instance (c : Dev nD) : ClosedOff (k0_off18 c) := ⟨_, off18_eq c⟩
instance (c : Dev nD) : ClosedOff (k0_off19 c) := ⟨_, off19_eq c⟩
instance (c : Dev nD) : ClosedOff (k0_off20 c) := ⟨_, off20_eq c⟩
instance (c : Dev nD) : ClosedOff (k0_off21 c) := ⟨_, off21_eq c⟩
instance (c : Dev nD) : ClosedOff (k0_off22 c) := ⟨_, off22_eq c⟩
instance (c : Dev nD) : ClosedOff (k0_off23 c) := ⟨_, off23_eq c⟩

end Cert.KernelIdeal.Mesh
-- ==== Proof.AttnOf.lean ====
import proofs.«900513_g7700000000000514_dist_attn_self_gqa_htp_b2_sq256_skv256_d768_hq8_dh64_v7x_i4_f32_1_alg».proof.Proof.Ghost
import proofs.«900513_g7700000000000514_dist_attn_self_gqa_htp_b2_sq256_skv256_d768_hq8_dh64_v7x_i4_f32_1_alg».proof.Proof.Offs

noncomputable section

namespace Cert.KernelIdeal.Proto

open Cert.KernelIdeal Cert.KernelIdeal.Gen Cert.KernelIdeal.Mesh
open Idealize.ShloMosaic
open Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

def xIn (c : Dev nD) : Vec F S2x256x768 .f32 :=
  View.readAt (Elt F) (Memref.whole cc0_stg0_0 : Memref sig .tc .vmem S2x256x768 .f32).view (Rect.unit (s := S2x256x768) ![0, 0, 0] S2x256x768.size inb_S2x256x768_S2x256x768_0_0_0).toLoadRect (inC0 m c)
def wqIn (c : Dev nD) : Vec F S768x512 .f32 :=
  View.readAt (Elt F) (Memref.whole cc0_stg1_0 : Memref sig .tc .vmem S768x512 .f32).view (Rect.unit (s := S768x512) ![0, 0] S768x512.size inb_S768x512_S768x512_0_0).toLoadRect (inC1 m c)
def wkIn (c : Dev nD) : Vec F S768x128 .f32 :=
  View.readAt (Elt F) (Memref.whole cc0_stg3_0 : Memref sig .tc .vmem S768x512 .f32).view (Rect.unit (s := S768x512) (k0_off1 c) S768x128.size (k0_off1_inb c)).toLoadRect (inC3 m c)
def wvIn (c : Dev nD) : Vec F S768x128 .f32 :=
  View.readAt (Elt F) (Memref.whole cc0_stg4_0 : Memref sig .tc .vmem S768x512 .f32).view (Rect.unit (s := S768x512) (k0_off1 c) S768x128.size (k0_off1_inb c)).toLoadRect (inC4 m c)

def w3 (c : Dev nD) : BitVec 32 := Scalar.shrui (Scalar.remsi (Scalar.divsi c.word 1#32) 4#32) 1#32
def w5 (c : Dev nD) : BitVec 32 := Scalar.andi (Scalar.xori (Scalar.remsi (Scalar.divsi c.word 1#32) 4#32) (Scalar.shrui (Scalar.remsi (Scalar.divsi c.word 1#32) 4#32) 1#32)) 1#32
def w6 (c : Dev nD) : BitVec 32 := Scalar.xori (Scalar.remsi (Scalar.divsi c.word 1#32) 4#32) 1#32

/-- A part of the body applied to the body's own twelve buffers and two semaphore arrays. -/
abbrev bufs {α : Sort _} (k : (a0 : Memref sig .tc .vmem S2x256x768 .f32) → a0.IsWhole → (a1 : Memref sig .tc .vmem S768x512 .f32) → a1.IsWhole → (a2 : Memref sig .tc .vmem S512x768 .f32) → a2.IsWhole → (a3 : Memref sig .tc .vmem S768x512 .f32) → a3.IsWhole → (a4 : Memref sig .tc .vmem S768x512 .f32) → a4.IsWhole → (a5 : Memref sig .tc .vmem S2x256x768 .f32) → a5.IsWhole → (a6 : Memref sig .tc .vmem S512x512 .f32) → a6.IsWhole → (a7 : Memref sig .tc .vmem S512x768 .bf16) → a7.IsWhole → (a8 : Memref sig .tc .vmem S256x384 .bf16) → a8.IsWhole → (a9 : Memref sig .tc .vmem S256x384 .bf16) → a9.IsWhole → (a10 : Memref sig .tc .vmem S128x384 .bf16) → a10.IsWhole → (a11 : Memref sig .tc .vmem S128x384 .bf16) → a11.IsWhole → DmaSems sig S8 → DmaSems sig S8 → α) : α :=
  k (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7

def localParts (c : Dev nD) : Prog (TpuEff nD τ sig (Elt F) Λ₀ .tc) (Σ' (v239 : BitVec 32) (v241 : BitVec 32) (v242 : BitVec 32) (v244 : BitVec 32) (v246 : BitVec 32), BitVec 32) := do
  let ⟨v30, v70⟩ : Σ' (v30 : FVec F S512x128 .f32), FVec F S256x64 .f32 ← bufs k0_part2 (k0_pay2 (xIn m c)) (k0_pay3 (xIn m c) (wqIn m c)) (k0_pay4 (wvIn m c)) (k0_pay5 (xIn m c) (wkIn m c))
  let ⟨v109, v110, v111, cst_43⟩ : Σ' (v109 : FVec F S256x64 .f32) (v110 : FVec F S256x64 .f32) (v111 : FVec F S256x64 .f32), FVec F S256x256 .f32 ← bufs k0_part3 (k0_pay3 (xIn m c) (wqIn m c)) (k0_pay5 (xIn m c) (wkIn m c)) v30 v70
  let ⟨v150, v152⟩ : Σ' (v150 : FVec F S256x64 .f32), FVec F S256x256 .f32 ← bufs k0_part4 (k0_pay3 (xIn m c) (wqIn m c)) (k0_pay5 (xIn m c) (wkIn m c)) v30 v109 v110 v111 cst_43
  let ⟨v189, v191, v193, cst_73⟩ : Σ' (v189 : FVec F S256x64 .f32) (v191 : FVec F S256x256 .f32) (v193 : FVec F S256x1 .f32), FVec F S256x64 .f32 ← bufs k0_part5 (k0_pay3 (xIn m c) (wqIn m c)) (k0_pay5 (xIn m c) (wkIn m c)) v30 v150 v152
  let v235 : FVec F S256x64 .f32 ← bufs k0_part6 (k0_pay3 (xIn m c) (wqIn m c)) (k0_pay5 (xIn m c) (wkIn m c)) v30 v189 v191 v193 cst_73
  bufs k0_part7 c (w3 c) (w5 c) (w6 c) v235

abbrev ptW (c : Dev nD) {S : Shape} {e : EltTy} (M : Memref sig .tc .vmem S e) (f : Buf (Elt F) (M.view.loc (c : Thread nD τ))) : sProp 𝕄 :=
  M.view.loc (c : Thread nD τ) ↦{fullShare} f

set_option maxHeartbeats 8000000 in

noncomputable def attnRun (c : Dev nD) :
    { A : Buf (Elt F) (attM.view.loc (c : Thread nD τ)) //
      ∀ (f6 : Buf (Elt F) (attM.view.loc (c : Thread nD τ)))
        (f7 : Buf (Elt F) (accM.view.loc (c : Thread nD τ)))
        (E : Set ℕ) (Q : (Σ' (v239 : BitVec 32) (v241 : BitVec 32) (v242 : BitVec 32) (v244 : BitVec 32) (v246 : BitVec 32), BitVec 32) → sProp 𝕄),
        iprop(ptW c attM f6 ∗ ptW c accM f7 ∗ ptW c woM (woC m c)
          ∗ (∀ r, iprop(ptW c attM A ∗ (∃ f, ptW c accM f) ∗ ptW c woM (woC m c)) -∗ Q r))
        ⊢ wp frame (wpE (defs₀ (F := F)) Variants.none (c : Thread nD τ) none) E (localParts m c) Q } := by
  refine ⟨?_, fun f6 f7 E Q => ?run⟩
  case run =>
    iintro ⟨H6, H7, H2, Hk⟩
    unfold localParts bufs
    sl_exec_parts!
    sl_step
    iapply Hk
    isplitl [H6]; · iexact H6
    isplitl [H7]; · iexists _; iexact H7
    iexact H2

noncomputable def attnOf (c : Dev nD) : Buf (Elt F) (attM.view.loc (c : Thread nD τ)) :=
  (attnRun m c).val

theorem attnOf_eq (c : Dev nD) :
    attnOf m c = attM.view.writes (Elt F) attM.view.junk (attnRun.sl.H6_16 m c) := rfl

end Cert.KernelIdeal.Proto

end
-- ==== Proof.BodyPre.lean ====
import proofs.«900513_g7700000000000514_dist_attn_self_gqa_htp_b2_sq256_skv256_d768_hq8_dh64_v7x_i4_f32_1_alg».proof.Proof.Ghost
import proofs.«900513_g7700000000000514_dist_attn_self_gqa_htp_b2_sq256_skv256_d768_hq8_dh64_v7x_i4_f32_1_alg».proof.Proof.AttnOf

noncomputable section

namespace Cert.KernelIdeal.Proto

open Cert.KernelIdeal Cert.KernelIdeal.Gen Cert.KernelIdeal.Mesh
open Idealize.ShloMosaic
open Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × Fin 17 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m (attnOf m) K c ∗ cred (tallyAt (barCell c) () 2) ∗ creds8 c ∗ levAts L lv ∗ scr c)
    ∗ (dats m (attnOf m) 0 c).owesAt () t₀.castSucc
    ∗ (∃ d, stg c cc0_stg0_0 ((dats m (attnOf m) 0 c).before (0 : Fin 6) t₀ d))
    ∗ (∃ d, stg c cc0_stg1_0 ((dats m (attnOf m) 0 c).before (1 : Fin 6) t₀ d))
    ∗ (∃ d, stg c cc0_stg2_0 ((dats m (attnOf m) 0 c).before (2 : Fin 6) t₀ d))
    ∗ (∃ d, stg c cc0_stg3_0 ((dats m (attnOf m) 0 c).before (3 : Fin 6) t₀ d))
    ∗ (∃ d, stg c cc0_stg4_0 ((dats m (attnOf m) 0 c).before (4 : Fin 6) t₀ d))
    ∗ (∃ d, stg c cc0_stg5_0 ((dats m (attnOf m) 0 c).before (5 : Fin 6) t₀ d)))

def bodyPost (c : Dev nD) : sProp 𝕄 :=
  iprop(Φ₁ c ∗ (dats m (attnOf m) 0 c).owesAt () t₀.succ
    ∗ stg c cc0_stg0_0 (inC0 m c) ∗ stg c cc0_stg1_0 (inC1 m c) ∗ stg c cc0_stg2_0 (woC m c) ∗ stg c cc0_stg3_0 (inC3 m c)
    ∗ stg c cc0_stg4_0 (inC4 m c) ∗ stg c cc0_stg5_0 (outV m (attnOf m) c))

omit [FloatOps F] in
/-- A buffer held whole is owned through any view that covers it. -/
theorem owned_of_whole (c : Dev nD) {S : Shape} {e : EltTy} (M : Memref sig .tc .vmem S e) (h : M.view.set = Finset.univ)
    (f : Buf (Elt F) (M.view.loc (c : Thread nD τ))) : (M.view.loc (c : Thread nD τ) ↦{fullShare} f : sProp 𝕄) ⊢ owned (F := F) c M := by
  unfold owned; rw [h]; exact exists_intro f
omit [FloatOps F] in
theorem hz2 : (![0, 0] : Fin 2 → Nat) = fun _ => 0 := funext fun a => by fin_cases a <;> rfl

end Cert.KernelIdeal.Proto

end
-- ==== Proof.BodyOb.lean ====
import proofs.«900513_g7700000000000514_dist_attn_self_gqa_htp_b2_sq256_skv256_d768_hq8_dh64_v7x_i4_f32_1_alg».proof.Proof.BodyPre

noncomputable section

namespace Cert.KernelIdeal.Proto

open Cert.KernelIdeal Cert.KernelIdeal.Gen Cert.KernelIdeal.Mesh
open Idealize.ShloMosaic
open Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

seal outV in
theorem after_5 (attnC : (d : Dev nD) → Buf (Elt F) (attM.view.loc (d : Thread nD τ))) (c : Dev nD) :
    (dats m attnC 0 c).after (5 : Fin 6) t₀ = outV m attnC c := rfl

set_option maxRecDepth 8000 in
theorem body_obligation
    (hsound : ∀ (K : Dev nD × Fin 17 → ℕ) (c : Dev nD) (Kt : PUnit → sProp 𝕄),
      iprop(bodyPre m K c ∗ (bodyPost m c -∗ Kt ⟨⟩))
        ⊢ wp frame (wpE (defs₀ (F := F)) 𝒱₀ (c : Thread nD τ) none) Set.univ ((defs₀ (F := F)) Proc.tc 0 (t₀, cfg0.slots t₀)) Kt)
    (c : Dev nD) : BodyObligation (dats (F := F) m (attnOf m) 0 c) (defs₀ (F := F)) 𝒱₀ () Set.univ := fun t => by
  rw [fin_N t, bigSep_W0, bigSep_W0]
  simp only [owns_whole_eq]
  rw [show (dats m (attnOf m) 0 c).Φ t₀.castSucc = Φ₀ m (attnOf m) c from rfl, after_5]
  unfold Φ₀ start
  iintro ⟨⟨⟨⟨%K, Hg⟩, Hb, Hc8, Hlev⟩, Hscr⟩, Ho, H0, H1, H2, H3, H4, H5⟩
  iapply (hsound K c fun _ => bodyPost m c)
  unfold bodyPre
  iframe
  iintro H; iexact H

end Cert.KernelIdeal.Proto

end
-- ==== Proof.Geom.lean ====
import proofs.«900513_g7700000000000514_dist_attn_self_gqa_htp_b2_sq256_skv256_d768_hq8_dh64_v7x_i4_f32_1_alg».proof.Proof.Sched

noncomputable section

namespace Cert.KernelIdeal.Proto

open Cert.KernelIdeal Cert.KernelIdeal.Gen Cert.KernelIdeal.Mesh
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev sl256 (off : Fin 2 → Nat) (inb : ∀ a, off a + S256x384.size a ≤ S512x768.size a) : Memref sig .tc .vmem S256x384 .bf16 :=
  accM.slice (Rect.unit (s := S512x768) off S256x384.size inb) (fun _ => rfl)
abbrev sl128 (off : Fin 2 → Nat) (inb : ∀ a, off a + S128x384.size a ≤ S512x768.size a) : Memref sig .tc .vmem S128x384 .bf16 :=
  accM.slice (Rect.unit (s := S512x768) off S128x384.size inb) (fun _ => rfl)

section Through
variable {κ : Kind} {sp : Space} {s : Shape} {e : EltTy} (M : Memref sig κ sp s e) (r : Rect s) (hr : ∀ a, r.stride a = 1)

theorem load_sub : M.view.setOn r.toLoadRect.set ⊆ (M.slice r hr).view.set := by
  show M.view.setOn r.toLoadRect.set ⊆ (M.view.slice r).set
  rw [View.set_slice]; exact Finset.Subset.refl _
theorem holds_load (Val : EltTy → Type) (f : M.view.ty.Contents Val) (v : r.shape.Idx → Val e)
    (hf : (M.slice r hr).view.read Val f = v) : M.view.readAt Val r.toLoadRect f = v := hf
theorem store_sub : (M.access r).setOn Finset.univ ⊆ (M.slice r hr).view.set := Finset.Subset.refl _

end Through

theorem holds_store (c : Dev nD) (r : Rect S512x768) (hr : ∀ a, r.stride a = 1)
    (f : Buf (Elt F) ((accM.slice r hr).view.loc (c : Thread nD τ))) (w : r.shape.Idx → Elt F .bf16) :
    ((accM.slice r hr).view.loc (c : Thread nD τ) ↦[(accM.slice r hr).view.set]{fullShare} (View.write (Elt F) (accM.access r) f w Finset.univ))
      ⊢ (holds c (accM.slice r hr) fullShare w : sProp 𝕄) := by
  unfold holds
  iintro H
  iexists _
  isplitl [H]
  · iexact H
  · ipureintro; exact View.read_write_univ (v := accM.access r) f w

-- A block held or owned at one spelling of its offsets is held or owned at any equal one.
theorem holds_move256 (c : Dev nD) {off off' : Fin 2 → Nat} (h : off = off') (inb : ∀ a, off a + S256x384.size a ≤ S512x768.size a)
    (inb' : ∀ a, off' a + S256x384.size a ≤ S512x768.size a) (q : PosShare TreeShare) (v : S256x384.Idx → Elt F .bf16) :
    (holds c (sl256 off inb) q v : sProp 𝕄) ⊣⊢ holds c (sl256 off' inb') q v := by
  subst h; exact .rfl
theorem holds_move128 (c : Dev nD) {off off' : Fin 2 → Nat} (h : off = off') (inb : ∀ a, off a + S128x384.size a ≤ S512x768.size a)
    (inb' : ∀ a, off' a + S128x384.size a ≤ S512x768.size a) (q : PosShare TreeShare) (v : S128x384.Idx → Elt F .bf16) :
    (holds c (sl128 off inb) q v : sProp 𝕄) ⊣⊢ holds c (sl128 off' inb') q v := by
  subst h; exact .rfl
theorem owned_move256 (c : Dev nD) {off off' : Fin 2 → Nat} (h : off = off') (inb : ∀ a, off a + S256x384.size a ≤ S512x768.size a)
    (inb' : ∀ a, off' a + S256x384.size a ≤ S512x768.size a) :
    (owned c (sl256 off inb) : sProp 𝕄) ⊣⊢ owned c (sl256 off' inb') := by
  subst h; exact .rfl
theorem owned_move128 (c : Dev nD) {off off' : Fin 2 → Nat} (h : off = off') (inb : ∀ a, off a + S128x384.size a ≤ S512x768.size a)
    (inb' : ∀ a, off' a + S128x384.size a ≤ S512x768.size a) :
    (owned c (sl128 off inb) : sProp 𝕄) ⊣⊢ owned c (sl128 off' inb') := by
  subst h; exact .rfl

theorem owned_whole (c : Dev nD) (i : Fin (sig.nNear .tc .vmem)) (hn : sig.names .tc .vmem i = true) :
    (owned c (Memref.whole (⟨.vmem, i, hn⟩ : Ref sig .tc)) : sProp 𝕄)
      ⊣⊢ iprop(∃ f, (Memref.whole (⟨.vmem, i, hn⟩ : Ref sig .tc)).view.loc (c : Thread nD τ) ↦{fullShare} f) := by
  unfold owned
  simp only [Memref.view_whole, View.set_whole]
  exact .rfl

-- The two halves of a share agree on the contents where both hold them, and join.
theorem pointsTo_halves_join {ℓ : Loc nD τ sig} {I : Finset (Idx ℓ)} (q : PosShare TreeShare) (f g : Buf (Elt F) ℓ) :
    iprop((ℓ ↦[I]{q.left} f) ∗ ℓ ↦[I]{q.right} g) ⊢ (iprop(⌜∀ i ∈ I, g i = f i⌝ ∗ ℓ ↦[I]{q} f) : sProp 𝕄) :=
  Laws.pure_elim _ pointsTo_agree fun h => by
    have hfg : ∀ i ∈ I, g i = f i := fun i hi => ((h i (Finset.mem_inter.mpr ⟨hi, hi⟩)).1).symm
    rw [pointsTo_congr (q := q.right) hfg]
    exact ((pointsTo_share (PosShare.mem_left_op_right q)).2).trans (persistent_entails_right (BIClass.pure_intro hfg))

theorem holds_share (c : Dev nD) {S : Shape} {e : EltTy} (M : Memref sig .tc .vmem S e) (q : PosShare TreeShare) (v : S.Idx → Elt F e) :
    (holds c M q v : sProp 𝕄) ⊣⊢ iprop(holds c M q.left v ∗ holds c M q.right v) := by
  unfold holds
  constructor
  · iintro ⟨%f, H, %hf⟩
    ihave ⟨H1, H2⟩ := (pointsTo_share (PosShare.mem_left_op_right q)).1 $$ H
    isplitl [H1]
    · iexists f
      isplitl [H1]
      · iexact H1
      · ipureintro; exact hf
    · iexists f
      isplitl [H2]
      · iexact H2
      · ipureintro; exact hf
  · iintro ⟨⟨%f, H1, %hf⟩, ⟨%g, H2, %hg⟩⟩
    ihave ⟨%hfg, H⟩ := (pointsTo_halves_join q f g) $$ [H1 H2]
    · isplitl [H1]
      · iexact H1
      · iexact H2
    iexists f
    isplitl [H]
    · iexact H
    · ipureintro; exact hf

theorem set256 (off : Fin 2 → Nat) (inb : ∀ a, off a + S256x384.size a ≤ S512x768.size a) :
    (sl256 off inb).view.set = (Rect.unit (s := S512x768) off S256x384.size inb).set := View.set_slice_whole cc0_scratch1 _
theorem set128 (off : Fin 2 → Nat) (inb : ∀ a, off a + S128x384.size a ≤ S512x768.size a) :
    (sl128 off inb).view.set = (Rect.unit (s := S512x768) off S128x384.size inb).set := View.set_slice_whole cc0_scratch1 _

theorem mem256 {off : Fin 2 → Nat} {inb : ∀ a, off a + S256x384.size a ≤ S512x768.size a} {i : S512x768.Idx} :
    i ∈ (Rect.unit (s := S512x768) off S256x384.size inb).set
      ↔ (off 0 ≤ (i 0).val ∧ (i 0).val < off 0 + 256) ∧ (off 1 ≤ (i 1).val ∧ (i 1).val < off 1 + 384) := by
  rw [Rect.mem_set_unit]
  exact ⟨fun h => ⟨h 0, h 1⟩, fun h a => match a with | ⟨0, _⟩ => h.1 | ⟨1, _⟩ => h.2⟩
theorem mem128 {off : Fin 2 → Nat} {inb : ∀ a, off a + S128x384.size a ≤ S512x768.size a} {i : S512x768.Idx} :
    i ∈ (Rect.unit (s := S512x768) off S128x384.size inb).set
      ↔ (off 0 ≤ (i 0).val ∧ (i 0).val < off 0 + 128) ∧ (off 1 ≤ (i 1).val ∧ (i 1).val < off 1 + 384) := by
  rw [Rect.mem_set_unit]
  exact ⟨fun h => ⟨h 0, h 1⟩, fun h a => match a with | ⟨0, _⟩ => h.1 | ⟨1, _⟩ => h.2⟩

-- A block of 128 rows at row `k` of a block of 256 reads that block's rows from `k` on.
theorem read_quarter {off offA : Fin 2 → Nat} (inb : ∀ a, off a + S256x384.size a ≤ S512x768.size a)
    (inbA : ∀ a, offA a + S128x384.size a ≤ S512x768.size a) {k : Nat} (hk : k + 128 ≤ 256)
    (hA0 : offA 0 = off 0 + k) (hA1 : offA 1 = off 1)
    (Val : EltTy → Type) (f : accM.view.ty.Contents Val) :
    (sl128 offA inbA).view.read Val f = rows128 k ((sl256 off inb).view.read Val f) := by
  funext y
  have h0 : (y 0).val < 128 := (y 0).isLt
  have he : (sl128 offA inbA).view.emb y
      = (sl256 off inb).view.emb (ValueIdx.ix2 ⟨(k + (y 0).val) % 256, Nat.mod_lt _ (by decide)⟩ ⟨(y 1).val, (y 1).isLt⟩) :=
    funext fun a => Fin.ext (by
      match a with
      | ⟨0, _⟩ => show offA 0 + 1 * (y 0).val = off 0 + 1 * ((k + (y 0).val) % 256); omega
      | ⟨1, _⟩ => show offA 1 + 1 * (y 1).val = off 1 + 1 * (y 1).val; omega)
  exact congrArg (fun i => _root_.cast (congrArg Val (sl256 off inb).view.elt_eq) (f i)) he

/-- The blocks at `offA` and `offB` are the two halves of 128 rows of the block at `off`, the first at its row `k`, the second at `kB`. -/
abbrev Halves (off offA offB : Fin 2 → Nat) (k kB : Nat) : Prop :=
  ((k = 0 ∧ kB = 128) ∨ (k = 128 ∧ kB = 0)) ∧ offA 0 = off 0 + k ∧ offA 1 = off 1 ∧ offB 0 = off 0 + kB ∧ offB 1 = off 1

section Halves
variable {off offA offB : Fin 2 → Nat} (inb : ∀ a, off a + S256x384.size a ≤ S512x768.size a)
  (inbA : ∀ a, offA a + S128x384.size a ≤ S512x768.size a) (inbB : ∀ a, offB a + S128x384.size a ≤ S512x768.size a)
  {k kB : Nat} (h : Halves off offA offB k kB)
include h

theorem half_sub : (sl128 offA inbA).view.set ⊆ (sl256 off inb).view.set := by
  obtain ⟨hk, hA0, hA1, hB0, hB1⟩ := h
  rw [set128, set256]
  intro i hi
  rw [mem128] at hi
  rw [mem256]
  omega
theorem half_sdiff : (sl256 off inb).view.set \ (sl128 offA inbA).view.set = (sl128 offB inbB).view.set := by
  obtain ⟨hk, hA0, hA1, hB0, hB1⟩ := h
  rw [set128, set128, set256]
  ext i
  rw [Finset.mem_sdiff, mem128, mem128, mem256]
  omega

-- Contents that are `f` on the first half and `g` off it read, through the block, as the two halves' readings glued.
theorem read_glue (Val : EltTy → Type) (f g : accM.view.ty.Contents Val) :
    (sl256 off inb).view.read Val ((sl128 offA inbA).view.set.piecewise f g)
      = glue128 k ((sl128 offA inbA).view.read Val f) ((sl128 offB inbB).view.read Val g) := by
  obtain ⟨hk, hA0, hA1, hB0, hB1⟩ := h
  funext y
  have h0 : (y 0).val < 256 := (y 0).isLt
  have h1 : (y 1).val < 384 := (y 1).isLt
  unfold glue128
  by_cases hy : k ≤ (y 0).val ∧ (y 0).val < k + 128
  · rw [if_pos hy]
    have hmem : (sl256 off inb).view.emb y ∈ (sl128 offA inbA).view.set := by
      rw [set128, mem128]
      show (offA 0 ≤ off 0 + 1 * (y 0).val ∧ off 0 + 1 * (y 0).val < offA 0 + 128)
        ∧ (offA 1 ≤ off 1 + 1 * (y 1).val ∧ off 1 + 1 * (y 1).val < offA 1 + 384)
      omega
    have he : (sl256 off inb).view.emb y
        = (sl128 offA inbA).view.emb (ValueIdx.ix2 ⟨((y 0).val - k) % 128, Nat.mod_lt _ (by decide)⟩ ⟨(y 1).val, (y 1).isLt⟩) :=
      funext fun a => Fin.ext (by
        match a with
        | ⟨0, _⟩ => show off 0 + 1 * (y 0).val = offA 0 + 1 * (((y 0).val - k) % 128); omega
        | ⟨1, _⟩ => show off 1 + 1 * (y 1).val = offA 1 + 1 * (y 1).val; omega)
    show _root_.cast _ (((sl128 offA inbA).view.set.piecewise f g) ((sl256 off inb).view.emb y))
      = _root_.cast _ (f ((sl128 offA inbA).view.emb _))
    rw [Finset.piecewise_eq_of_mem _ _ _ hmem, he]
  · rw [if_neg hy]
    have hnot : (sl256 off inb).view.emb y ∉ (sl128 offA inbA).view.set := by
      rw [set128, mem128]
      show ¬((offA 0 ≤ off 0 + 1 * (y 0).val ∧ off 0 + 1 * (y 0).val < offA 0 + 128)
        ∧ (offA 1 ≤ off 1 + 1 * (y 1).val ∧ off 1 + 1 * (y 1).val < offA 1 + 384))
      omega
    have he : (sl256 off inb).view.emb y
        = (sl128 offB inbB).view.emb (ValueIdx.ix2 ⟨(y 0).val % 128, Nat.mod_lt _ (by decide)⟩ ⟨(y 1).val, (y 1).isLt⟩) :=
      funext fun a => Fin.ext (by
        match a with
        | ⟨0, _⟩ => show off 0 + 1 * (y 0).val = offB 0 + 1 * ((y 0).val % 128); omega
        | ⟨1, _⟩ => show off 1 + 1 * (y 1).val = offB 1 + 1 * (y 1).val; omega)
    show _root_.cast _ (((sl128 offA inbA).view.set.piecewise f g) ((sl256 off inb).view.emb y))
      = _root_.cast _ (g ((sl128 offB inbB).view.emb _))
    rw [Finset.piecewise_eq_of_notMem _ _ _ hnot, he]

theorem join256 (c : Dev nD) (q : PosShare TreeShare) (a b : S128x384.Idx → Elt F .bf16) :
    iprop(holds c (sl128 offA inbA) q a ∗ holds c (sl128 offB inbB) q b) ⊢ (holds c (sl256 off inb) q (glue128 k a b) : sProp 𝕄) := by
  unfold holds
  iintro ⟨⟨%f, HA, %hf⟩, ⟨%g, HB, %hg⟩⟩
  iexists ((sl128 offA inbA).view.set.piecewise f g)
  isplitl [HA HB]
  · iapply (pointsTo_join_subset (half_sub inb inbA h))
    isplitl [HA]
    · iexact HA
    · rw [half_sdiff inb inbA inbB h]; iexact HB
  · ipureintro
    subst hf hg
    exact read_glue inb inbA inbB h (Elt F) f g

theorem split256 (c : Dev nD) (q : PosShare TreeShare) (v : S256x384.Idx → Elt F .bf16) :
    (holds c (sl256 off inb) q v : sProp 𝕄)
      ⊢ iprop(holds c (sl128 offA inbA) q (rows128 k v) ∗ holds c (sl128 offB inbB) q (rows128 kB v)) := by
  unfold holds
  iintro ⟨%f, H, %hf⟩
  ihave ⟨HA, HB⟩ := (pointsTo_split_subset (half_sub inb inbA h)).1 $$ H
  rw [half_sdiff inb inbA inbB h]
  subst hf
  isplitl [HA]
  · iexists f
    isplitl [HA]
    · iexact HA
    · ipureintro; exact read_quarter inb inbA (by have := h.1; omega) h.2.1 h.2.2.1 (Elt F) f
  · iexists f
    isplitl [HB]
    · iexact HB
    · ipureintro; exact read_quarter inb inbB (by have := h.1; omega) h.2.2.2.1 h.2.2.2.2 (Elt F) f

end Halves

/-- The four blocks of 256 rows tile the accumulator: two row halves of the left columns, two of the right. -/
abbrev Quads (o1 o2 o3 o4 : Fin 2 → Nat) : Prop :=
  (o1 0 = 0 ∨ o1 0 = 256) ∧ o1 1 = 0 ∧ o2 0 = 256 - o1 0 ∧ o2 1 = 0
    ∧ (o3 0 = 0 ∨ o3 0 = 256) ∧ o3 1 = 384 ∧ o4 0 = 256 - o3 0 ∧ o4 1 = 384

section Quadrants
variable {o1 o2 o3 o4 : Fin 2 → Nat}
  (inb1 : ∀ a, o1 a + S256x384.size a ≤ S512x768.size a) (inb2 : ∀ a, o2 a + S256x384.size a ≤ S512x768.size a)
  (inb3 : ∀ a, o3 a + S256x384.size a ≤ S512x768.size a) (inb4 : ∀ a, o4 a + S256x384.size a ≤ S512x768.size a)
  (h : Quads o1 o2 o3 o4)

omit h in
theorem quad1_sub : (sl256 o1 inb1).view.set ⊆ accM.view.set := by
  rw [show accM.view.set = Finset.univ from View.set_whole cc0_scratch1]
  exact Finset.subset_univ _
include h
theorem quad2_sub : (sl256 o2 inb2).view.set
    ⊆ accM.view.set \ (sl256 o1 inb1).view.set := by
  rw [show accM.view.set = Finset.univ from View.set_whole cc0_scratch1, set256, set256]
  intro i hi
  rw [mem256] at hi
  rw [Finset.mem_sdiff, mem256]
  exact ⟨Finset.mem_univ _, by omega⟩
theorem quad3_sub : (sl256 o3 inb3).view.set
    ⊆ (accM.view.set \ (sl256 o1 inb1).view.set) \ (sl256 o2 inb2).view.set := by
  rw [show accM.view.set = Finset.univ from View.set_whole cc0_scratch1, set256, set256, set256]
  intro i hi
  rw [mem256] at hi
  rw [Finset.mem_sdiff, Finset.mem_sdiff, mem256, mem256]
  exact ⟨⟨Finset.mem_univ _, by omega⟩, by omega⟩
theorem quad4_eq : ((accM.view.set \ (sl256 o1 inb1).view.set) \ (sl256 o2 inb2).view.set)
    \ (sl256 o3 inb3).view.set = (sl256 o4 inb4).view.set := by
  rw [show accM.view.set = Finset.univ from View.set_whole cc0_scratch1, set256, set256, set256, set256]
  ext i
  have h0 : (i 0).val < 512 := (i 0).isLt
  have h1 : (i 1).val < 768 := (i 1).isLt
  rw [Finset.mem_sdiff, Finset.mem_sdiff, Finset.mem_sdiff, mem256, mem256, mem256, mem256]
  constructor
  · rintro ⟨⟨⟨-, n1⟩, n2⟩, n3⟩; omega
  · intro h'; exact ⟨⟨⟨Finset.mem_univ _, by omega⟩, by omega⟩, by omega⟩

-- The accumulator at contents `g` is its four quadrants at `g`.
theorem cut4_pt (c : Dev nD) (q : PosShare TreeShare) (g : Buf (Elt F) (accM.view.loc (c : Thread nD τ))) :
    (accM.view.loc (c : Thread nD τ) ↦{q} g : sProp 𝕄)
      ⊢ iprop((accM.view.loc (c : Thread nD τ) ↦[(sl256 o1 inb1).view.set]{q} g)
        ∗ (accM.view.loc (c : Thread nD τ) ↦[(sl256 o2 inb2).view.set]{q} g)
        ∗ (accM.view.loc (c : Thread nD τ) ↦[(sl256 o3 inb3).view.set]{q} g)
        ∗ (accM.view.loc (c : Thread nD τ) ↦[(sl256 o4 inb4).view.set]{q} g)) := by
  rw [← show accM.view.set = Finset.univ from View.set_whole cc0_scratch1]
  iintro H
  ihave ⟨H1, H⟩ := (pointsTo_split_subset (quad1_sub inb1)).1 $$ H
  ihave ⟨H2, H⟩ := (pointsTo_split_subset (quad2_sub inb1 inb2 h)).1 $$ H
  ihave ⟨H3, H4⟩ := (pointsTo_split_subset (quad3_sub inb1 inb2 inb3 h)).1 $$ H
  rw [quad4_eq inb1 inb2 inb3 inb4 h]
  isplitl [H1]
  · iexact H1
  isplitl [H2]
  · iexact H2
  isplitl [H3]
  · iexact H3
  · iexact H4

-- Four owned quadrants are the accumulator, owned: each is put back over the rest at its own contents.
theorem join4 (c : Dev nD) :
    iprop(owned c (sl256 o1 inb1) ∗ owned c (sl256 o2 inb2) ∗ owned c (sl256 o3 inb3) ∗ owned c (sl256 o4 inb4))
      ⊢ (owned c accM : sProp 𝕄) := by
  unfold owned
  iintro ⟨⟨%f1, H1⟩, ⟨%f2, H2⟩, ⟨%f3, H3⟩, ⟨%f4, H4⟩⟩
  iexists _
  iapply (pointsTo_join_subset (quad1_sub inb1))
  isplitl [H1]
  · iexact H1
  iapply (pointsTo_join_subset (quad2_sub inb1 inb2 h))
  isplitl [H2]
  · iexact H2
  iapply (pointsTo_join_subset (quad3_sub inb1 inb2 inb3 h))
  isplitl [H3]
  · iexact H3
  · rw [quad4_eq inb1 inb2 inb3 inb4 h]; iexact H4

end Quadrants

theorem off3_off4_eq (d : Dev nD) : k0_off3 d = k0_off4 d := (off3_eq d).trans (off4_eq d).symm
theorem off6_off7_eq (d : Dev nD) : k0_off6 d = k0_off7 d := (off6_eq d).trans (off7_eq d).symm
theorem off10_off18_eq (d : Dev nD) : k0_off10 d = k0_off18 d := (off10_eq d).trans (off18_eq d).symm
theorem off12_off19_eq (d : Dev nD) : k0_off12 d = k0_off19 d := (off12_eq d).trans (off19_eq d).symm
theorem off14_off15_eq (d : Dev nD) : k0_off14 d = k0_off15 d := (off14_eq d).trans (off15_eq d).symm
theorem off16_off17_eq (d : Dev nD) : k0_off16 d = k0_off17 d := (off16_eq d).trans (off17_eq d).symm
theorem off4py_off18_eq (d : Dev nD) : k0_off4 (py d) = k0_off18 d := (off4_eq (py d)).trans ((congrArg (fun r => ![r, 0]) (aS1_py d)).trans (off18_eq d).symm)
theorem off7px_off19_eq (d : Dev nD) : k0_off7 (px d) = k0_off19 d := (off7_eq (px d)).trans ((congrArg (fun r => ![r, 384]) (bS1_px d)).trans (off19_eq d).symm)
theorem off11px_off15_eq (d : Dev nD) : k0_off11 (px d) = k0_off15 d := (off11_eq (px d)).trans ((congrArg (fun r => ![r, 0]) (aS2_px d)).trans (off15_eq d).symm)
theorem off13py_off17_eq (d : Dev nD) : k0_off13 (py d) = k0_off17 d := (off13_eq (py d)).trans ((congrArg (fun r => ![r, 384]) (bS2_py d)).trans (off17_eq d).symm)

-- The half a device keeps at the first step is the quarter it keeps and the quarter it sends at the second.
theorem halves10 (d : Dev nD) : Halves (k0_off10 d) (k0_off14 d) (k0_off11 d) (aK2 d - aK1 d) (aS2 d - aK1 d) := by revert d; decide +kernel
theorem halves12 (d : Dev nD) : Halves (k0_off12 d) (k0_off16 d) (k0_off13 d) (bK2 d - bK1 d) (bS2 d - bK1 d) := by revert d; decide +kernel

end Cert.KernelIdeal.Proto

end
-- ==== Proof.GeomB.lean ====
import proofs.«900513_g7700000000000514_dist_attn_self_gqa_htp_b2_sq256_skv256_d768_hq8_dh64_v7x_i4_f32_1_alg».proof.Proof.Geom

noncomputable section

namespace Cert.KernelIdeal.Proto

open Cert.KernelIdeal Cert.KernelIdeal.Gen Cert.KernelIdeal.Mesh
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem off18py_off3_eq (d : Dev nD) : k0_off18 (py d) = k0_off3 d := (off18_eq (py d)).trans ((congrArg (fun r => ![r, 0]) (aK1_py d)).trans (off3_eq d).symm)
theorem off19px_off6_eq (d : Dev nD) : k0_off19 (px d) = k0_off6 d := (off19_eq (px d)).trans ((congrArg (fun r => ![r, 384]) (bK1_px d)).trans (off6_eq d).symm)

-- On the way back a device's own summed quarter and its partner's are the two halves of the half the last transfer sends.
theorem halves18 (c : Dev nD) : Halves (k0_off18 c) (k0_off15 c) (k0_off15 (px c)) (aK2 c - aK1 c) (aS2 c - aK1 c) := by revert c; decide +kernel
theorem halves19 (c : Dev nD) : Halves (k0_off19 c) (k0_off17 c) (k0_off17 (py c)) (bK2 c - bK1 c) (bS2 c - bK1 c) := by revert c; decide +kernel

-- The four blocks of a device's first stores, and the four of its last two transfers, tile the accumulator.
theorem quads_first (c : Dev nD) : Quads (k0_off4 c) (k0_off10 c) (k0_off6 c) (k0_off12 c) := by revert c; decide +kernel
theorem quads_last (c : Dev nD) : Quads (k0_off18 c) (k0_off18 (py c)) (k0_off19 c) (k0_off19 (px c)) := by revert c; decide +kernel

theorem holds_owned (c : Dev nD) {S : Shape} {e : EltTy} (M : Memref sig .tc .vmem S e) (v : S.Idx → Elt F e) :
    (holds c M fullShare v : sProp 𝕄) ⊢ owned c M := by
  unfold holds owned
  iintro ⟨%f, H, -⟩
  iexists f
  iexact H

-- Right after the first store through the accumulator its stored quadrant holds the stored vector; the other three are owned.
theorem cut_first (c : Dev nD) (f : Buf (Elt F) (accM.view.loc (c : Thread nD τ)))
    (w : S256x384.Idx → Elt F .bf16) :
    (accM.view.loc (c : Thread nD τ) ↦{fullShare}
        accM.view.writes (Elt F) f [⟨Rect.unit (s := S512x768) (k0_off3 c) S256x384.size (k0_off3_inb c), w⟩] : sProp 𝕄)
      ⊢ iprop(holds c (sl256 (k0_off4 c) (k0_off4_inb c)) fullShare w ∗ owned c (sl256 (k0_off10 c) (k0_off10_inb c))
        ∗ owned c (sl256 (k0_off6 c) (k0_off6_inb c)) ∗ owned c (sl256 (k0_off12 c) (k0_off12_inb c))) := by
  have key : ∀ (off : Fin 2 → Nat) (h : k0_off3 c = off) (inb : ∀ a, off a + S256x384.size a ≤ S512x768.size a),
      (sl256 off inb).view.read (Elt F)
        (accM.view.writes (Elt F) f [⟨Rect.unit (s := S512x768) (k0_off3 c) S256x384.size (k0_off3_inb c), w⟩]) = w := by
    intro off h inb
    subst h
    rw [View.writes_singleton]
    exact View.read_write_univ (v := accM.access (Rect.unit (s := S512x768) (k0_off3 c) S256x384.size (k0_off3_inb c))) f w
  refine (cut4_pt (k0_off4_inb c) (k0_off10_inb c) (k0_off6_inb c) (k0_off12_inb c) (quads_first c) c fullShare _).trans ?_
  unfold holds owned
  iintro ⟨H1, H2, H3, H4⟩
  isplitl [H1]
  · iexists _
    isplitl [H1]
    · iexact H1
    · ipureintro; exact key _ (off3_off4_eq c) _
  isplitl [H2]
  · iexists _; iexact H2
  isplitl [H3]
  · iexists _; iexact H3
  · iexists _; iexact H4

-- The four quadrants at the offsets of the last two transfers, owned, are the accumulator's buffer at some contents.
theorem rejoin_final (c : Dev nD) :
    iprop(owned c (sl256 (k0_off18 c) (k0_off18_inb c)) ∗ owned c (sl256 (k0_off18 (py c)) (k0_off18_inb (py c)))
        ∗ owned c (sl256 (k0_off19 c) (k0_off19_inb c)) ∗ owned c (sl256 (k0_off19 (px c)) (k0_off19_inb (px c))))
      ⊢ (iprop(∃ f, ((c : Thread nD τ).loc cc0_scratch1) ↦{fullShare} f) : sProp 𝕄) :=
  (join4 (F := F) (k0_off18_inb c) (k0_off18_inb (py c)) (k0_off19_inb c) (k0_off19_inb (px c)) (quads_last c) c).trans
    (owned_whole (F := F) c 7 rfl).1

-- An unmasked write through a view does not depend, at an element the view covers, on the contents written over.
theorem write_indep_step {κ : Kind} {sp : Space} {s : Shape} {e : EltTy} {Val : EltTy → Type} (V : View sig κ sp s e)
    (g g' : V.ty.Contents Val) (w : s.Idx → Val e) (i : V.ty.Idx) (h : g i = g' i ∨ i ∈ V.set) :
    V.write Val g w Finset.univ i = V.write Val g' w Finset.univ i := by
  by_cases hi : i ∈ V.setOn Finset.univ
  · obtain ⟨x, -, rfl⟩ := Finset.mem_map.mp hi
    rw [View.write_emb_of_mem _ _ (Finset.mem_univ x), View.write_emb_of_mem _ _ (Finset.mem_univ x)]
  · rw [View.write_of_not_mem _ _ _ hi, View.write_of_not_mem _ _ _ hi]
    exact h.resolve_right hi

abbrev outAt (off : Fin 3 → Nat) (inb : ∀ a, off a + S1x256x384.size a ≤ S2x256x768.size a) :=
  (outM : Memref sig .tc .vmem S2x256x768 .f32).access (rO off inb)

theorem mem_rO {off : Fin 3 → Nat} {inb : ∀ a, off a + S1x256x384.size a ≤ S2x256x768.size a} {i : S2x256x768.Idx} :
    i ∈ (outAt off inb).set
      ↔ (off 0 ≤ (i 0).val ∧ (i 0).val < off 0 + 1) ∧ (off 1 ≤ (i 1).val ∧ (i 1).val < off 1 + 256)
        ∧ (off 2 ≤ (i 2).val ∧ (i 2).val < off 2 + 384) := by
  rw [show (outAt off inb).set = (rO off inb).set from View.set_slice_whole cc0_stg5_0 _, Rect.mem_set_unit]
  exact ⟨fun h => ⟨h 0, h 1, h 2⟩, fun h a => match a with | ⟨0, _⟩ => h.1 | ⟨1, _⟩ => h.2.1 | ⟨2, _⟩ => h.2.2⟩

-- The four blocks a device stores cover its buffer of the result.
theorem out_cover (c : Dev nD) (i : S2x256x768.Idx) :
    i ∈ (outAt (k0_off20 c) (k0_off20_inb c)).set
      ∨ i ∈ (outAt (k0_off21 c) (k0_off21_inb c)).set
      ∨ i ∈ (outAt (k0_off22 c) (k0_off22_inb c)).set
      ∨ i ∈ (outAt (k0_off23 c) (k0_off23_inb c)).set := by
  have h0 : (i 0).val < 2 := (i 0).isLt
  have h1 : (i 1).val < 256 := (i 1).isLt
  have h2 : (i 2).val < 768 := (i 2).isLt
  have a0 : k0_off20 c 0 = cy c := congrFun (off20_eq c) 0
  have a1 : k0_off20 c 1 = 0 := congrFun (off20_eq c) 1
  have a2 : k0_off20 c 2 = 0 := congrFun (off20_eq c) 2
  have b0 : k0_off21 c 0 = cx c := congrFun (off21_eq c) 0
  have b1 : k0_off21 c 1 = 0 := congrFun (off21_eq c) 1
  have b2 : k0_off21 c 2 = 384 := congrFun (off21_eq c) 2
  have c0 : k0_off22 c 0 = 1 - cy c := congrFun (off22_eq c) 0
  have c1 : k0_off22 c 1 = 0 := congrFun (off22_eq c) 1
  have c2 : k0_off22 c 2 = 0 := congrFun (off22_eq c) 2
  have d0 : k0_off23 c 0 = 1 - cx c := congrFun (off23_eq c) 0
  have d1 : k0_off23 c 1 = 0 := congrFun (off23_eq c) 1
  have d2 : k0_off23 c 2 = 384 := congrFun (off23_eq c) 2
  have hcy : cy c < 2 := by revert c; decide
  have hcx : cx c < 2 := by revert c; decide
  rw [mem_rO, mem_rO, mem_rO, mem_rO]
  omega

section Out
variable (m : (ℓ : Loc nD τ sig) → Buf (Elt F) ℓ)
variable (attnC : (d : Dev nD) → Buf (Elt F) ((attM : Memref sig .tc .vmem S512x512 .f32).view.loc (d : Thread nD τ)))

-- What a device's buffer of the result holds after the body does not depend on what it held before.
theorem outOver_eq_outV (c : Dev nD) (f : (cc0_stg5_0 : Ref sig .tc).ty.Contents (Elt F)) :
    outOver m attnC c f = outV m attnC c := by
  funext i
  unfold outV outOver
  rcases out_cover c i with h | h | h | h
  · refine write_indep_step (outAt _ (k0_off23_inb c)) _ _ _ i (.inl ?_)
    refine write_indep_step (outAt _ (k0_off22_inb c)) _ _ _ i (.inl ?_)
    refine write_indep_step (outAt _ (k0_off21_inb c)) _ _ _ i (.inl ?_)
    exact write_indep_step (outAt _ (k0_off20_inb c)) _ _ _ i (.inr h)
  · refine write_indep_step (outAt _ (k0_off23_inb c)) _ _ _ i (.inl ?_)
    refine write_indep_step (outAt _ (k0_off22_inb c)) _ _ _ i (.inl ?_)
    exact write_indep_step (outAt _ (k0_off21_inb c)) _ _ _ i (.inr h)
  · refine write_indep_step (outAt _ (k0_off23_inb c)) _ _ _ i (.inl ?_)
    exact write_indep_step (outAt _ (k0_off22_inb c)) _ _ _ i (.inr h)
  · exact write_indep_step (outAt _ (k0_off23_inb c)) _ _ _ i (.inr h)

end Out

end Cert.KernelIdeal.Proto

end
-- ==== Proof.Steps.lean ====
import proofs.«900513_g7700000000000514_dist_attn_self_gqa_htp_b2_sq256_skv256_d768_hq8_dh64_v7x_i4_f32_1_alg».proof.Proof.Ghost
import proofs.«900513_g7700000000000514_dist_attn_self_gqa_htp_b2_sq256_skv256_d768_hq8_dh64_v7x_i4_f32_1_alg».proof.Proof.Tables
import proofs.«900513_g7700000000000514_dist_attn_self_gqa_htp_b2_sq256_skv256_d768_hq8_dh64_v7x_i4_f32_1_alg».proof.Proof.Levels
import proofs.«900513_g7700000000000514_dist_attn_self_gqa_htp_b2_sq256_skv256_d768_hq8_dh64_v7x_i4_f32_1_alg».proof.Proof.Glob

noncomputable section

namespace Cert.KernelIdeal.Proto

open Cert.KernelIdeal Cert.KernelIdeal.Gen Cert.KernelIdeal.Mesh
open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (attnC : (d : Dev nD) → Buf (Elt F) ((attM : Memref sig .tc .vmem S512x512 .f32).view.loc (d : Thread nD τ)))
variable (K : Dev nD × Fin 17 → ℕ)

theorem false_mem_send (c : Dev nD) (j : Fin 8) : false ∈ (Rd (F := F) m attnC).duties (sendCell c j) 0 := by
  rw [duties_send]; exact Finset.mem_singleton_self _
theorem false_mem_recv (c : Dev nD) (j : Fin 8) : false ∈ (Rd (F := F) m attnC).duties (recvCell c j) 0 := by
  rw [duties_recv]; exact Finset.mem_singleton_self _

theorem records_inv (ck : Dev nD × Fin 17) : records m attnC K ⊢ cellInv ER (Rd m attnC) (K ck) (kcell ck) := by
  unfold records; exact sep_elim_left.trans (bigSep_elim (Finset.mem_univ ck))
theorem records_reached (ck : Dev nD × Fin 17) : records m attnC K ⊢ reached ER (kcell ck) 0 := by
  unfold records; exact sep_elim_right.trans (bigSep_elim (Finset.mem_univ ck))
theorem inv_send (c : Dev nD) (j : Fin 8) : records m attnC K ⊢ cellInv ER (Rd m attnC) (K (c, kS j)) (sendCell c j) := by
  rw [← kcell_send]; exact records_inv m attnC K (c, kS j)
theorem inv_recv (c : Dev nD) (j : Fin 8) : records m attnC K ⊢ cellInv ER (Rd m attnC) (K (c, kR j)) (recvCell c j) := by
  rw [← kcell_recv]; exact records_inv m attnC K (c, kR j)
theorem reached_send (c : Dev nD) (j : Fin 8) : records m attnC K ⊢ reached ER (sendCell c j) 0 := by
  rw [← kcell_send]; exact records_reached m attnC K (c, kS j)
theorem reached_recv (c : Dev nD) (j : Fin 8) : records m attnC K ⊢ reached ER (recvCell c j) 0 := by
  rw [← kcell_recv]; exact records_reached m attnC K (c, kR j)

theorem credit256 (M : Memref sig .tc .vmem S256x384 .bf16) : M.view.dmaCredit = N256 := rfl
theorem credit128 (M : Memref sig .tc .vmem S128x384 .bf16) : M.view.dmaCredit = N128 := rfl

theorem waitS (c : Dev nD) (j : Fin 8) (i : ℕ) (W : Waits sig Unit)
    {sp sp' : Space} {s s' : Shape} {e e' : EltTy} {κ' : Kind} {srcM : Memref sig .tc sp' s' e'} {dstM : Memref sig κ' sp s e}
    {hs : srcM.view.WordExact} {hd : dstM.view.WordExact} (hcredit : dstM.view.dmaCredit = amt j) {P : sProp 𝕄} (hP : sendPay m attnC c j = P)
    {α : Type} {Q : α → sProp 𝕄} {k : PUnit → Prog (TpuEff nD τ sig (Elt F) Λ₀ .tc) α} :
    iprop(records m attnC K ∗ levAts L lv ∗ cred (tallyAt (sendCell c j) () (amt j)) ∗ atPos ER (sendCell c j) 0 ∅ 0)
      ⊢ iprop(owes (c : Thread nD τ) (Oafter c i) W -∗ ((owes (c : Thread nD τ) (Oafter c i) (insert (.dma (sendS j), ()) W) ∗ atPos ER (sendCell c j) 1 ∅ 0 ∗ P) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS j) srcM dstM hs hd) k) Q) := by
  subst hP
  iintro ⟨#HR, #HL, Hc, Ha⟩ HO Hk
  iapply (wp_wait_rest_token (Γ := .empty) (defs := defs₀ (F := F)) 𝒱₀ ER (Rd m attnC) (c : Thread nD τ) none
    (w := .waitDma2 (sendS j) srcM dstM hs hd) (sm := .dma (sendS j)) (k' := amt j) (Es := Set.univ) (κ := K (c, kS j))
    (fun K' => by rw [← hcredit]; exact wpE_waitDma2_eq 𝒱₀ (c : Thread nD τ) none Set.univ K') (Set.mem_univ _)
    (k := k) (Q := Q) () (O := Oafter c i) (W := W) (R := 0) (m := 0) (T := ∅) (by rw [expect_send, Nat.zero_add])) $$ [Hc HO Ha]
  · iframe Hc HO Ha
    isplitr; · iapply (inv_send m attnC K c j); iexact HR
    iapply (mayWait_send c j i); iexact HL
  rw [rest_send]; iintro ⟨HO, Ha, -, Hp⟩
  iapply Hk; iframe

theorem waitR (c : Dev nD) (j : Fin 8) (i : ℕ) (hi : 2 + 2 * (j.val % 4) + j.val / 4 < i) (W : Waits sig Unit)
    {sp sp' : Space} {s s' : Shape} {e e' : EltTy} {κ' : Kind} {srcM : Memref sig .tc sp' s' e'} {dstM : Memref sig κ' sp s e}
    {hs : srcM.view.WordExact} {hd : dstM.view.WordExact} (hcredit : dstM.view.dmaCredit = amt j) {P : sProp 𝕄} (hP : recvPay m attnC c j = P)
    {α : Type} {Q : α → sProp 𝕄} {k : PUnit → Prog (TpuEff nD τ sig (Elt F) Λ₀ .tc) α} :
    iprop(records m attnC K ∗ levAts L lv ∗ cred (tallyAt (recvCell c j) () (amt j)) ∗ atPos ER (recvCell c j) 0 ∅ 0)
      ⊢ iprop(owes (c : Thread nD τ) (Oafter c i) W -∗ ((owes (c : Thread nD τ) (Oafter c i) (insert (.dma (recvS j), ()) W) ∗ atPos ER (recvCell c j) 1 ∅ 0 ∗ P) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS j) srcM dstM hs hd) k) Q) := by
  subst hP
  iintro ⟨#HR, #HL, Hc, Ha⟩ HO Hk
  iapply (wp_wait_rest_token (Γ := .empty) (defs := defs₀ (F := F)) 𝒱₀ ER (Rd m attnC) (c : Thread nD τ) none
    (w := .waitDma2 (recvS j) srcM dstM hs hd) (sm := .dma (recvS j)) (k' := amt j) (Es := Set.univ) (κ := K (c, kR j))
    (fun K' => by rw [← hcredit]; exact wpE_waitDma2_eq 𝒱₀ (c : Thread nD τ) none Set.univ K') (Set.mem_univ _)
    (k := k) (Q := Q) () (O := Oafter c i) (W := W) (R := 0) (m := 0) (T := ∅) (by rw [expect_recv, Nat.zero_add])) $$ [Hc HO Ha]
  · iframe Hc HO Ha
    isplitr; · iapply (inv_recv m attnC K c j); iexact HR
    iapply (mayWait_recv c j i hi); iexact HL
  rw [rest_recv]; iintro ⟨HO, Ha, -, Hp⟩
  iapply Hk; iframe

theorem send_out {S : Shape} (c n p : Dev nD) (j : Fin 8) (hn : n = p) (hp : peer c j = p)
    (src : Dev nD → Memref sig .tc .vmem S .bf16) (dst : Memref sig .tc .vmem S .bf16) (v : Dev nD → S.Idx → Elt F .bf16) (i : ℕ)
    (hpayS : sendPay m attnC c j = iprop(emp))
    (hpayR : ∀ d, recvPay m attnC d j = iprop(holds d dst fullShare (v (peer d j)) ∗ owned (peer d j) (src (peer d j))))
    (hN : dst.view.amount (.dma (recvS j)) = amt j)
    (hO : Oafter c i = Oafter c (i + 1) + tallyAt (recvCell p j) () (amt j))
    {hsc : dst.view.ref.isScScratch = false} {hsrc : (src c).view.WordExact} {hdst : dst.view.WordExact}
    {hsem : DmaTarget.Typed .vmem (.dma (recvS j)) (.remote (Dev.tc n : Thread nD τ) dst (.dma (sendS j)) hsc)}
    {α : Type} {Q : α → sProp 𝕄} {k : PUnit → Prog (TpuEff nD τ sig (Elt F) Λ₀ .tc) α} (W : Waits sig Unit) :
    iprop(records m attnC K ∗ holds c (src c) fullShare (v c) ∗ owned p dst ∗ dutyTok ER (sendCell c j) 0 false ∗ dutyTok ER (recvCell (peer c j) j) 0 false)
      ⊢ iprop(owes (c : Thread nD τ) (Oafter c i) W -∗ ((cred (tallyAt (sendCell c j) () (amt j)) ∗ owes (c : Thread nD τ) (Oafter c (i + 1)) W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (src c) (.remote (Dev.tc n : Thread nD τ) dst (.dma (sendS j)) hsc) (.dma (recvS j)) hsrc hdst hsem) k) Q) := by
  subst hn hp
  have hR := hpayR (peer c j)
  rw [peer_peer] at hR
  unfold holds owned at hR ⊢
  iintro ⟨#HR, ⟨%fs, Hsrc, %hv⟩, ⟨%fd, Hdst⟩, Ht₁, Ht₂⟩ HL Hk
  iapply (wp_send_landing_pointsTo (Γ := .empty) (defs := defs₀ (F := F)) 𝒱₀ ER (Rd m attnC) (c : Thread nD τ) none
    (src := src c) (dst := dst) (c' := (Dev.tc (peer c j) : Thread nD τ)) (sS := .dma (sendS j)) (sem := .dma (recvS j))
    (q := fullShare) (fs := fs) (fd := fd) (r₁ := 0) (r₂ := 0) (d₁ := false) (d₂ := false)
    (κ₁ := K (c, kS j)) (κ₂ := K (peer c j, kR j)) (Es := Set.univ) (W := W)
    (false_mem_send m attnC c j) (false_mem_recv m attnC (peer c j) j) () () (amt j) hN
    (amount_send m attnC c j false) (amount_recv m attnC (peer c j) j false)
    (O₀ := Oafter c i) (Oafter c (i + 1)) hO
    (by rw [payload_send, hpayS])
    (by
      rw [payload_recv, hR]
      iintro ⟨Hd, Hs⟩
      isplitl [Hd]
      · iexists _; iframe Hd
        ipureintro; rw [View.read_write_univ]; exact hv
      · iexists fs; iexact Hs))
    $$ [Hsrc Hdst HL Ht₁ Ht₂] Hk
  iframe Hsrc Hdst HL Ht₁ Ht₂
  isplitr; · iapply (inv_send m attnC K c j); iexact HR
  isplitr; · iapply (inv_recv m attnC K (peer c j) j); iexact HR
  isplitr; · iapply (reached_send m attnC K c j); iexact HR
  iapply (reached_recv m attnC K (peer c j) j); iexact HR

theorem send_home {S : Shape} (c n p : Dev nD) (j : Fin 8) (hn : n = p) (hp : peer c j = p)
    (sl : Dev nD → Memref sig .tc .vmem S .bf16) (q : PosShare TreeShare) (v : Dev nD → S.Idx → Elt F .bf16) (i : ℕ)
    (hpayS : ∀ d, sendPay m attnC d j = holds d (sl d) q (v d))
    (hpayR : ∀ d, recvPay m attnC d j = holds d (sl (peer d j)) fullShare (v (peer d j)))
    (hN : (sl c).view.amount (.dma (recvS j)) = amt j)
    (hO : Oafter c i = Oafter c (i + 1) + tallyAt (recvCell p j) () (amt j))
    {hsc : (sl c).view.ref.isScScratch = false} {hsrc : (sl c).view.WordExact} {hdst : (sl c).view.WordExact}
    {hsem : DmaTarget.Typed .vmem (.dma (recvS j)) (.remote (Dev.tc n : Thread nD τ) (sl c) (.dma (sendS j)) hsc)}
    {α : Type} {Q : α → sProp 𝕄} {k : PUnit → Prog (TpuEff nD τ sig (Elt F) Λ₀ .tc) α} (W : Waits sig Unit) :
    iprop(records m attnC K ∗ holds c (sl c) q (v c) ∗ owned p (sl c) ∗ dutyTok ER (sendCell c j) 0 false ∗ dutyTok ER (recvCell (peer c j) j) 0 false)
      ⊢ iprop(owes (c : Thread nD τ) (Oafter c i) W -∗ ((cred (tallyAt (sendCell c j) () (amt j)) ∗ owes (c : Thread nD τ) (Oafter c (i + 1)) W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (sl c) (.remote (Dev.tc n : Thread nD τ) (sl c) (.dma (sendS j)) hsc) (.dma (recvS j)) hsrc hdst hsem) k) Q) := by
  subst hn hp
  have hS := hpayS c
  have hR := hpayR (peer c j)
  rw [peer_peer] at hR
  unfold holds at hS hR ⊢
  unfold owned
  iintro ⟨#HR, ⟨%fs, Hsrc, %hv⟩, ⟨%fd, Hdst⟩, Ht₁, Ht₂⟩ HL Hk
  iapply (wp_send_pointsTo (Γ := .empty) (defs := defs₀ (F := F)) 𝒱₀ ER (Rd m attnC) (c : Thread nD τ) none
    (src := sl c) (dst := sl c) (c' := (Dev.tc (peer c j) : Thread nD τ)) (sS := .dma (sendS j)) (sem := .dma (recvS j))
    (q := q) (fs := fs) (fd := fd) (r₁ := 0) (r₂ := 0) (d₁ := false) (d₂ := false)
    (κ₁ := K (c, kS j)) (κ₂ := K (peer c j, kR j)) (Es := Set.univ) (W := W)
    (false_mem_send m attnC c j) (false_mem_recv m attnC (peer c j) j) () () (amt j) hN
    (amount_send m attnC c j false) (amount_recv m attnC (peer c j) j false)
    (O₀ := Oafter c i) (Oafter c (i + 1)) hO
    (by
      rw [payload_send, hS]
      iintro Hs
      iexists fs; iframe Hs
      ipureintro; exact hv)
    (by
      rw [payload_recv, hR]
      iintro Hd
      iexists _; iframe Hd
      ipureintro; rw [View.read_write_univ]; exact hv))
    $$ [Hsrc Hdst HL Ht₁ Ht₂] Hk
  iframe Hsrc Hdst HL Ht₁ Ht₂
  isplitr; · iapply (inv_send m attnC K c j); iexact HR
  isplitr; · iapply (inv_recv m attnC K (peer c j) j); iexact HR
  isplitr; · iapply (reached_send m attnC K c j); iexact HR
  iapply (reached_recv m attnC K (peer c j) j); iexact HR

theorem close_cell (ck : Dev nD × Fin 17) :
    iprop(records m attnC K ∗ atPos ER (kcell ck) 1 ∅ 0) ⊢ (|={Set.univ}=> semVal (kcell ck) 0 : sProp 𝕄) := by
  iintro ⟨#HR, A⟩
  iapply (Rounds.cell_close ER (Rd m attnC) (Set.mem_univ _) (fun h => h) (duties_later m attnC (kcell ck)))
  iframe A
  iapply (records_inv m attnC K ck); iexact HR

theorem close_all (c : Dev nD) :
    iprop(records m attnC K ∗ atPos ER (sendCell c 0) 1 ∅ 0 ∗ atPos ER (sendCell c 1) 1 ∅ 0 ∗ atPos ER (sendCell c 2) 1 ∅ 0 ∗ atPos ER (sendCell c 3) 1 ∅ 0 ∗ atPos ER (sendCell c 4) 1 ∅ 0 ∗ atPos ER (sendCell c 5) 1 ∅ 0 ∗ atPos ER (sendCell c 6) 1 ∅ 0 ∗ atPos ER (sendCell c 7) 1 ∅ 0 ∗ atPos ER (recvCell c 0) 1 ∅ 0 ∗ atPos ER (recvCell c 1) 1 ∅ 0 ∗ atPos ER (recvCell c 2) 1 ∅ 0 ∗ atPos ER (recvCell c 3) 1 ∅ 0 ∗ atPos ER (recvCell c 4) 1 ∅ 0 ∗ atPos ER (recvCell c 5) 1 ∅ 0 ∗ atPos ER (recvCell c 6) 1 ∅ 0 ∗ atPos ER (recvCell c 7) 1 ∅ 0)
      ⊢ (|={Set.univ}=> Pipeline.ownSems0 osem c : sProp 𝕄) := by
  iintro ⟨#HR, A1, A2, A3, A4, A5, A6, A7, A8, A9, A10, A11, A12, A13, A14, A15, A16⟩
  imod (close_cell m attnC K (c, 1)) $$ [$HR $A1] with Z1
  imod (close_cell m attnC K (c, 2)) $$ [$HR $A2] with Z2
  imod (close_cell m attnC K (c, 3)) $$ [$HR $A3] with Z3
  imod (close_cell m attnC K (c, 4)) $$ [$HR $A4] with Z4
  imod (close_cell m attnC K (c, 5)) $$ [$HR $A5] with Z5
  imod (close_cell m attnC K (c, 6)) $$ [$HR $A6] with Z6
  imod (close_cell m attnC K (c, 7)) $$ [$HR $A7] with Z7
  imod (close_cell m attnC K (c, 8)) $$ [$HR $A8] with Z8
  imod (close_cell m attnC K (c, 9)) $$ [$HR $A9] with Z9
  imod (close_cell m attnC K (c, 10)) $$ [$HR $A10] with Z10
  imod (close_cell m attnC K (c, 11)) $$ [$HR $A11] with Z11
  imod (close_cell m attnC K (c, 12)) $$ [$HR $A12] with Z12
  imod (close_cell m attnC K (c, 13)) $$ [$HR $A13] with Z13
  imod (close_cell m attnC K (c, 14)) $$ [$HR $A14] with Z14
  imod (close_cell m attnC K (c, 15)) $$ [$HR $A15] with Z15
  imod (close_cell m attnC K (c, 16)) $$ [$HR $A16] with Z16
  imodintro
  rw [ownSems0_eq']
  iframe

end Cert.KernelIdeal.Proto

end
-- ==== Proof.Body.lean ====
import proofs.«900513_g7700000000000514_dist_attn_self_gqa_htp_b2_sq256_skv256_d768_hq8_dh64_v7x_i4_f32_1_alg».proof.Proof.BodyPre
import proofs.«900513_g7700000000000514_dist_attn_self_gqa_htp_b2_sq256_skv256_d768_hq8_dh64_v7x_i4_f32_1_alg».proof.Proof.Tables
import proofs.«900513_g7700000000000514_dist_attn_self_gqa_htp_b2_sq256_skv256_d768_hq8_dh64_v7x_i4_f32_1_alg».proof.Proof.Offs
import proofs.«900513_g7700000000000514_dist_attn_self_gqa_htp_b2_sq256_skv256_d768_hq8_dh64_v7x_i4_f32_1_alg».proof.Proof.Levels
import proofs.«900513_g7700000000000514_dist_attn_self_gqa_htp_b2_sq256_skv256_d768_hq8_dh64_v7x_i4_f32_1_alg».proof.Proof.Glob
import proofs.«900513_g7700000000000514_dist_attn_self_gqa_htp_b2_sq256_skv256_d768_hq8_dh64_v7x_i4_f32_1_alg».proof.Proof.GeomB
import proofs.«900513_g7700000000000514_dist_attn_self_gqa_htp_b2_sq256_skv256_d768_hq8_dh64_v7x_i4_f32_1_alg».proof.Proof.Steps

noncomputable section

namespace Cert.KernelIdeal.Proto

open Cert.KernelIdeal Cert.KernelIdeal.Gen Cert.KernelIdeal.Mesh
open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "attnC" => (attnOf m)

theorem owned_holds (c : Dev nD) {S : Shape} {e : EltTy} (M : Memref sig .tc .vmem S e) :
    (owned c M : sProp 𝕄) ⊢ iprop(∃ v, holds (F := F) c M fullShare v) := by
  unfold holds owned
  iintro ⟨%f, H⟩
  iexists _, f; iframe H
  ipureintro; rfl

theorem acc_load (c : Dev nD) (r : Rect S512x768) (hr : ∀ a, r.stride a = 1) (q : PosShare TreeShare) (v : r.shape.Idx → Elt F .bf16)
    {hl : (accM : Memref sig .tc .vmem S512x768 .bf16).view.LoadsAt r.toLoadRect} {α : Type} {Q : α → sProp 𝕄}
    {k : (r.toLoadRect.shape.Idx → Elt F .bf16) → Prog (TpuEff nD τ sig (Elt F) Λ₀ .tc) α} :
    (holds c (accM.slice r hr) q v : sProp 𝕄)
      ⊢ iprop((holds c (accM.slice r hr) q v -∗ wp frame (wpE (defs₀ (F := F)) 𝒱₀ (c : Thread nD τ) none) Set.univ (k v) Q) -∗ wp frame (wpE (defs₀ (F := F)) 𝒱₀ (c : Thread nD τ) none) Set.univ (.op (.load accM r.toLoadRect hl) k) Q) := by
  unfold holds
  iintro ⟨%f, H, %hf⟩ Hk
  subst hf
  iapply (wp_load 𝒱₀ (c : Thread nD τ) none Set.univ (m := accM) (load_sub accM r hr)) $$ H
  iintro H
  iapply Hk
  iexists f; iframe H
  ipureintro; rfl

theorem acc_store (c : Dev nD) (r : Rect S512x768) (hr : ∀ a, r.stride a = 1) (v w : r.shape.Idx → Elt F .bf16)
    {hx : ((accM : Memref sig .tc .vmem S512x768 .bf16).access r).Stores Finset.univ} {hm : Finset.univ = Finset.univ ∨ ∀ a, r.stride a = 1}
    {α : Type} {Q : α → sProp 𝕄} {k : PUnit → Prog (TpuEff nD τ sig (Elt F) Λ₀ .tc) α} :
    (holds c (accM.slice r hr) fullShare v : sProp 𝕄)
      ⊢ iprop((holds c (accM.slice r hr) fullShare w -∗ wp frame (wpE (defs₀ (F := F)) 𝒱₀ (c : Thread nD τ) none) Set.univ (k ⟨⟩) Q) -∗ wp frame (wpE (defs₀ (F := F)) 𝒱₀ (c : Thread nD τ) none) Set.univ (.op (.store accM r w Finset.univ hx hm) k) Q) := by
  unfold holds
  iintro ⟨%f, H, -⟩ Hk
  iapply (wp_store 𝒱₀ (c : Thread nD τ) none Set.univ (m := accM) (r := r) (Mk := Finset.univ) (store_sub accM r hr)) $$ H
  iintro H
  iapply Hk
  iexists _; iframe H
  ipureintro; exact View.read_write_univ (v := accM.access r) f w

theorem land_load (c : Dev nD) (i : Fin (sig.nNear .tc .vmem)) (hn : sig.names .tc .vmem i = true) (q : PosShare TreeShare)
    (v : (⟨.vmem, i, hn⟩ : Ref sig .tc).ty.shape.Idx → Elt F (⟨.vmem, i, hn⟩ : Ref sig .tc).ty.elt)
    {off : Fin (⟨.vmem, i, hn⟩ : Ref sig .tc).ty.shape.rank → Nat} (h0 : off = fun _ => 0)
    (inb : ∀ a, off a + (⟨.vmem, i, hn⟩ : Ref sig .tc).ty.shape.size a ≤ (⟨.vmem, i, hn⟩ : Ref sig .tc).ty.shape.size a)
    {hl : (Memref.whole (⟨.vmem, i, hn⟩ : Ref sig .tc)).view.LoadsAt (Rect.unit off _ inb).toLoadRect} {α : Type} {Q : α → sProp 𝕄}
    {k : ((Rect.unit off _ inb).toLoadRect.shape.Idx → Elt F _) → Prog (TpuEff nD τ sig (Elt F) Λ₀ .tc) α} :
    (holds c (Memref.whole (⟨.vmem, i, hn⟩ : Ref sig .tc)) q v : sProp 𝕄)
      ⊢ iprop((holds c (Memref.whole (⟨.vmem, i, hn⟩ : Ref sig .tc)) q v -∗ wp frame (wpE (defs₀ (F := F)) 𝒱₀ (c : Thread nD τ) none) Set.univ (k v) Q)
          -∗ wp frame (wpE (defs₀ (F := F)) 𝒱₀ (c : Thread nD τ) none) Set.univ (.op (.load (Memref.whole (⟨.vmem, i, hn⟩ : Ref sig .tc)) (Rect.unit off _ inb).toLoadRect hl) k) Q) := by
  unfold holds
  iintro ⟨%f, H, %hf⟩ Hk
  iapply (wp_load 𝒱₀ (c : Thread nD τ) none Set.univ (m := Memref.whole (⟨.vmem, i, hn⟩ : Ref sig .tc)) (View.setOn_subset_set _ _)) $$ H
  iintro H
  rw [Memref.readAt_unit_zero (Elt F) _ h0 inb f]
  have hv : f = v := hf
  subst hv
  iapply Hk
  iexists f; iframe H
  ipureintro; exact hf

theorem whole_loc (c : Dev nD) (b : Ref sig .tc) (f : Buf (Elt F) ((c : Thread nD τ).loc b)) :
    (((c : Thread nD τ).loc b) ↦{fullShare} f : sProp 𝕄) ⊢ ((Memref.whole b).view.loc (c : Thread nD τ) ↦{fullShare} f) := .rfl

set_option maxHeartbeats 16000000 in
theorem sound_body (K : Dev nD × Fin 17 → ℕ) (c : Dev nD) (Kt : PUnit → sProp 𝕄) :
    iprop(bodyPre m K c ∗ (bodyPost m c -∗ Kt ⟨⟩))
      ⊢ wp frame (wpE (defs₀ (F := F)) 𝒱₀ c none) Set.univ (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7) Kt := by
  simp only [cc0_body_eq_skeleton]; unfold cc0_body_skel
  simp only [k0_part1_eq_skeleton, k0_part8_eq_skeleton, k0_part9_eq_skeleton, k0_part10_eq_skeleton, k0_part11_eq_skeleton, k0_part12_eq_skeleton, k0_part13_eq_skeleton]
  unfold k0_part1_skel k0_part8_skel k0_part9_skel k0_part10_skel k0_part11_skel k0_part12_skel k0_part13_skel
  simp only [semSignalWord, semWaitWord, Prog.lift, Prog.bind_op, Prog.bind_ret, Prog.pure_eq_ret, wp_deviceId]
  unfold bodyPre ghost linear payToks creds8
  rw [bigSep_fin17, bigSep_fin8, bigSep_fin8]
  iintro ⟨⟨⟨⟨#HR, ⟨Ha0, Ha1, Ha2, Ha3, Ha4, Ha5, Ha6, Ha7, Ha8, Ha9, Ha10, Ha11, Ha12, Ha13, Ha14, Ha15, Ha16⟩, HtBy, HtBx, ⟨HtR0, HtR1, HtR2, HtR3, HtR4, HtR5, HtR6, HtR7⟩, ⟨HtS0, HtS1, HtS2, HtS3, HtS4, HtS5, HtS6, HtS7⟩⟩, HcB, ⟨Hc0, Hc1, Hc2, Hc3, Hc4, Hc5, Hc6, Hc7⟩, #Hlev, Hscr⟩, Ho, Hs0, Hs1, Hs2, Hs3, Hs4, Hs5⟩, Hk⟩
  unfold Dat.owesAt Pipeline.owesWithin
  icases Ho with ⟨%W, %hW, HO⟩
  rw [show (dats m attnC 0 c).owed t₀.castSucc = Oafter c 0 from rfl]
  simp only [dev1_eq c, dev2_eq c]
  unfold scr
  icases Hscr with ⟨⟨%f6, H6⟩, ⟨%f7, H7⟩, ⟨%f8, H8⟩, ⟨%f9, H9⟩, ⟨%f10, H10⟩, ⟨%f11, H11⟩⟩
  iapply (Rounds.wp_signal 𝒱₀ ER (Rd m attnC) (c : Thread nD τ) none (dst := (py c : Thread nD τ)) (κ := K (py c, 0))
      (d := false) (by rw [duties_bar]; exact Finset.mem_univ _) ((amount_bar m attnC (py c) false).trans (by decide)) () (Oafter c 1) rfl)
    $$ [HO HtBy H8 H11]
  · isplitr; · iapply (records_inv m attnC K (py c, 0)); iexact HR
    isplitl [HO]; · iexact HO
    isplitl [HtBy]; · iexact HtBy
    isplitl [H8 H11]
    · rw [payload_bar, barPay_false, py_py]
      isplitl [H8]; · iapply (owned_of_whole c la1M (View.set_whole _) f8); iexact H8
      isplitl [H11]; · iapply (owned_of_whole c lb2M (View.set_whole _) f11); iexact H11
      isplitr; · iapply (records_reached m attnC K (c, kR 0)); iexact HR
      isplitr; · iapply (records_reached m attnC K (c, kR 5)); iexact HR
      isplitr; · iapply (records_reached m attnC K (c, kR 6)); iexact HR
      iapply (records_reached m attnC K (c, kR 3)); iexact HR
    · iapply (records_reached m attnC K (py c, 0)); iexact HR
  iintro HO
  iapply (Rounds.wp_signal 𝒱₀ ER (Rd m attnC) (c : Thread nD τ) none (dst := (px c : Thread nD τ)) (κ := K (px c, 0))
      (d := true) (by rw [duties_bar]; exact Finset.mem_univ _) ((amount_bar m attnC (px c) true).trans (by decide)) () (Oafter c 2) rfl)
    $$ [HO HtBx H9 H10]
  · isplitr; · iapply (records_inv m attnC K (px c, 0)); iexact HR
    isplitl [HO]; · iexact HO
    isplitl [HtBx]; · iexact HtBx
    isplitl [H9 H10]
    · rw [payload_bar, barPay_true, px_px]
      isplitl [H9]; · iapply (owned_of_whole c lb1M (View.set_whole _) f9); iexact H9
      isplitl [H10]; · iapply (owned_of_whole c la2M (View.set_whole _) f10); iexact H10
      isplitr; · iapply (records_reached m attnC K (c, kR 4)); iexact HR
      isplitr; · iapply (records_reached m attnC K (c, kR 1)); iexact HR
      isplitr; · iapply (records_reached m attnC K (c, kR 2)); iexact HR
      iapply (records_reached m attnC K (c, kR 7)); iexact HR
    · iapply (records_reached m attnC K (px c, 0)); iexact HR
  iintro HO
  iapply (Rounds.wp_wait_rest_token 𝒱₀ ER (Rd m attnC) (c : Thread nD τ) none (κ := K (c, 0))
      (wpE_semWait_eq 𝒱₀ (c : Thread nD τ) none Set.univ) (Set.mem_univ _) () (O := Oafter c 2) (W := W) (R := 0) (m := 0) (T := ∅)
      (by rw [expect_bar]; decide)) $$ [HcB HO Ha0]
  · isplitr; · iapply (records_inv m attnC K (c, 0)); iexact HR
    isplitl [HcB]; · iexact HcB
    isplitl [HO]; · iexact HO
    isplitr; · iapply (mayWait_bar c); iexact Hlev
    iexact Ha0
  iintro ⟨HO, Ha0, -, Hpay⟩
  ihave Hp := (Entails.of_eq ((rest_bar m attnC c).trans (by rw [barPay_false, barPay_true]))) $$ Hpay
  icases Hp with ⟨⟨HLa1y, HLb2y, -⟩, ⟨HLb1x, HLa2x, -⟩⟩
  icases Hs0 with ⟨%d0, %g0, %hg0, Hs0⟩
  obtain rfl : g0 = inC0 m c := by rw [hg0]; unfold Dat.before; rw [if_pos (fetch0_0 t₀)]; rfl
  icases Hs1 with ⟨%d1, %g1, %hg1, Hs1⟩
  obtain rfl : g1 = inC1 m c := by rw [hg1]; unfold Dat.before; rw [if_pos (fetch0_1 t₀)]; rfl
  icases Hs2 with ⟨%d2, %g2, %hg2, Hs2⟩
  obtain rfl : g2 = woC m c := by rw [hg2]; unfold Dat.before; rw [if_pos (fetch0_2 t₀)]; rfl
  icases Hs3 with ⟨%d3, %g3, %hg3, Hs3⟩
  obtain rfl : g3 = inC3 m c := by rw [hg3]; unfold Dat.before; rw [if_pos (fetch0_3 t₀)]; rfl
  icases Hs4 with ⟨%d4, %g4, %hg4, Hs4⟩
  obtain rfl : g4 = inC4 m c := by rw [hg4]; unfold Dat.before; rw [if_pos (fetch0_4 t₀)]; rfl
  icases Hs5 with ⟨%d5, %g5, %hg5, Hs5⟩
  ihave Hs0 := (whole_loc c cc0_stg0_0 _) $$ Hs0
  ihave Hs1 := (whole_loc c cc0_stg1_0 _) $$ Hs1
  ihave Hs2 := (whole_loc c cc0_stg2_0 _) $$ Hs2
  ihave Hs3 := (whole_loc c cc0_stg3_0 _) $$ Hs3
  ihave Hs4 := (whole_loc c cc0_stg4_0 _) $$ Hs4
  ihave Hs5 := (whole_loc c cc0_stg5_0 _) $$ Hs5
  ihave H6 := (whole_loc c cc0_scratch0 _) $$ H6
  ihave H7 := (whole_loc c cc0_scratch1 _) $$ H7
  sl_exec
  have hX : (attM : Memref sig .tc .vmem S512x512 .f32).view.writes (Elt F) (attM : Memref sig .tc .vmem S512x512 .f32).view.junk (sound_body.sl.H6_16 m c) = attnOf m c := by
    rw [attnOf_eq]; rfl
  have hv256 : sound_body.sl.v256 m c = attRows (attnOf m) c (k0_off2 c) (k0_off2_inb c) := by
    unfold sound_body.sl.v256 attRows; rw [hX]
  ihave H6 := (Entails.of_eq (congrArg (fun X => ((attM : Memref sig .tc .vmem S512x512 .f32).view.loc (c : Thread nD τ) ↦{fullShare} X : sProp 𝕄)) hX)) $$ H6
  ihave Hq := (cut_first c f7 _) $$ H7
  icases Hq with ⟨HA1, HAk, HBs, HBk⟩
  ihave ⟨%vAk, HAk⟩ := (owned_holds c _) $$ HAk
  ihave ⟨%vBs, HBs⟩ := (owned_holds c _) $$ HBs
  ihave ⟨%vBk, HBk⟩ := (owned_holds c _) $$ HBk
  iapply (send_out m attnC K c _ _ 0 (dev3_eq c) rfl slA1 la1M (pAs m attnC) 2 rfl (fun _ => rfl) rfl rfl _) $$ [$HR HA1 $HLa1y $HtS0 $HtR0] HO
  · rw [hv256]; iexact HA1
  iintro ⟨HcS0, HO⟩
  iapply (wp_load 𝒱₀ (c : Thread nD τ) none Set.univ (m := attM) (Finset.subset_univ _)) $$ H6; iintro H6
  iapply (wp_load 𝒱₀ (c : Thread nD τ) none Set.univ (m := woM) (Finset.subset_univ _)) $$ Hs2; iintro Hs2
  iapply (acc_load c _ _ _ _) $$ HBs; iintro HBs
  iapply (acc_store c _ _ _ _) $$ HBs; iintro HBs
  ihave HBs := (holds_move256 c (off6_off7_eq c) (k0_off6_inb c) (k0_off7_inb c) fullShare _).1 $$ HBs
  iapply (send_out m attnC K c _ _ 4 (dev4_eq c) rfl slB1 lb1M (pBs m attnC) 3 rfl (fun _ => rfl) rfl rfl _) $$ [$HR HBs $HLb1x $HtS4 $HtR4] HO
  · iexact HBs
  iintro ⟨HcS4, HO⟩
  iapply (wp_load 𝒱₀ (c : Thread nD τ) none Set.univ (m := attM) (Finset.subset_univ _)) $$ H6; iintro H6
  iapply (wp_load 𝒱₀ (c : Thread nD τ) none Set.univ (m := woM) (Finset.subset_univ _)) $$ Hs2; iintro Hs2
  iapply (wp_load 𝒱₀ (c : Thread nD τ) none Set.univ (m := attM) (Finset.subset_univ _)) $$ H6; iintro H6
  iapply (wp_load 𝒱₀ (c : Thread nD τ) none Set.univ (m := woM) (Finset.subset_univ _)) $$ Hs2; iintro Hs2
  iapply (waitS m attnC K c 0 4 _ (credit256 _) rfl) $$ [$HR $Hlev $HcS0 $Ha1] HO; iintro ⟨HO, Ha1, -⟩
  iapply (waitR m attnC K c 0 4 (by decide) _ (credit256 _) (recvPay_0 m attnC c)) $$ [$HR $Hlev $Hc0 $Ha9] HO; iintro ⟨HO, Ha9, HL1, HP1⟩
  iapply (land_load c 8 rfl _ _ hz2 _) $$ HL1; iintro HL1
  iapply (acc_load c _ _ _ _) $$ HAk; iintro HAk
  iapply (acc_store c _ _ _ _) $$ HAk; iintro HAk
  ihave HS1 := (split256 (k0_off10_inb c) (k0_off14_inb c) (k0_off11_inb c) (halves10 c) c fullShare _) $$ HAk
  icases HS1 with ⟨H14, H11⟩
  iapply (send_out m attnC K c _ _ 1 (dev5_eq c) rfl slA2 la2M (hAs m attnC) 4 rfl (fun _ => rfl) rfl rfl _) $$ [$HR H11 $HLa2x $HtS1 $HtR1] HO
  · iexact H11
  iintro ⟨HcS1, HO⟩
  iapply (waitS m attnC K c 4 5 _ (credit256 _) rfl) $$ [$HR $Hlev $HcS4 $Ha5] HO; iintro ⟨HO, Ha5, -⟩
  iapply (waitR m attnC K c 4 5 (by decide) _ (credit256 _) (recvPay_4 m attnC c)) $$ [$HR $Hlev $Hc4 $Ha13] HO; iintro ⟨HO, Ha13, HL4, HP4⟩
  iapply (land_load c 9 rfl _ _ hz2 _) $$ HL4; iintro HL4
  iapply (acc_load c _ _ _ _) $$ HBk; iintro HBk
  iapply (acc_store c _ _ _ _) $$ HBk; iintro HBk
  ihave HS4 := (split256 (k0_off12_inb c) (k0_off16_inb c) (k0_off13_inb c) (halves12 c) c fullShare _) $$ HBk
  icases HS4 with ⟨H16, H13⟩
  iapply (send_out m attnC K c _ _ 5 (dev6_eq c) rfl slB2 lb2M (hBs m attnC) 5 rfl (fun _ => rfl) rfl rfl _) $$ [$HR H13 $HLb2y $HtS5 $HtR5] HO
  · iexact H13
  iintro ⟨HcS5, HO⟩
  iapply (waitS m attnC K c 1 6 _ (credit128 _) rfl) $$ [$HR $Hlev $HcS1 $Ha2] HO; iintro ⟨HO, Ha2, -⟩
  iapply (waitR m attnC K c 1 6 (by decide) _ (credit128 _) (recvPay_1 m attnC c)) $$ [$HR $Hlev $Hc1 $Ha10] HO; iintro ⟨HO, Ha10, HL2, HP2⟩
  iapply (acc_load c _ _ _ _) $$ H14; iintro H14
  iapply (land_load c 10 rfl _ _ hz2 _) $$ HL2; iintro HL2
  iapply (acc_load c _ _ _ _) $$ H14; iintro H14
  iapply (acc_store c _ _ _ _) $$ H14; iintro H14
  ihave H14 := (holds_move128 c (off14_off15_eq c) (k0_off14_inb c) (k0_off15_inb c) fullShare _).1 $$ H14
  iapply (send_home m attnC K c _ _ 2 (dev7_eq c) rfl slA3 fullShare (tA m attnC) 6 (fun _ => rfl) (fun _ => rfl) rfl rfl _) $$ [$HR H14 HP2 $HtS2 $HtR2] HO
  · isplitl [H14]; · iexact H14
    iapply (owned_move128 (px c) (off11px_off15_eq c) (k0_off11_inb (px c)) (k0_off15_inb c)).1; iexact HP2
  iintro ⟨HcS2, HO⟩
  iapply (waitS m attnC K c 5 7 _ (credit128 _) rfl) $$ [$HR $Hlev $HcS5 $Ha6] HO; iintro ⟨HO, Ha6, -⟩
  iapply (waitR m attnC K c 5 7 (by decide) _ (credit128 _) (recvPay_5 m attnC c)) $$ [$HR $Hlev $Hc5 $Ha14] HO; iintro ⟨HO, Ha14, HL5, HP5⟩
  iapply (acc_load c _ _ _ _) $$ H16; iintro H16
  iapply (land_load c 11 rfl _ _ hz2 _) $$ HL5; iintro HL5
  iapply (acc_load c _ _ _ _) $$ H16; iintro H16
  iapply (acc_store c _ _ _ _) $$ H16; iintro H16
  ihave H16 := (holds_move128 c (off16_off17_eq c) (k0_off16_inb c) (k0_off17_inb c) fullShare _).1 $$ H16
  iapply (send_home m attnC K c _ _ 6 (dev8_eq c) rfl slB3 fullShare (tB m attnC) 7 (fun _ => rfl) (fun _ => rfl) rfl rfl _) $$ [$HR H16 HP5 $HtS6 $HtR6] HO
  · isplitl [H16]; · iexact H16
    iapply (owned_move128 (py c) (off13py_off17_eq c) (k0_off13_inb (py c)) (k0_off17_inb c)).1; iexact HP5
  iintro ⟨HcS6, HO⟩
  iapply (waitS m attnC K c 2 8 _ (credit128 _) (sendPay_2 m attnC c)) $$ [$HR $Hlev $HcS2 $Ha3] HO; iintro ⟨HO, Ha3, HsA3⟩
  iapply (waitR m attnC K c 2 8 (by decide) _ (credit128 _) (recvPay_2 m attnC c)) $$ [$HR $Hlev $Hc2 $Ha11] HO; iintro ⟨HO, Ha11, Hb2⟩
  ihave HU := (join256 (k0_off18_inb c) (k0_off15_inb c) (k0_off15_inb (px c)) (halves18 c) c fullShare _ _) $$ [$HsA3 $Hb2]
  ihave HU := (holds_share c (sl256 (k0_off18 c) (k0_off18_inb c)) fullShare _).1 $$ HU
  icases HU with ⟨HUl, HUr⟩
  iapply (send_home m attnC K c _ _ 3 (dev9_eq c) rfl slA4 fullShare.left (uA m attnC) 8 (fun _ => rfl) (fun _ => rfl) rfl rfl _) $$ [$HR HUl HP1 $HtS3 $HtR3] HO
  · isplitl [HUl]; · iexact HUl
    iapply (owned_move256 (py c) (off4py_off18_eq c) (k0_off4_inb (py c)) (k0_off18_inb c)).1; iexact HP1
  iintro ⟨HcS3, HO⟩
  iapply (waitS m attnC K c 6 9 _ (credit128 _) (sendPay_6 m attnC c)) $$ [$HR $Hlev $HcS6 $Ha7] HO; iintro ⟨HO, Ha7, HsB3⟩
  iapply (waitR m attnC K c 6 9 (by decide) _ (credit128 _) (recvPay_6 m attnC c)) $$ [$HR $Hlev $Hc6 $Ha15] HO; iintro ⟨HO, Ha15, Hb6⟩
  ihave HUB := (join256 (k0_off19_inb c) (k0_off17_inb c) (k0_off17_inb (py c)) (halves19 c) c fullShare _ _) $$ [$HsB3 $Hb6]
  ihave HUB := (holds_share c (sl256 (k0_off19 c) (k0_off19_inb c)) fullShare _).1 $$ HUB
  icases HUB with ⟨HUBl, HUBr⟩
  iapply (send_home m attnC K c _ _ 7 (dev10_eq c) rfl slB4 fullShare.left (uB m attnC) 9 (fun _ => rfl) (fun _ => rfl) rfl rfl _) $$ [$HR HUBl HP4 $HtS7 $HtR7] HO
  · isplitl [HUBl]; · iexact HUBl
    iapply (owned_move256 (px c) (off7px_off19_eq c) (k0_off7_inb (px c)) (k0_off19_inb c)).1; iexact HP4
  iintro ⟨HcS7, HO⟩
  ihave HUr := (holds_move256 c (off10_off18_eq c) (k0_off10_inb c) (k0_off18_inb c) fullShare.right _).2 $$ HUr
  iapply (acc_load c _ _ _ _) $$ HUr; iintro HUr
  iapply (wp_load 𝒱₀ (c : Thread nD τ) none Set.univ (m := outM) (Finset.subset_univ _)) $$ Hs5; iintro Hs5
  iapply (wp_store 𝒱₀ (c : Thread nD τ) none Set.univ (m := outM) (r := (rO (k0_off20 c) (k0_off20_inb c))) (Mk := Finset.univ) (Finset.subset_univ _)) $$ Hs5; iintro Hs5
  ihave HUBr := (holds_move256 c (off12_off19_eq c) (k0_off12_inb c) (k0_off19_inb c) fullShare.right _).2 $$ HUBr
  iapply (acc_load c _ _ _ _) $$ HUBr; iintro HUBr
  iapply (wp_load 𝒱₀ (c : Thread nD τ) none Set.univ (m := outM) (Finset.subset_univ _)) $$ Hs5; iintro Hs5
  iapply (wp_store 𝒱₀ (c : Thread nD τ) none Set.univ (m := outM) (r := (rO (k0_off21 c) (k0_off21_inb c))) (Mk := Finset.univ) (Finset.subset_univ _)) $$ Hs5; iintro Hs5
  iapply (waitS m attnC K c 3 10 _ (credit256 _) (sendPay_3 m attnC c)) $$ [$HR $Hlev $HcS3 $Ha4] HO; iintro ⟨HO, Ha4, HsA4⟩
  iapply (waitR m attnC K c 3 10 (by decide) _ (credit256 _) (recvPay_3 m attnC c)) $$ [$HR $Hlev $Hc3 $Ha12] HO; iintro ⟨HO, Ha12, Hb3⟩
  ihave Hb3 := (holds_move256 c (off18py_off3_eq c) (k0_off18_inb (py c)) (k0_off3_inb c) fullShare _).1 $$ Hb3
  iapply (acc_load c _ _ _ _) $$ Hb3; iintro Hb3
  iapply (wp_load 𝒱₀ (c : Thread nD τ) none Set.univ (m := outM) (Finset.subset_univ _)) $$ Hs5; iintro Hs5
  iapply (wp_store 𝒱₀ (c : Thread nD τ) none Set.univ (m := outM) (r := (rO (k0_off22 c) (k0_off22_inb c))) (Mk := Finset.univ) (Finset.subset_univ _)) $$ Hs5; iintro Hs5
  iapply (waitS m attnC K c 7 10 _ (credit256 _) (sendPay_7 m attnC c)) $$ [$HR $Hlev $HcS7 $Ha8] HO; iintro ⟨HO, Ha8, HsB4⟩
  iapply (waitR m attnC K c 7 10 (by decide) _ (credit256 _) (recvPay_7 m attnC c)) $$ [$HR $Hlev $Hc7 $Ha16] HO; iintro ⟨HO, Ha16, Hb7⟩
  ihave Hb7 := (holds_move256 c (off19px_off6_eq c) (k0_off19_inb (px c)) (k0_off6_inb c) fullShare _).1 $$ Hb7
  iapply (acc_load c _ _ _ _) $$ Hb7; iintro Hb7
  iapply (wp_load 𝒱₀ (c : Thread nD τ) none Set.univ (m := outM) (Finset.subset_univ _)) $$ Hs5; iintro Hs5
  iapply (wp_store 𝒱₀ (c : Thread nD τ) none Set.univ (m := outM) (r := (rO (k0_off23 c) (k0_off23_inb c))) (Mk := Finset.univ) (Finset.subset_univ _)) $$ Hs5; iintro Hs5
  imod (close_all m attnC K c) $$ [$HR $Ha1 $Ha2 $Ha3 $Ha4 $Ha5 $Ha6 $Ha7 $Ha8 $Ha9 $Ha10 $Ha11 $Ha12 $Ha13 $Ha14 $Ha15 $Ha16] with Hsems
  rw [wp_ret]; imodintro
  iapply Hk
  unfold bodyPost Φ₁ scr Dat.owesAt Pipeline.owesWithin
  rw [show (dats m attnC 0 c).owed t₀.succ = 0 from rfl]
  isplitl [H6 HUr HsA4 Hb3 HUBr HsB4 Hb7 HL1 HL4 HL2 HL5 Hsems]
  · iframe Hsems
    isplitl [H6]; · iexists _; iexact H6
    isplitl [HUr HsA4 Hb3 HUBr HsB4 Hb7]
    · iapply (rejoin_final c)
      isplitl [HUr HsA4]
      · iapply (holds_owned c _ (uA m attnC c))
        iapply (holds_share c (sl256 (k0_off18 c) (k0_off18_inb c)) fullShare _).2
        isplitl [HsA4]; · iexact HsA4
        iapply (holds_move256 c (off10_off18_eq c) (k0_off10_inb c) (k0_off18_inb c) fullShare.right _).1; iexact HUr
      isplitl [Hb3]
      · iapply (holds_owned c _ (uA m attnC (py c)))
        iapply (holds_move256 c (off18py_off3_eq c) (k0_off18_inb (py c)) (k0_off3_inb c) fullShare _).2; iexact Hb3
      isplitl [HUBr HsB4]
      · iapply (holds_owned c _ (uB m attnC c))
        iapply (holds_share c (sl256 (k0_off19 c) (k0_off19_inb c)) fullShare _).2
        isplitl [HsB4]; · iexact HsB4
        iapply (holds_move256 c (off12_off19_eq c) (k0_off12_inb c) (k0_off19_inb c) fullShare.right _).1; iexact HUBr
      iapply (holds_owned c _ (uB m attnC (px c)))
      iapply (holds_move256 c (off19px_off6_eq c) (k0_off19_inb (px c)) (k0_off6_inb c) fullShare _).2; iexact Hb7
    isplitl [HL1]; · iapply (owned_whole c 8 rfl).1; iapply (holds_owned c _ _); iexact HL1
    isplitl [HL4]; · iapply (owned_whole c 9 rfl).1; iapply (holds_owned c _ _); iexact HL4
    isplitl [HL2]; · iapply (owned_whole c 10 rfl).1; iapply (holds_owned c _ _); iexact HL2
    iapply (owned_whole c 11 rfl).1; iapply (holds_owned c _ _); iexact HL5
  isplitl [HO]
  · iexists (insert (SemLoc.dma (recvS 7), ()) (insert (SemLoc.dma (sendS 7), ()) (insert (SemLoc.dma (recvS 3), ()) (insert (SemLoc.dma (sendS 3), ()) (insert (SemLoc.dma (recvS 6), ()) (insert (SemLoc.dma (sendS 6), ()) (insert (SemLoc.dma (recvS 2), ()) (insert (SemLoc.dma (sendS 2), ()) (insert (SemLoc.dma (recvS 5), ()) (insert (SemLoc.dma (sendS 5), ()) (insert (SemLoc.dma (recvS 1), ()) (insert (SemLoc.dma (sendS 1), ()) (insert (SemLoc.dma (recvS 4), ()) (insert (SemLoc.dma (sendS 4), ()) (insert (SemLoc.dma (recvS 0), ()) (insert (SemLoc.dma (sendS 0), ()) (insert (SemLoc.reg barS, ()) W)))))))))))))))))
    isplitr; · ipureintro; exact fun _ _ => Or.inl trivial
    iexact HO
  isplitl [Hs0]; · iexists _; isplitr; · (ipureintro; rfl)
                   iexact Hs0
  isplitl [Hs1]; · iexists _; isplitr; · (ipureintro; rfl)
                   iexact Hs1
  isplitl [Hs2]; · iexists _; isplitr; · (ipureintro; rfl)
                   iexact Hs2
  isplitl [Hs3]; · iexists _; isplitr; · (ipureintro; rfl)
                   iexact Hs3
  isplitl [Hs4]; · iexists _; isplitr; · (ipureintro; rfl)
                   iexact Hs4
  iexists _; isplitr; · (ipureintro; exact outOver_eq_outV m attnC c g5)
  iexact Hs5
end Cert.KernelIdeal.Proto
end
-- ==== Proof.RunK.lean ====
import proofs.«900513_g7700000000000514_dist_attn_self_gqa_htp_b2_sq256_skv256_d768_hq8_dh64_v7x_i4_f32_1_alg».proof.Proof.Launch
import proofs.«900513_g7700000000000514_dist_attn_self_gqa_htp_b2_sq256_skv256_d768_hq8_dh64_v7x_i4_f32_1_alg».proof.Proof.BodyOb
import proofs.«900513_g7700000000000514_dist_attn_self_gqa_htp_b2_sq256_skv256_d768_hq8_dh64_v7x_i4_f32_1_alg».proof.Proof.Body

noncomputable section

namespace Cert.KernelIdeal.Proto

open Cert.KernelIdeal Cert.KernelIdeal.Gen Cert.KernelIdeal.Mesh
open Idealize.ShloMosaic
open Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem run_kernel :
    θ_run defs (onTc (τ := τ) (main (F := F))) ⟨m, fun _ => 0, ρ⟩ (fun r => ∀ c : Dev nD,
      r.2.mem ((c.tc : Thread nD τ).loc main_v1) = outV m (attnOf m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c 5).trans (finalA_out m _ c),
      (h c 0).trans (finalA_in m _ c 0 (by decide)),
      (h c 1).trans (finalA_in m _ c 1 (by decide)),
      (h c 2).trans (finalA_in m _ c 2 (by decide)),
      (h c 3).trans (finalA_in m _ c 3 (by decide)),
      (h c 4).trans (finalA_in m _ c 4 (by decide))⟩)
    (run_main m ρ _ fun c => body_obligation m (sound_body m) c)

end Cert.KernelIdeal.Proto

end
-- ==== Proof.KMesh.lean ====
import proofs.«900513_g7700000000000514_dist_attn_self_gqa_htp_b2_sq256_skv256_d768_hq8_dh64_v7x_i4_f32_1_alg».proof.Proof.Gen.Kernel

namespace Cert.Kernel.Mesh

open Cert.Kernel Cert.Kernel.Gen Idealize.ShloMosaic

-- Four devices as a 2×2 torus in Gray order: `py`, `px` are the partners along the two coordinates `cy`, `cx`; `aK·`/`aS·` (`bK·`/`bS·`) are the row offsets of the block kept / sent at each step of the left (right) column half.
def py (c : Dev nD) : Dev nD := ⟨c.val ^^^ 1, by revert c; decide⟩
def px (c : Dev nD) : Dev nD := ⟨c.val ^^^ 3, by revert c; decide⟩
def cx (c : Dev nD) : Nat := c.val / 2
def cy (c : Dev nD) : Nat := (c.val ^^^ (c.val / 2)) % 2

def aK1 (c : Dev nD) : Nat := 256 * cy c
def aS1 (c : Dev nD) : Nat := 256 * (1 - cy c)
def bK1 (c : Dev nD) : Nat := 256 * cx c
def bS1 (c : Dev nD) : Nat := 256 * (1 - cx c)
def aK2 (c : Dev nD) : Nat := aK1 c + 128 * cx c
def aS2 (c : Dev nD) : Nat := aK1 c + 128 * (1 - cx c)
def bK2 (c : Dev nD) : Nat := bK1 c + 128 * cy c
def bS2 (c : Dev nD) : Nat := bK1 c + 128 * (1 - cy c)

theorem py_py (c : Dev nD) : py (py c) = c := by revert c; decide
theorem px_px (c : Dev nD) : px (px c) = c := by revert c; decide
theorem py_px (c : Dev nD) : py (px c) = px (py c) := by revert c; decide

theorem aS1_py (c : Dev nD) : aS1 (py c) = aK1 c := by revert c; decide
theorem aK1_py (c : Dev nD) : aK1 (py c) = aS1 c := by revert c; decide
theorem aS2_px (c : Dev nD) : aS2 (px c) = aK2 c := by revert c; decide
theorem aK2_px (c : Dev nD) : aK2 (px c) = aS2 c := by revert c; decide
theorem bS1_px (c : Dev nD) : bS1 (px c) = bK1 c := by revert c; decide
theorem bK1_px (c : Dev nD) : bK1 (px c) = bS1 c := by revert c; decide
theorem bS2_py (c : Dev nD) : bS2 (py c) = bK2 c := by revert c; decide
theorem bK2_py (c : Dev nD) : bK2 (py c) = bS2 c := by revert c; decide

theorem dev1_eq (c : Dev nD) : (⟨k0_dev1 c, k0_dev1_lt c⟩ : Dev nD) = py c := by revert c; decide +kernel
theorem dev2_eq (c : Dev nD) : (⟨k0_dev2 c, k0_dev2_lt c⟩ : Dev nD) = px c := by revert c; decide +kernel
theorem dev3_eq (c : Dev nD) : (⟨k0_dev3 c, k0_dev3_lt c⟩ : Dev nD) = py c := by revert c; decide +kernel
theorem dev4_eq (c : Dev nD) : (⟨k0_dev4 c, k0_dev4_lt c⟩ : Dev nD) = px c := by revert c; decide +kernel
theorem dev5_eq (c : Dev nD) : (⟨k0_dev5 c, k0_dev5_lt c⟩ : Dev nD) = px c := by revert c; decide +kernel
theorem dev6_eq (c : Dev nD) : (⟨k0_dev6 c, k0_dev6_lt c⟩ : Dev nD) = py c := by revert c; decide +kernel
theorem dev7_eq (c : Dev nD) : (⟨k0_dev7 c, k0_dev7_lt c⟩ : Dev nD) = px c := by revert c; decide +kernel
theorem dev8_eq (c : Dev nD) : (⟨k0_dev8 c, k0_dev8_lt c⟩ : Dev nD) = py c := by revert c; decide +kernel
theorem dev9_eq (c : Dev nD) : (⟨k0_dev9 c, k0_dev9_lt c⟩ : Dev nD) = py c := by revert c; decide +kernel
theorem dev10_eq (c : Dev nD) : (⟨k0_dev10 c, k0_dev10_lt c⟩ : Dev nD) = px c := by revert c; decide +kernel

theorem off2_eq (c : Dev nD) : k0_off2 c = ![aS1 c, 0] := by revert c; decide +kernel
theorem off3_eq (c : Dev nD) : k0_off3 c = ![aS1 c, 0] := by revert c; decide +kernel
theorem off4_eq (c : Dev nD) : k0_off4 c = ![aS1 c, 0] := by revert c; decide +kernel
theorem off5_eq (c : Dev nD) : k0_off5 c = ![bS1 c, 0] := by revert c; decide +kernel
theorem off6_eq (c : Dev nD) : k0_off6 c = ![bS1 c, 384] := by revert c; decide +kernel
theorem off7_eq (c : Dev nD) : k0_off7 c = ![bS1 c, 384] := by revert c; decide +kernel
theorem off8_eq (c : Dev nD) : k0_off8 c = ![aK1 c, 0] := by revert c; decide +kernel
theorem off9_eq (c : Dev nD) : k0_off9 c = ![bK1 c, 0] := by revert c; decide +kernel
theorem off10_eq (c : Dev nD) : k0_off10 c = ![aK1 c, 0] := by revert c; decide +kernel
theorem off11_eq (c : Dev nD) : k0_off11 c = ![aS2 c, 0] := by revert c; decide +kernel
theorem off12_eq (c : Dev nD) : k0_off12 c = ![bK1 c, 384] := by revert c; decide +kernel
theorem off13_eq (c : Dev nD) : k0_off13 c = ![bS2 c, 384] := by revert c; decide +kernel
theorem off14_eq (c : Dev nD) : k0_off14 c = ![aK2 c, 0] := by revert c; decide +kernel
theorem off15_eq (c : Dev nD) : k0_off15 c = ![aK2 c, 0] := by revert c; decide +kernel
theorem off16_eq (c : Dev nD) : k0_off16 c = ![bK2 c, 384] := by revert c; decide +kernel
theorem off17_eq (c : Dev nD) : k0_off17 c = ![bK2 c, 384] := by revert c; decide +kernel
theorem off18_eq (c : Dev nD) : k0_off18 c = ![aK1 c, 0] := by revert c; decide +kernel
theorem off19_eq (c : Dev nD) : k0_off19 c = ![bK1 c, 384] := by revert c; decide +kernel
theorem off20_eq (c : Dev nD) : k0_off20 c = ![cy c, 0, 0] := by revert c; decide +kernel
theorem off21_eq (c : Dev nD) : k0_off21 c = ![cx c, 0, 384] := by revert c; decide +kernel
theorem off22_eq (c : Dev nD) : k0_off22 c = ![1 - cy c, 0, 0] := by revert c; decide +kernel
theorem off23_eq (c : Dev nD) : k0_off23 c = ![1 - cx c, 0, 384] := by revert c; decide +kernel

end Cert.Kernel.Mesh
-- ==== Proof.KCore.lean ====
import proofs.«900513_g7700000000000514_dist_attn_self_gqa_htp_b2_sq256_skv256_d768_hq8_dh64_v7x_i4_f32_1_alg».proof.Proof.Gen.Kernel.Skeleton
import proofs.«900513_g7700000000000514_dist_attn_self_gqa_htp_b2_sq256_skv256_d768_hq8_dh64_v7x_i4_f32_1_alg».proof.Proof.Gen.Kernel.Launch
import proofs.«900513_g7700000000000514_dist_attn_self_gqa_htp_b2_sq256_skv256_d768_hq8_dh64_v7x_i4_f32_1_alg».proof.Proof.KMesh
import Idealize.ShloMosaic.Lib.Pipeline.Launch
import Idealize.ShloMosaic.Lib.Pipeline.Kit
import Idealize.ShloMosaic.Lib.Tactic
import Idealize.ShloMosaic.Lib.ValueIdx

noncomputable section

namespace Cert.Kernel.Proto

open Cert.Kernel Cert.Kernel.Gen Cert.Kernel.Mesh
open Idealize.ShloMosaic Idealize.ShloMosaic.TcCoe Idealize.ShloMosaic.Rounds
open Idealize.SL Idealize.SL.RA Idealize.SL.BI

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev woM : Memref sig .tc .vmem S512x768 .f32 := Memref.whole cc0_stg2_0
abbrev outM : Memref sig .tc .vmem S2x256x768 .f32 := Memref.whole cc0_stg5_0

abbrev attM : Memref sig .tc .vmem S512x512 .f32 := Memref.whole cc0_scratch0
abbrev accM : Memref sig .tc .vmem S512x768 .bf16 := Memref.whole cc0_scratch1
abbrev la1M : Memref sig .tc .vmem S256x384 .bf16 := Memref.whole cc0_scratch2
abbrev lb1M : Memref sig .tc .vmem S256x384 .bf16 := Memref.whole cc0_scratch3
abbrev la2M : Memref sig .tc .vmem S128x384 .bf16 := Memref.whole cc0_scratch4
abbrev lb2M : Memref sig .tc .vmem S128x384 .bf16 := Memref.whole cc0_scratch5

abbrev slA1 (d : Dev nD) : Memref sig .tc .vmem S256x384 .bf16 := accM.slice (Rect.unit (s := S512x768) (k0_off4 d) S256x384.size (k0_off4_inb d)) (fun _ => rfl)
abbrev slB1 (d : Dev nD) : Memref sig .tc .vmem S256x384 .bf16 := accM.slice (Rect.unit (s := S512x768) (k0_off7 d) S256x384.size (k0_off7_inb d)) (fun _ => rfl)
abbrev slA2 (d : Dev nD) : Memref sig .tc .vmem S128x384 .bf16 := accM.slice (Rect.unit (s := S512x768) (k0_off11 d) S128x384.size (k0_off11_inb d)) (fun _ => rfl)
abbrev slB2 (d : Dev nD) : Memref sig .tc .vmem S128x384 .bf16 := accM.slice (Rect.unit (s := S512x768) (k0_off13 d) S128x384.size (k0_off13_inb d)) (fun _ => rfl)
abbrev slA3 (d : Dev nD) : Memref sig .tc .vmem S128x384 .bf16 := accM.slice (Rect.unit (s := S512x768) (k0_off15 d) S128x384.size (k0_off15_inb d)) (fun _ => rfl)
abbrev slB3 (d : Dev nD) : Memref sig .tc .vmem S128x384 .bf16 := accM.slice (Rect.unit (s := S512x768) (k0_off17 d) S128x384.size (k0_off17_inb d)) (fun _ => rfl)
abbrev slA4 (d : Dev nD) : Memref sig .tc .vmem S256x384 .bf16 := accM.slice (Rect.unit (s := S512x768) (k0_off18 d) S256x384.size (k0_off18_inb d)) (fun _ => rfl)
abbrev slB4 (d : Dev nD) : Memref sig .tc .vmem S256x384 .bf16 := accM.slice (Rect.unit (s := S512x768) (k0_off19 d) S256x384.size (k0_off19_inb d)) (fun _ => rfl)

abbrev barS : Sem sig := (SemArray.scalar (sig.barrier 0 rfl) : Sems sig S_).sem
abbrev sendS (j : Fin 8) : DmaSem sig := ⟨6 + j.val, by have := j.isLt; have h22 : sig.nDmaSem = 22 := rfl; omega⟩
abbrev recvS (j : Fin 8) : DmaSem sig := ⟨14 + j.val, by have := j.isLt; have h22 : sig.nDmaSem = 22 := rfl; omega⟩

abbrev barCell (c : Dev nD) : GSem nD τ sig := ((c : Thread nD τ), .reg barS)
abbrev sendCell (c : Dev nD) (j : Fin 8) : GSem nD τ sig := ((c : Thread nD τ), .dma (sendS j))
abbrev recvCell (c : Dev nD) (j : Fin 8) : GSem nD τ sig := ((c : Thread nD τ), .dma (recvS j))

abbrev N256 : ℕ := la1M.view.dmaCredit
abbrev N128 : ℕ := la2M.view.dmaCredit

-- Transfer `j` moves 256 rows at the first and last step of its column half, 128 at the two middle ones, and goes to `peer c j`.
def amt (j : Fin 8) : ℕ := if j.val % 4 = 0 ∨ j.val % 4 = 3 then N256 else N128
theorem amt_pos (j : Fin 8) : 0 < amt j := by unfold amt; split <;> exact View.dmaCredit_pos _ (by decide)

def peer (c : Dev nD) (j : Fin 8) : Dev nD :=
  if j.val = 0 ∨ j.val = 3 ∨ j.val = 5 ∨ j.val = 6 then py c else px c
theorem peer_peer (c : Dev nD) (j : Fin 8) : peer (peer c j) j = c := by
  unfold peer; split <;> first | exact py_py c | exact px_px c

variable (m : (ℓ : Loc nD τ sig) → Buf (Elt F) ℓ)

variable (attnC : (d : Dev nD) → Buf (Elt F) (attM.view.loc (d : Thread nD τ)))

def woC (d : Dev nD) : (cc0_stg2_0 : Ref sig .tc).ty.Contents (Elt F) :=
  (win0_2.blk (0 : Fin 1)).view.read (Elt F) (m ((d : Thread nD τ).loc main_arg2))

def attRows (d : Dev nD) (off : Fin 2 → Nat) (inb : ∀ a, off a + S256x512.size a ≤ S512x512.size a) : Vec F S256x512 .f32 :=
  attM.view.readAt (Elt F) (Rect.unit (s := S512x512) off S256x512.size inb).toLoadRect (attnC d)
def woL (d : Dev nD) : Vec F S512x384 .f32 :=
  woM.view.readAt (Elt F) (Rect.unit (s := S512x768) ![0, 0] S512x384.size inb_S512x768_S512x384_0_0).toLoadRect (woC m d)
def woR (d : Dev nD) : Vec F S512x384 .f32 :=
  woM.view.readAt (Elt F) (Rect.unit (s := S512x768) ![0, 384] S512x384.size inb_S512x768_S512x384_0_384).toLoadRect (woC m d)

-- The value each buffer holds stage by stage, as a function of the devices' local data: the four quadrants of the partial product, the sums of halves, of quarters, and the quarters glued back.
def pAs (d : Dev nD) : FVec F S256x384 .bf16 := k0_pay33 (attRows attnC d (k0_off2 d) (k0_off2_inb d)) (woL m d)
def pBs (d : Dev nD) : FVec F S256x384 .bf16 := k0_pay34 (attRows attnC d (k0_off5 d) (k0_off5_inb d)) (woR m d)
def pAk (d : Dev nD) : FVec F S256x384 .bf16 := k0_pay35 (attRows attnC d (k0_off8 d) (k0_off8_inb d)) (woL m d)
def pBk (d : Dev nD) : FVec F S256x384 .bf16 := k0_pay36 (attRows attnC d (k0_off9 d) (k0_off9_inb d)) (woR m d)

def sA1 (d : Dev nD) : FVec F S256x384 .bf16 := k0_pay37 (pAk m attnC d) (pAs m attnC (py d))
def sB1 (d : Dev nD) : FVec F S256x384 .bf16 := k0_pay39 (k0_pay38 (pBk m attnC d) (pBs m attnC (px d)))

def rows128 {α : Type} (r0 : Nat) (v : S256x384.Idx → α) : S128x384.Idx → α := fun y =>
  v (ValueIdx.ix2 ⟨(r0 + (y 0).val) % 256, Nat.mod_lt _ (by decide)⟩ ⟨(y 1).val, (y 1).isLt⟩)
def glue128 {α : Type} (r0 : Nat) (a b : S128x384.Idx → α) : S256x384.Idx → α := fun y =>
  if r0 ≤ (y 0).val ∧ (y 0).val < r0 + 128
  then a (ValueIdx.ix2 ⟨((y 0).val - r0) % 128, Nat.mod_lt _ (by decide)⟩ ⟨(y 1).val, (y 1).isLt⟩)
  else b (ValueIdx.ix2 ⟨(y 0).val % 128, Nat.mod_lt _ (by decide)⟩ ⟨(y 1).val, (y 1).isLt⟩)

def hAs (d : Dev nD) : FVec F S128x384 .bf16 := rows128 (aS2 d - aK1 d) (sA1 m attnC d)
def hAk (d : Dev nD) : FVec F S128x384 .bf16 := rows128 (aK2 d - aK1 d) (sA1 m attnC d)
def hBs (d : Dev nD) : FVec F S128x384 .bf16 := rows128 (bS2 d - bK1 d) (sB1 m attnC d)
def hBk (d : Dev nD) : FVec F S128x384 .bf16 := rows128 (bK2 d - bK1 d) (sB1 m attnC d)

def tA (d : Dev nD) : FVec F S128x384 .bf16 := k0_pay40 (hAk m attnC d) (hAs m attnC (px d))
def tB (d : Dev nD) : FVec F S128x384 .bf16 := k0_pay41 (hBk m attnC d) (hBs m attnC (py d))

def uA (d : Dev nD) : FVec F S256x384 .bf16 := glue128 (aK2 d - aK1 d) (tA m attnC d) (tA m attnC (px d))
def uB (d : Dev nD) : FVec F S256x384 .bf16 := glue128 (bK2 d - bK1 d) (tB m attnC d) (tB m attnC (py d))

abbrev rO (off : Fin 3 → Nat) (inb : ∀ a, off a + S1x256x384.size a ≤ S2x256x768.size a) : Rect S2x256x768 :=
  Rect.unit (s := S2x256x768) off S1x256x384.size inb

def outOver (d : Dev nD) (f : (cc0_stg5_0 : Ref sig .tc).ty.Contents (Elt F)) : (cc0_stg5_0 : Ref sig .tc).ty.Contents (Elt F) :=
  (outM.access (rO (k0_off23 d) (k0_off23_inb d))).write (Elt F)
    ((outM.access (rO (k0_off22 d) (k0_off22_inb d))).write (Elt F)
      ((outM.access (rO (k0_off21 d) (k0_off21_inb d))).write (Elt F)
        ((outM.access (rO (k0_off20 d) (k0_off20_inb d))).write (Elt F) f
          (k0_pay42 (uA m attnC d)) Finset.univ)
        (k0_pay43 (uB m attnC d)) Finset.univ)
      (k0_pay44 (uA m attnC (py d))) Finset.univ)
    (k0_pay1 (uB m attnC (px d))) Finset.univ

def outV (d : Dev nD) : (cc0_stg5_0 : Ref sig .tc).ty.Contents (Elt F) :=
  outOver m attnC d (fun _ => Classical.arbitrary _)

end Cert.Kernel.Proto

end
-- ==== Proof.KSched.lean ====
import proofs.«900513_g7700000000000514_dist_attn_self_gqa_htp_b2_sq256_skv256_d768_hq8_dh64_v7x_i4_f32_1_alg».proof.Proof.KCore

noncomputable section

namespace Cert.Kernel.Proto

open Cert.Kernel Cert.Kernel.Gen Cert.Kernel.Mesh
open Idealize.ShloMosaic Idealize.ShloMosaic.TcCoe Idealize.ShloMosaic.Rounds
open Idealize.SL Idealize.SL.RA Idealize.SL.BI
open scoped Idealize.SL.BI
open Idealize.SL.BI.BIBase Idealize.SL.Sem

variable {F : FTy → Type} [FloatOps F]

local notation "𝕄" => MT nD τ sig Unit (Elt F) ℕ UU ℕ

-- `holds c M q v`: device `c` has `M`'s elements at share `q` and they read as `v`; `owned c M`: it has them whole, at any contents.
def holds (c : Dev nD) {S : Shape} {e : EltTy} (M : Memref sig .tc .vmem S e) (q : PosShare TreeShare) (v : S.Idx → Elt F e) : sProp 𝕄 :=
  iprop(∃ f : Buf (Elt F) (M.view.loc (c : Thread nD τ)), (M.view.loc (c : Thread nD τ) ↦[M.view.set]{q} f) ∗ ⌜M.view.read (Elt F) f = v⌝)

def owned (c : Dev nD) {S : Shape} {e : EltTy} (M : Memref sig .tc .vmem S e) : sProp 𝕄 :=
  iprop(∃ f : Buf (Elt F) (M.view.loc (c : Thread nD τ)), M.view.loc (c : Thread nD τ) ↦[M.view.set]{fullShare} f)

instance holds_storable (c : Dev nD) {S : Shape} {e : EltTy} (M : Memref sig .tc .vmem S e) (q : PosShare TreeShare) (v : S.Idx → Elt F e) :
    BI.Storable (upEmb : UEmb _ 𝕄) (holds (F := F) c M q v) := by unfold holds; infer_instance
instance owned_storable (c : Dev nD) {S : Shape} {e : EltTy} (M : Memref sig .tc .vmem S e) :
    BI.Storable (upEmb : UEmb _ 𝕄) (owned (F := F) c M) := by unfold owned; infer_instance

variable (m : (ℓ : Loc nD τ sig) → Buf (Elt F) ℓ)
variable (attnC : (d : Dev nD) → Buf (Elt F) (attM.view.loc (d : Thread nD τ)))

-- What a barrier signal, the landing of the partner's transfer `j`, and the completion of its own transfer `j` hand device `c`.
def barPay (c : Dev nD) (d : Bool) : sProp 𝕄 :=
  if d then iprop(owned (px c) lb1M ∗ owned (px c) la2M ∗ reached ER (recvCell (px c) 4) 0 ∗ reached ER (recvCell (px c) 1) 0
      ∗ reached ER (recvCell (px c) 2) 0 ∗ reached ER (recvCell (px c) 7) 0)
  else iprop(owned (py c) la1M ∗ owned (py c) lb2M ∗ reached ER (recvCell (py c) 0) 0 ∗ reached ER (recvCell (py c) 5) 0
      ∗ reached ER (recvCell (py c) 6) 0 ∗ reached ER (recvCell (py c) 3) 0)

def recvPay (c : Dev nD) (j : Fin 8) : sProp 𝕄 :=
  match j with
  | ⟨0, _⟩ => iprop(holds c la1M fullShare (pAs m attnC (py c)) ∗ owned (py c) (slA1 (py c)))
  | ⟨1, _⟩ => iprop(holds c la2M fullShare (hAs m attnC (px c)) ∗ owned (px c) (slA2 (px c)))
  | ⟨2, _⟩ => holds c (slA3 (px c)) fullShare (tA m attnC (px c))
  | ⟨3, _⟩ => holds c (slA4 (py c)) fullShare (uA m attnC (py c))
  | ⟨4, _⟩ => iprop(holds c lb1M fullShare (pBs m attnC (px c)) ∗ owned (px c) (slB1 (px c)))
  | ⟨5, _⟩ => iprop(holds c lb2M fullShare (hBs m attnC (py c)) ∗ owned (py c) (slB2 (py c)))
  | ⟨6, _⟩ => holds c (slB3 (py c)) fullShare (tB m attnC (py c))
  | ⟨_ + 7, _⟩ => holds c (slB4 (px c)) fullShare (uB m attnC (px c))

def sendPay (c : Dev nD) (j : Fin 8) : sProp 𝕄 :=
  match j with
  | ⟨2, _⟩ => holds c (slA3 c) fullShare (tA m attnC c)
  | ⟨3, _⟩ => holds c (slA4 c) fullShare.left (uA m attnC c)
  | ⟨6, _⟩ => holds c (slB3 c) fullShare (tB m attnC c)
  | ⟨7, _⟩ => holds c (slB4 c) fullShare.left (uB m attnC c)
  | _ => iprop(emp)

instance barPay_storable (c : Dev nD) (d : Bool) : BI.Storable (upEmb : UEmb _ 𝕄) (barPay (F := F) c d) := by
  unfold barPay; split <;> infer_instance
instance recvPay_storable (c : Dev nD) (j : Fin 8) : BI.Storable (upEmb : UEmb _ 𝕄) (recvPay (F := F) m attnC c j) := by
  unfold recvPay; split <;> infer_instance
instance sendPay_storable (c : Dev nD) (j : Fin 8) : BI.Storable (upEmb : UEmb _ 𝕄) (sendPay (F := F) m attnC c j) := by
  unfold sendPay; split <;> infer_instance

def sendIx (sm : SemLoc sig) : Option (Fin 8) :=
  match sm with
  | .dma q => if h : 6 ≤ q.val ∧ q.val < 14 then some ⟨q.val - 6, by omega⟩ else none
  | _ => none
def recvIx (sm : SemLoc sig) : Option (Fin 8) :=
  match sm with
  | .dma q => if h : 14 ≤ q.val ∧ q.val < 22 then some ⟨q.val - 14, by omega⟩ else none
  | _ => none

theorem sendIx_send (j : Fin 8) : sendIx (.dma (sendS j) : SemLoc sig) = some j := by revert j; decide
theorem recvIx_send (j : Fin 8) : recvIx (.dma (sendS j) : SemLoc sig) = none := by revert j; decide
theorem sendIx_recv (j : Fin 8) : sendIx (.dma (recvS j) : SemLoc sig) = none := by revert j; decide
theorem recvIx_recv (j : Fin 8) : recvIx (.dma (recvS j) : SemLoc sig) = some j := by revert j; decide

-- One round per cell: two unit duties on a barrier cell, one duty of the transfer's amount on a send or a receive cell.
def Rd : Rounds.Schedule (GSem nD τ sig) Bool 𝕄 where
  duties g r :=
    if r = 0 ∧ g.1.2 = .tc then
      (if g.2 = .reg barS then Finset.univ else if (sendIx g.2).isSome ∨ (recvIx g.2).isSome then {false} else ∅)
    else ∅
  unitless _ := False
  amount g _ _ :=
    match sendIx g.2, recvIx g.2 with
    | some j, _ => amt j
    | none, some j => amt j
    | none, none => 1
  payload g _ d :=
    if g.2 = .reg barS then barPay g.1.1 d
    else match sendIx g.2, recvIx g.2 with
      | some j, _ => sendPay m attnC g.1.1 j
      | none, some j => recvPay m attnC g.1.1 j
      | none, none => iprop(emp)
  amount_pos g _ _ _ := by
    split
    · exact amt_pos _
    · exact amt_pos _
    · exact Nat.one_pos

instance Rd_payload_storable (g : GSem nD τ sig) (r : ℕ) (d : Bool) :
    BI.Storable (upEmb : UEmb _ 𝕄) ((Rd (F := F) m attnC).payload g r d) := by
  dsimp only [Rd]; split
  · infer_instance
  · split <;> infer_instance

end Cert.Kernel.Proto

end
-- ==== Proof.KOwed.lean ====
import proofs.«900513_g7700000000000514_dist_attn_self_gqa_htp_b2_sq256_skv256_d768_hq8_dh64_v7x_i4_f32_1_alg».proof.Proof.KSched

noncomputable section

namespace Cert.Kernel.Proto

open Cert.Kernel Cert.Kernel.Gen Cert.Kernel.Mesh
open Idealize.ShloMosaic Idealize.ShloMosaic.TcCoe

def pr (b : Bool) (c : Dev nD) : Dev nD := if b then px c else py c

theorem pr_pr (b : Bool) (c : Dev nD) : pr b (pr b c) = c := by cases b <;> first | exact py_py c | exact px_px c

-- Payment `i` of a device, in program order: along which coordinate the partner lies, the partner's semaphore, the amount. Two barrier signals, then the eight landings in the order the partners wait for them.
def pay : ℕ → Bool × SemLoc sig × ℕ
  | 0 => (false, .reg barS, 1) | 1 => (true, .reg barS, 1)
  | 2 => (false, .dma (recvS 0), amt 0) | 3 => (true, .dma (recvS 4), amt 4) | 4 => (true, .dma (recvS 1), amt 1) | 5 => (false, .dma (recvS 5), amt 5)
  | 6 => (true, .dma (recvS 2), amt 2) | 7 => (false, .dma (recvS 6), amt 6) | 8 => (false, .dma (recvS 3), amt 3) | _ => (true, .dma (recvS 7), amt 7)

def payCell (c : Dev nD) (i : ℕ) : GSem nD τ sig := ((pr (pay i).1 c : Thread nD τ), (pay i).2.1)

-- What device `c` owes for its payments `k, …, k + n - 1` (the earliest outermost), and what it still owes after the first `k` of the ten.
def Ofrom (c : Dev nD) : ℕ → ℕ → CellTallies nD τ sig Unit
  | 0, _ => 0
  | n + 1, k => Ofrom c n (k + 1) + tallyAt (payCell c k) () (pay k).2.2

def Oafter (c : Dev nD) (k : ℕ) : CellTallies nD τ sig Unit := Ofrom c (10 - k) k

def L (g : GSem nD τ sig) : Finset Unit := if g.1.2 = .tc then {()} else ∅
-- A barrier cell sits at level 1, receive cell `j` at the position of its landing among the ten payments, every other cell at 0.
def lv (g : GSem nD τ sig) (_ : Unit) : ℕ :=
  if g.2 = .reg barS then 1 else match recvIx g.2 with | some j => 2 + 2 * (j.val % 4) + j.val / 4 | none => 0

end Cert.Kernel.Proto

end
-- ==== Proof.KLevels.lean ====
import proofs.«900513_g7700000000000514_dist_attn_self_gqa_htp_b2_sq256_skv256_d768_hq8_dh64_v7x_i4_f32_1_alg».proof.Proof.KOwed

noncomputable section

namespace Cert.Kernel.Proto

open Cert.Kernel Cert.Kernel.Gen Cert.Kernel.Mesh
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type}

local notation "𝕄" => MT nD τ sig Unit (Elt F) ℕ UU ℕ

theorem L_of_ne (g : GSem nD τ sig) (h : g.1.2 ≠ .tc) : L g = ∅ := if_neg h
theorem mem_L (c : Dev nD) (s : SemLoc sig) (u : Unit) : u ∈ L ((c : Thread nD τ), s) := by
  rw [L, if_pos rfl]; exact Finset.mem_singleton_self _

theorem lv_bar (c : Dev nD) (u : Unit) : lv (barCell c) u = 1 := if_pos rfl
theorem lv_recv (c : Dev nD) (j : Fin 8) (u : Unit) : lv (recvCell c j) u = 2 + 2 * (j.val % 4) + j.val / 4 := by
  dsimp only [lv]; rw [if_neg (fun h => by cases h), recvIx_recv]
theorem lv_stage (c : Dev nD) (q : DmaSem sig) (hq : recvIx (.dma q) = none) (u : Unit) : lv ((c : Thread nD τ), .dma q) u = 0 := by
  dsimp only [lv]; rw [if_neg (fun h => by cases h), hq]

-- Payment `i` lands on a cell of level `max 1 i`.
theorem lv_pay (c : Dev nD) {i : ℕ} (hi : i < 10) (u : Unit) : lv (payCell c i) u = if i < 2 then 1 else i := by
  interval_cases i <;> first | exact lv_bar _ u | exact lv_recv _ _ u

-- A cell owed under `Ofrom c n k` is the cell of one of the payments `k, …, k + n - 1`.
theorem Ofrom_pos {c : Dev nD} {n k : ℕ} {g : GSem nD τ sig} {u : Unit} (h : 0 < Ofrom c n k g u) :
    ∃ i, k ≤ i ∧ i < k + n ∧ g = payCell c i := by
  induction n generalizing k with
  | zero => exact absurd h (Nat.lt_irrefl 0)
  | succ n ih =>
    rcases Pipeline.add_pos_cases (D₁ := Ofrom c n (k + 1)) h with h | h
    · obtain ⟨i, hi, hn, e⟩ := ih h; exact ⟨i, by omega, by omega, e⟩
    · exact ⟨k, Nat.le_refl k, by omega, (Pipeline.tallyAt_pos h).1⟩

theorem Oafter_pos {c : Dev nD} {k : ℕ} {g : GSem nD τ sig} {u : Unit} (h : 0 < Oafter c k g u) :
    ∃ i, k ≤ i ∧ i < 10 ∧ g = payCell c i := by
  obtain ⟨i, hi, hn, e⟩ := Ofrom_pos (n := 10 - k) h; exact ⟨i, hi, by omega, e⟩

-- A wait is allowed when its cell lies strictly below the cells of all payments still to come.
theorem mayWait_of_lt (c : Dev nD) (s : SemLoc sig) (k : ℕ)
    (h : ∀ i, k ≤ i → i < 10 → lv ((c : Thread nD τ), s) () < lv (payCell c i) ()) :
    (levAts L lv : sProp 𝕄) ⊢ MayWait (c : Thread nD τ) s () (Oafter c k) :=
  Pipeline.mayWait_of_levAts (mem_L c s ()) fun g u hg => by
    obtain ⟨i, hi, h10, rfl⟩ := Oafter_pos hg; exact ⟨mem_L _ _ u, h i hi h10⟩

theorem mayWait_lv0 (c : Dev nD) (s : SemLoc sig) (hs : lv ((c : Thread nD τ), s) () = 0) (k : ℕ) :
    (levAts L lv : sProp 𝕄) ⊢ MayWait (c : Thread nD τ) s () (Oafter c k) :=
  mayWait_of_lt c s k fun i _ hi => by rw [hs, lv_pay c hi]; split <;> omega

theorem mayWait_stage (c : Dev nD) (q : DmaSem sig) (hq : recvIx (.dma q) = none) (O : CellTallies nD τ sig Unit)
    (hO : O = Oafter c 0 ∨ O = 0) : (levAts L lv : sProp 𝕄) ⊢ MayWait (c : Thread nD τ) (.dma q) () O := by
  rcases hO with rfl | rfl
  · exact mayWait_lv0 c (.dma q) (lv_stage c q hq ()) 0
  · rw [MayWait_zero]; iintro -; iempintro

theorem mayWait_send (c : Dev nD) (j : Fin 8) (k : ℕ) :
    (levAts L lv : sProp 𝕄) ⊢ MayWait (c : Thread nD τ) (.dma (sendS j)) () (Oafter c k) :=
  mayWait_lv0 c _ (lv_stage c _ (recvIx_send j) ()) k

theorem mayWait_bar (c : Dev nD) : (levAts L lv : sProp 𝕄) ⊢ MayWait (c : Thread nD τ) (.reg barS) () (Oafter c 2) :=
  mayWait_of_lt c (.reg barS) 2 fun i hi h10 => by rw [lv_bar c (), lv_pay c h10]; split <;> omega

theorem mayWait_recv (c : Dev nD) (j : Fin 8) (k : ℕ) (hk : 2 + 2 * (j.val % 4) + j.val / 4 < k) :
    (levAts L lv : sProp 𝕄) ⊢ MayWait (c : Thread nD τ) (.dma (recvS j)) () (Oafter c k) :=
  mayWait_of_lt c (.dma (recvS j)) k fun i hi h10 => by rw [lv_recv c j (), lv_pay c h10]; split <;> omega

-- Every payment goes to a partner's cell and the partner map is an involution, so the launch deals device `c` one token on its own cell per payment.
theorem cred_from (c : Dev nD) (n k : ℕ) : (Pipeline.launchCred (fun d => Ofrom d n k) c : sProp 𝕄)
    ⊢ bigSepL (List.range' k n) fun i => cred (tallyAt ((c : Thread nD τ), (pay i).2.1) () (pay i).2.2) := by
  induction n generalizing k with
  | zero => exact (Entails.of_eq (Pipeline.launchCred_zero c))
  | succ n ih =>
    rw [show (fun d => Ofrom d (n + 1) k) = fun d => Ofrom d n (k + 1) + tallyAt (payCell d k) () (pay k).2.2 from rfl,
      Pipeline.launchCred_add, List.range'_succ, bigSepL_cons]
    exact BIBase.Entails.trans BI.sep_comm (BI.sep_mono (Pipeline.launchCred_tallyAt _ (pr _) (pr _) (pr_pr _) (pr_pr _) () _ c) (ih (k + 1)))

-- The two unit tokens on the barrier cell join into one; the eight landings are listed by transfer index.
theorem creds (c : Dev nD) :
    (Pipeline.launchCred (fun d => Oafter d 0) c : sProp 𝕄)
      ⊢ iprop(cred (tallyAt (barCell c) () 2) ∗ cred (tallyAt (recvCell c 0) () (amt 0)) ∗ cred (tallyAt (recvCell c 1) () (amt 1))
          ∗ cred (tallyAt (recvCell c 2) () (amt 2)) ∗ cred (tallyAt (recvCell c 3) () (amt 3)) ∗ cred (tallyAt (recvCell c 4) () (amt 4))
          ∗ cred (tallyAt (recvCell c 5) () (amt 5)) ∗ cred (tallyAt (recvCell c 6) () (amt 6)) ∗ cred (tallyAt (recvCell c 7) () (amt 7))) := by
  refine (cred_from c 10 0).trans ?_
  simp only [List.range', bigSepL_cons_cons, bigSepL_singleton, pay]
  change iprop(_ ∗ _ ∗ _ ∗ _ ∗ _ ∗ _ ∗ _ ∗ _ ∗ _ ∗ _) ⊢ _
  iintro ⟨H0, H1, R0, R4, R1, R5, R2, R6, R3, R7⟩
  iframe R0 R1 R2 R3 R4 R5 R6 R7
  iapply ((cred_add _ _).2.trans (Entails.of_eq (congrArg cred (tallyAt_add (barCell c) () 1 1))))
  iframe

end Cert.Kernel.Proto

end
-- ==== Proof.KGhost.lean ====
import proofs.«900513_g7700000000000514_dist_attn_self_gqa_htp_b2_sq256_skv256_d768_hq8_dh64_v7x_i4_f32_1_alg».proof.Proof.KOwed
import proofs.«900513_g7700000000000514_dist_attn_self_gqa_htp_b2_sq256_skv256_d768_hq8_dh64_v7x_i4_f32_1_alg».proof.Proof.Gen.Kernel.Frame

noncomputable section

namespace Cert.Kernel.Proto

open Cert.Kernel Cert.Kernel.Gen Cert.Kernel.Mesh
open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (attnC : (d : Dev nD) → Buf (Elt F) ((attM : Memref sig .tc .vmem S512x512 .f32).view.loc (d : Thread nD τ)))

abbrev 𝒱₀ : Variants := Variants.none

abbrev csem : Fin 17 → SemLoc sig := fun | 0 => .reg barS | 1 => .dma (sendS 0) | 2 => .dma (sendS 1) | 3 => .dma (sendS 2) | 4 => .dma (sendS 3) | 5 => .dma (sendS 4) | 6 => .dma (sendS 5) | 7 => .dma (sendS 6) | 8 => .dma (sendS 7) | 9 => .dma (recvS 0) | 10 => .dma (recvS 1) | 11 => .dma (recvS 2) | 12 => .dma (recvS 3) | 13 => .dma (recvS 4) | 14 => .dma (recvS 5) | 15 => .dma (recvS 6) | 16 => .dma (recvS 7) | ⟨_ + 17, h⟩ => absurd h (Nat.not_lt.2 (Nat.le_add_left _ _))
abbrev kcell (ck : Dev nD × Fin 17) : GSem nD τ sig := ((ck.1 : Thread nD τ), csem ck.2)

abbrev osem (i : Fin 16) : SemLoc sig := csem i.succ
abbrev kS (j : Fin 8) : Fin 17 := ⟨1 + j.val, by have := j.isLt; omega⟩
abbrev kR (j : Fin 8) : Fin 17 := ⟨9 + j.val, by have := j.isLt; omega⟩
theorem kcell_send (c : Dev nD) (j : Fin 8) : kcell (c, kS j) = sendCell c j := by fin_cases j <;> rfl
theorem kcell_recv (c : Dev nD) (j : Fin 8) : kcell (c, kR j) = recvCell c j := by fin_cases j <;> rfl

def records (K : Dev nD × Fin 17 → ℕ) : sProp 𝕄 :=
  iprop((bigSep Finset.univ fun ck : Dev nD × Fin 17 => cellInv ER (Rd m attnC) (K ck) (kcell ck))
    ∗ bigSep Finset.univ fun ck : Dev nD × Fin 17 => reached ER (kcell ck) 0)

instance records_persistent (K : Dev nD × Fin 17 → ℕ) : BI.Persistent (records m attnC K) := by unfold records; infer_instance

def payToks (c : Dev nD) : sProp 𝕄 :=
  iprop(dutyTok ER (barCell (py c)) 0 false ∗ dutyTok ER (barCell (px c)) 0 true
    ∗ (bigSep Finset.univ fun j : Fin 8 => dutyTok ER (recvCell (peer c j) j) 0 false)
    ∗ (bigSep Finset.univ fun j : Fin 8 => dutyTok ER (sendCell c j) 0 false))
def linear (c : Dev nD) : sProp 𝕄 :=
  iprop((bigSep Finset.univ fun k : Fin 17 => atPos ER (kcell (c, k)) 0 ∅ 0) ∗ payToks c)
def ghost (K : Dev nD × Fin 17 → ℕ) (c : Dev nD) : sProp 𝕄 := iprop(records m attnC K ∗ linear c)

def creds8 (c : Dev nD) : sProp 𝕄 := iprop(cred (tallyAt (recvCell c 0) () (amt 0)) ∗ cred (tallyAt (recvCell c 1) () (amt 1)) ∗ cred (tallyAt (recvCell c 2) () (amt 2)) ∗ cred (tallyAt (recvCell c 3) () (amt 3)) ∗ cred (tallyAt (recvCell c 4) () (amt 4)) ∗ cred (tallyAt (recvCell c 5) () (amt 5)) ∗ cred (tallyAt (recvCell c 6) () (amt 6)) ∗ cred (tallyAt (recvCell c 7) () (amt 7)))
def start (c : Dev nD) : sProp 𝕄 :=
  iprop((∃ K, ghost m attnC K c) ∗ cred (tallyAt (barCell c) () 2) ∗ creds8 c ∗ levAts L lv)

def scr (c : Dev nD) : sProp 𝕄 := iprop((∃ f, ((c : Thread nD τ).loc cc0_scratch0) ↦{fullShare} f) ∗ (∃ f, ((c : Thread nD τ).loc cc0_scratch1) ↦{fullShare} f) ∗ (∃ f, ((c : Thread nD τ).loc cc0_scratch2) ↦{fullShare} f) ∗ (∃ f, ((c : Thread nD τ).loc cc0_scratch3) ↦{fullShare} f) ∗ (∃ f, ((c : Thread nD τ).loc cc0_scratch4) ↦{fullShare} f) ∗ (∃ f, ((c : Thread nD τ).loc cc0_scratch5) ↦{fullShare} f))

def Φ₀ (c : Dev nD) : sProp 𝕄 := iprop(start m attnC c ∗ scr c)
def Φ₁ (c : Dev nD) : sProp 𝕄 :=
  iprop(scr c ∗ Pipeline.ownSems0 osem c)

def inC0 (c : Dev nD) : (cc0_stg0_0 : Ref sig .tc).ty.Contents (Elt F) := (win0_0.blk (0 : Fin 1)).view.read (Elt F) (m ((c : Thread nD τ).loc main_arg0))
def inC1 (c : Dev nD) : (cc0_stg1_0 : Ref sig .tc).ty.Contents (Elt F) := (win0_1.blk (0 : Fin 1)).view.read (Elt F) (m ((c : Thread nD τ).loc main_arg1))
def inC3 (c : Dev nD) : (cc0_stg3_0 : Ref sig .tc).ty.Contents (Elt F) := (win0_3.blk (0 : Fin 1)).view.read (Elt F) (m ((c : Thread nD τ).loc main_arg3))
def inC4 (c : Dev nD) : (cc0_stg4_0 : Ref sig .tc).ty.Contents (Elt F) := (win0_4.blk (0 : Fin 1)).view.read (Elt F) (m ((c : Thread nD τ).loc main_arg4))

def dats (_ : Fin 1) (c : Dev nD) : Dat τ (Elt F) Unit ℕ UU ℕ cfg0 c where
  A w := m ((cfg0.win w).arr.view.loc (c : Thread nD τ))
  after w _ := match w with
    | ⟨0, _⟩ => inC0 m c
    | ⟨1, _⟩ => inC1 m c
    | ⟨2, _⟩ => woC m c
    | ⟨3, _⟩ => inC3 m c
    | ⟨4, _⟩ => inC4 m c
    | ⟨5, _⟩ => outV m attnC c
  Φ t := match t with
    | ⟨0, _⟩ => Φ₀ m attnC c
    | ⟨_ + 1, _⟩ => Φ₁ c
  q _ := fullShare
  owed t := match t with
    | ⟨0, _⟩ => Oafter c 0
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

end Cert.Kernel.Proto

end
-- ==== Proof.KTables.lean ====
import proofs.«900513_g7700000000000514_dist_attn_self_gqa_htp_b2_sq256_skv256_d768_hq8_dh64_v7x_i4_f32_1_alg».proof.Proof.KSched

noncomputable section

namespace Cert.Kernel.Proto

open Cert.Kernel Cert.Kernel.Gen Cert.Kernel.Mesh
open Idealize.ShloMosaic Idealize.ShloMosaic.TcCoe Idealize.ShloMosaic.Rounds
open Idealize.SL Idealize.SL.RA Idealize.SL.BI
open scoped Idealize.SL.BI
open Idealize.SL.BI.BIBase Idealize.SL.Sem

variable {F : FTy → Type} [FloatOps F]

local notation "𝕄" => MT nD τ sig Unit (Elt F) ℕ UU ℕ

variable (m : (ℓ : Loc nD τ sig) → Buf (Elt F) ℓ)
variable (attnC : (d : Dev nD) → Buf (Elt F) (attM.view.loc (d : Thread nD τ)))

theorem duties_bar (c : Dev nD) : (Rd (F := F) m attnC).duties (barCell c) 0 = Finset.univ := by
  dsimp only [Rd]; rw [if_pos ⟨rfl, rfl⟩, if_pos rfl]
theorem duties_send (c : Dev nD) (j : Fin 8) : (Rd (F := F) m attnC).duties (sendCell c j) 0 = {false} := by
  dsimp only [Rd]
  rw [if_pos ⟨rfl, rfl⟩, if_neg nofun, if_pos (Or.inl (by rw [sendIx_send]; rfl))]
theorem duties_recv (c : Dev nD) (j : Fin 8) : (Rd (F := F) m attnC).duties (recvCell c j) 0 = {false} := by
  dsimp only [Rd]
  rw [if_pos ⟨rfl, rfl⟩, if_neg nofun, if_pos (Or.inr (by rw [recvIx_recv]; rfl))]
theorem duties_later (g : GSem nD τ sig) : ∀ r, 1 ≤ r → (Rd (F := F) m attnC).duties g r = ∅ :=
  fun r hr => by dsimp only [Rd]; rw [if_neg fun h => by omega]

theorem amount_bar (c : Dev nD) (d : Bool) : (Rd (F := F) m attnC).amount (barCell c) 0 d = 1 := rfl
theorem amount_send (c : Dev nD) (j : Fin 8) (d : Bool) : (Rd (F := F) m attnC).amount (sendCell c j) 0 d = amt j := by
  dsimp only [Rd]; rw [sendIx_send]
theorem amount_recv (c : Dev nD) (j : Fin 8) (d : Bool) : (Rd (F := F) m attnC).amount (recvCell c j) 0 d = amt j := by
  dsimp only [Rd]; rw [sendIx_recv, recvIx_recv]

theorem expect_bar (c : Dev nD) : (Rd (F := F) m attnC).expect (barCell c) 0 = 2 := by
  unfold Schedule.expect Schedule.amountOf
  rw [duties_bar, Finset.sum_congr rfl fun d _ => amount_bar m attnC c d, Finset.sum_const, Finset.card_univ, Fintype.card_bool, smul_eq_mul]
theorem expect_send (c : Dev nD) (j : Fin 8) : (Rd (F := F) m attnC).expect (sendCell c j) 0 = amt j := by
  unfold Schedule.expect Schedule.amountOf; rw [duties_send, Finset.sum_singleton, amount_send]
theorem expect_recv (c : Dev nD) (j : Fin 8) : (Rd (F := F) m attnC).expect (recvCell c j) 0 = amt j := by
  unfold Schedule.expect Schedule.amountOf; rw [duties_recv, Finset.sum_singleton, amount_recv]

theorem payload_bar (c : Dev nD) (d : Bool) : (Rd (F := F) m attnC).payload (barCell c) 0 d = barPay c d := by
  dsimp only [Rd]; rw [if_pos rfl]
theorem payload_send (c : Dev nD) (j : Fin 8) (d : Bool) : (Rd (F := F) m attnC).payload (sendCell c j) 0 d = sendPay m attnC c j := by
  dsimp only [Rd]; rw [if_neg nofun, sendIx_send]
theorem payload_recv (c : Dev nD) (j : Fin 8) (d : Bool) : (Rd (F := F) m attnC).payload (recvCell c j) 0 d = recvPay m attnC c j := by
  dsimp only [Rd]; rw [if_neg nofun, sendIx_recv, recvIx_recv]

theorem rest_bar (c : Dev nD) : bigSep ((Rd (F := F) m attnC).duties (barCell c) 0 \ ∅) (fun d => (Rd (F := F) m attnC).payload (barCell c) 0 d) = iprop(barPay c false ∗ barPay c true) := by
  rw [Finset.sdiff_empty, duties_bar, bigSep_univ_eq_bigSepL [false, true] (by decide) (by decide), bigSepL_cons_cons, bigSepL_singleton,
    payload_bar, payload_bar]
  rfl
theorem rest_send (c : Dev nD) (j : Fin 8) : bigSep ((Rd (F := F) m attnC).duties (sendCell c j) 0 \ ∅) (fun d => (Rd (F := F) m attnC).payload (sendCell c j) 0 d) = sendPay m attnC c j := by
  rw [Finset.sdiff_empty, duties_send, bigSep_singleton, payload_send]
theorem rest_recv (c : Dev nD) (j : Fin 8) : bigSep ((Rd (F := F) m attnC).duties (recvCell c j) 0 \ ∅) (fun d => (Rd (F := F) m attnC).payload (recvCell c j) 0 d) = recvPay m attnC c j := by
  rw [Finset.sdiff_empty, duties_recv, bigSep_singleton, payload_recv]

theorem barPay_false (c : Dev nD) : barPay (F := F) c false = iprop(owned (py c) la1M ∗ owned (py c) lb2M ∗ reached ER (recvCell (py c) 0) 0
    ∗ reached ER (recvCell (py c) 5) 0 ∗ reached ER (recvCell (py c) 6) 0 ∗ reached ER (recvCell (py c) 3) 0) := rfl
theorem barPay_true (c : Dev nD) : barPay (F := F) c true = iprop(owned (px c) lb1M ∗ owned (px c) la2M ∗ reached ER (recvCell (px c) 4) 0
    ∗ reached ER (recvCell (px c) 1) 0 ∗ reached ER (recvCell (px c) 2) 0 ∗ reached ER (recvCell (px c) 7) 0) := rfl

theorem recvPay_0 (c : Dev nD) : recvPay m attnC c 0 = iprop(holds c la1M fullShare (pAs m attnC (py c)) ∗ owned (py c) (slA1 (py c))) := rfl
theorem recvPay_1 (c : Dev nD) : recvPay m attnC c 1 = iprop(holds c la2M fullShare (hAs m attnC (px c)) ∗ owned (px c) (slA2 (px c))) := rfl
theorem recvPay_2 (c : Dev nD) : recvPay m attnC c 2 = holds c (slA3 (px c)) fullShare (tA m attnC (px c)) := rfl
theorem recvPay_3 (c : Dev nD) : recvPay m attnC c 3 = holds c (slA4 (py c)) fullShare (uA m attnC (py c)) := rfl
theorem recvPay_4 (c : Dev nD) : recvPay m attnC c 4 = iprop(holds c lb1M fullShare (pBs m attnC (px c)) ∗ owned (px c) (slB1 (px c))) := rfl
theorem recvPay_5 (c : Dev nD) : recvPay m attnC c 5 = iprop(holds c lb2M fullShare (hBs m attnC (py c)) ∗ owned (py c) (slB2 (py c))) := rfl
theorem recvPay_6 (c : Dev nD) : recvPay m attnC c 6 = holds c (slB3 (py c)) fullShare (tB m attnC (py c)) := rfl
theorem recvPay_7 (c : Dev nD) : recvPay m attnC c 7 = holds c (slB4 (px c)) fullShare (uB m attnC (px c)) := rfl

theorem sendPay_2 (c : Dev nD) : sendPay m attnC c 2 = holds c (slA3 c) fullShare (tA m attnC c) := rfl
theorem sendPay_3 (c : Dev nD) : sendPay m attnC c 3 = holds c (slA4 c) fullShare.left (uA m attnC c) := rfl
theorem sendPay_6 (c : Dev nD) : sendPay m attnC c 6 = holds c (slB3 c) fullShare (tB m attnC c) := rfl
theorem sendPay_7 (c : Dev nD) : sendPay m attnC c 7 = holds c (slB4 c) fullShare.left (uB m attnC c) := rfl

end Cert.Kernel.Proto

end
-- ==== Proof.KGlob.lean ====
import proofs.«900513_g7700000000000514_dist_attn_self_gqa_htp_b2_sq256_skv256_d768_hq8_dh64_v7x_i4_f32_1_alg».proof.Proof.KGhost
import proofs.«900513_g7700000000000514_dist_attn_self_gqa_htp_b2_sq256_skv256_d768_hq8_dh64_v7x_i4_f32_1_alg».proof.Proof.KTables

noncomputable section

namespace Cert.Kernel.Proto

open Cert.Kernel Cert.Kernel.Gen Cert.Kernel.Mesh
open Idealize.ShloMosaic
open Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (attnC : (d : Dev nD) → Buf (Elt F) (attM.view.loc (d : Thread nD τ)))

theorem ownSemFacts : Pipeline.OwnSemFacts cfg0.spec osem := by decide

theorem kcell_injective : Function.Injective (kcell : Dev nD × Fin 17 → GSem nD τ sig) := by
  rintro ⟨c, k⟩ ⟨c', k'⟩ h
  cases (congrArg (fun g : GSem nD τ sig => g.1.1) h : c = c')
  cases (by decide : Function.Injective csem) (congrArg Prod.snd h)
  rfl
def allCells : Finset (GSem nD τ sig) := Finset.univ.map ⟨kcell, kcell_injective⟩

/-- Device `c`'s token `i`: the barrier cell's two, then one for each send and each receive cell. -/
abbrev tokOf (ci : Dev nD × Fin 18) : GSem nD τ sig × ℕ × Bool :=
  (kcell (ci.1, ⟨ci.2.val - 1, by have := ci.2.isLt; omega⟩), 0, decide (ci.2.val = 1))

theorem tokOf_injective : Function.Injective (tokOf : Dev nD × Fin 18 → GSem nD τ sig × ℕ × Bool) := by
  rintro ⟨c, i⟩ ⟨c', i'⟩ h
  obtain ⟨rfl, h1⟩ := Prod.mk.inj (kcell_injective (congrArg (·.1) h))
  have h1 := Fin.val_eq_of_eq h1
  have h2 := decide_eq_decide.1 (congrArg (·.2.2) h)
  exact congrArg _ (Fin.ext (by dsimp only at h1 h2; omega))
def allToks : Finset (GSem nD τ sig × ℕ × Bool) := Finset.univ.map ⟨tokOf, tokOf_injective⟩

def u₀ : UU :=
  (initOf (Pipeline.cells cfgs cellOf_inj) (Pipeline.launchToks cfgs cellOf_inj), initOf allCells allToks)

def toks (c : Dev nD) : sProp 𝕄 :=
  iprop(dutyTok ER (barCell c) 0 false ∗ dutyTok ER (barCell c) 0 true
    ∗ (bigSep Finset.univ fun j : Fin 8 => dutyTok ER (sendCell c j) 0 false)
    ∗ (bigSep Finset.univ fun j : Fin 8 => dutyTok ER (recvCell c j) 0 false))

/-- What a device holds of the launch element, with `X` at each of its cells. -/
def dealt (X : Dev nD × Fin 17 → sProp 𝕄) (c : Dev nD) : sProp 𝕄 :=
  iprop((bigSep Finset.univ fun k : Fin 17 => X (c, k))
    ∗ (bigSep Finset.univ fun k : Fin 17 => atPos ER (kcell (c, k)) 0 ∅ 0) ∗ (bigSep Finset.univ fun k : Fin 17 => reached ER (kcell (c, k)) 0) ∗ toks c)

def G : Dev nD → sProp 𝕄 := dealt fun ck => roundState ER (Rd m attnC) (kcell ck) 0

def G' (c : Dev nD) : sProp 𝕄 := iprop(∃ K, ghost m attnC K c)

theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep_fin17 (Φ : Fin 17 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) :=
  bigSep_univ_eq_bigSepL [0, 1, 2, 3, 4, 5, 6, 7, 8, 9, 10, 11, 12, 13, 14, 15, 16] (by decide) (by decide) Φ

theorem toks_intro (c : Dev nD) :
    (bigSep Finset.univ fun i : Fin 18 => (dutyTok ER (tokOf (c, i)).1 0 (tokOf (c, i)).2.2 : sProp 𝕄)) ⊢ toks c := by
  unfold toks
  rw [show ∀ Φ : Fin 18 → sProp 𝕄, bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) from
    bigSep_univ_eq_bigSepL [0, 1, 2, 3, 4, 5, 6, 7, 8, 9, 10, 11, 12, 13, 14, 15, 16, 17] (by decide) (by decide), bigSep_fin8, bigSep_fin8]
  simp only [tokOf, Fin.coe_ofNat_eq_mod, Nat.reduceMod, Nat.reduceSub, Nat.reduceEqDiff, Fin.val_zero, Fin.val_one, decide_true, decide_false]
  iintro ⟨H0, H1, H2, H3, H4, H5, H6, H7, H8, H9, H10, H11, H12, H13, H14, H15, H16, H17⟩
  iframe

theorem fund_all : BI.own (ER (initOf allCells allToks)) ⊢ (|==> bigSep Finset.univ (G m attnC) : sProp 𝕄) := by
  have hX (Φ : GSem nD τ sig → sProp 𝕄) : bigSep allCells Φ = bigSep Finset.univ fun c : Dev nD => bigSep Finset.univ fun k : Fin 17 => Φ (kcell (c, k)) := by
    unfold allCells; rw [bigSep_map, bigSep_univ_prod]; rfl
  have hT : bigSep allToks (fun x => (dutyTok ER x.1 x.2.1 x.2.2 : sProp 𝕄)) ⊢ bigSep Finset.univ fun c : Dev nD => toks c := by
    unfold allToks; rw [bigSep_map, bigSep_univ_prod]
    exact bigSep_mono fun c _ => toks_intro c
  iintro HX
  imod (Rounds.fund ER (Rd m attnC) allCells allToks) $$ HX with ⟨Hst, Hr, Hat, Htok⟩
  imodintro
  ihave Hst := (Entails.of_eq (hX _)) $$ Hst
  ihave Hr := (Entails.of_eq (hX _)) $$ Hr
  ihave Hat := (Entails.of_eq (hX _)) $$ Hat
  ihave Htok := hT $$ Htok
  unfold G dealt; simp only [bigSep_sep']
  iframe

theorem hu₀_all : (ownU (u₀ : UU) : sProp 𝕄)
    ⊢ |={Set.univ}=> iprop(BI.own (EP (initOf (Pipeline.cells cfgs cellOf_inj) (Pipeline.launchToks cfgs cellOf_inj))) ∗ bigSep Finset.univ (G m attnC)) := by
  unfold u₀
  iintro Hu
  icases (ownU_pair _ _) $$ Hu with ⟨HP, HX⟩
  imod (fund_all m attnC) $$ HX with HG
  imodintro
  iframe

theorem ownSems0_eq' (c : Dev nD) : (Pipeline.ownSems0 osem c : sProp 𝕄)
    = iprop(semVal (sendCell c 0) 0 ∗ semVal (sendCell c 1) 0 ∗ semVal (sendCell c 2) 0 ∗ semVal (sendCell c 3) 0 ∗ semVal (sendCell c 4) 0 ∗ semVal (sendCell c 5) 0 ∗ semVal (sendCell c 6) 0 ∗ semVal (sendCell c 7) 0 ∗ semVal (recvCell c 0) 0 ∗ semVal (recvCell c 1) 0 ∗ semVal (recvCell c 2) 0 ∗ semVal (recvCell c 3) 0 ∗ semVal (recvCell c 4) 0 ∗ semVal (recvCell c 5) 0 ∗ semVal (recvCell c 6) 0 ∗ semVal (recvCell c 7) 0) := by
  rw [Pipeline.ownSems0_eq_of_list c osem [0, 1, 2, 3, 4, 5, 6, 7, 8, 9, 10, 11, 12, 13, 14, 15] (by decide) (by decide)]; rfl

theorem sems0_eq (c : Dev nD) :
    iprop(Pipeline.ownSems0 osem c ∗ unscopedSems0 c) ⊢ (bigSep Finset.univ fun k : Fin 17 => semVal (kcell (c, k)) 0 : sProp 𝕄) := by
  unfold unscopedSems0
  rw [ownSems0_eq', bigSep_eq_bigSepL_of_eq [SemLoc.reg barS] (by decide) (by decide), bigSepL_singleton, bigSep_fin17]
  iintro ⟨HO, HB⟩
  isplitl [HB]; · iexact HB
  iexact HO

theorem core_alloc (c : Dev nD) :
    iprop(Pipeline.ownSems0 osem c ∗ unscopedSems0 c ∗ G m attnC c)
      ⊢ |={Set.univ}=> dealt (fun ck => iprop(∃ κ : ℕ, cellInv ER (Rd m attnC) κ (kcell ck))) c := by
  unfold G dealt
  iintro ⟨Hos, Hus, Hst, Hrest⟩
  imod ((sep_mono_left (sems0_eq (F := F) c)).trans ((Entails.of_eq (bigSep_sep' _ _ _).symm).trans
    ((bigSep_mono fun k _ => (Rounds.body_intro ER (Rd m attnC) (kcell (c, k))).trans inv_alloc).trans (bigSep_fupd _ _)))) $$ [$Hos $Hus $Hst] with Hinv
  imodintro
  iframe

def pyE : Dev nD ≃ Dev nD := ⟨py, py, py_py, py_py⟩
def pxE : Dev nD ≃ Dev nD := ⟨px, px, px_px, px_px⟩
def peerE : Dev nD × Fin 8 ≃ Dev nD × Fin 8 :=
  ⟨fun cj => (peer cj.1 cj.2, cj.2), fun cj => (peer cj.1 cj.2, cj.2),
    fun cj => by show (peer (peer cj.1 cj.2) cj.2, cj.2) = cj; rw [peer_peer],
    fun cj => by show (peer (peer cj.1 cj.2) cj.2, cj.2) = cj; rw [peer_peer]⟩

/-- Reindexed along the partner maps, each its own inverse, every token is with the device that pays it. -/
theorem toks_around : (bigSep Finset.univ fun c : Dev nD => (toks c : sProp 𝕄)) ⊢ bigSep Finset.univ fun c : Dev nD => payToks c := by
  have hR : (bigSep Finset.univ fun c : Dev nD => bigSep Finset.univ fun j : Fin 8 => (dutyTok ER (recvCell c j) 0 false : sProp 𝕄))
      = bigSep Finset.univ fun c : Dev nD => bigSep Finset.univ fun j : Fin 8 => dutyTok ER (recvCell (peer c j) j) 0 false :=
    (bigSep_univ_prod (fun cj : Dev nD × Fin 8 => (dutyTok ER (recvCell cj.1 cj.2) 0 false : sProp 𝕄))).symm.trans
      ((bigSep_univ_equiv peerE _).trans (bigSep_univ_prod _))
  unfold toks payToks
  simp only [bigSep_sep']
  rw [hR]
  iintro ⟨H1, H2, H3, H4⟩
  ihave H1 := (Entails.of_eq (bigSep_univ_equiv pyE _)) $$ H1
  ihave H2 := (Entails.of_eq (bigSep_univ_equiv pxE _)) $$ H2
  iframe H3 H4
  isplitl [H1]; · iexact H1
  iexact H2

theorem regroup :
    bigSep Finset.univ (dealt fun ck => iprop(∃ κ : ℕ, cellInv ER (Rd m attnC) κ (kcell ck)) : Dev nD → sProp 𝕄) ⊢ bigSep Finset.univ (G' m attnC) := by
  unfold dealt
  simp only [bigSep_sep']
  rw [← bigSep_univ_prod (fun ck : Dev nD × Fin 17 => iprop(∃ κ : ℕ, cellInv ER (Rd m attnC) κ (kcell ck))),
    ← bigSep_univ_prod (fun ck : Dev nD × Fin 17 => (reached ER (kcell ck) 0 : sProp 𝕄))]
  iintro ⟨HI, Hat, #HR, Htok⟩
  icases (BI.bigSep_exists_pi (Y := fun _ => ℕ) _ _) $$ HI with ⟨%K, #HI⟩
  ihave Htk := (toks_around (F := F)) $$ Htok
  iapply (bigSep_with_persistent (R := records m attnC K) fun c _ => show _ ⊢ G' m attnC c from exists_intro (Φ := fun K => ghost m attnC K c) K)
  unfold records linear
  rw [bigSep_sep']
  iframe # ∗

theorem glob : (bigSep Finset.univ fun c => iprop(Pipeline.ownSems0 osem c ∗ unscopedSems0 c ∗ G m attnC c) : sProp 𝕄)
    ⊢ |={Set.univ}=> bigSep Finset.univ (G' m attnC) :=
  ((bigSep_mono fun c _ => core_alloc m attnC c).trans (bigSep_fupd _ _)).trans (BI.fupd_mono (regroup m attnC))

end Cert.Kernel.Proto

end
-- ==== Proof.KLaunch.lean ====
import proofs.«900513_g7700000000000514_dist_attn_self_gqa_htp_b2_sq256_skv256_d768_hq8_dh64_v7x_i4_f32_1_alg».proof.Proof.KLevels
import proofs.«900513_g7700000000000514_dist_attn_self_gqa_htp_b2_sq256_skv256_d768_hq8_dh64_v7x_i4_f32_1_alg».proof.Proof.KGhost
import proofs.«900513_g7700000000000514_dist_attn_self_gqa_htp_b2_sq256_skv256_d768_hq8_dh64_v7x_i4_f32_1_alg».proof.Proof.KGlob

noncomputable section

namespace Cert.Kernel.Proto

open Cert.Kernel Cert.Kernel.Gen Cert.Kernel.Mesh
open Idealize.ShloMosaic
open Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (attnC : (d : Dev nD) → Buf (Elt F) (attM.view.loc (d : Thread nD τ)))

theorem share_eq (c : Dev nD) (w : Fin cfg0.W) : (dats m attnC 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => Oafter d 0) c ∗ prngReg c (ρ c) ∗ G' m attnC c)
      ⊢ |={Set.univ}=> iprop(start m attnC c ∗ emp) := by
  iintro ⟨-, Hlev, Hcr, -, HG⟩
  icases (creds (F := F) c) $$ Hcr with ⟨H1, H8⟩
  imodintro
  unfold start G' creds8
  iframe

theorem phi0_intro (c : Dev nD) :
    iprop(start m attnC c ∗ Pipeline.prefHeld Pipeline.Prefetch.none c (fun _ => fullShare.right) (fun k => k.elim0) ∗ Pipeline.scopedRest cfg0.spec c)
      ⊢ (dats m attnC 0 c).Φ 0 := by
  rw [show (dats m attnC 0 c).Φ 0 = Φ₀ m attnC c from rfl, scopedRest0_eq]
  unfold Φ₀ scr
  iintro ⟨Hs, -, Hr⟩
  iframe

theorem phi1_exit (c : Dev nD) :
    (dats m attnC 0 c).Φ (Fin.last cfg0.N) ⊢ iprop(emp ∗ Pipeline.ownSems0 osem c ∗ Pipeline.scopedRest cfg0.spec c) := by
  rw [show (dats m attnC 0 c).Φ (Fin.last cfg0.N) = Φ₁ c from rfl, scopedRest0_eq]
  unfold Φ₁ scr
  iintro ⟨Hr, Hz⟩
  iframe

theorem waits (c : Dev nD) : (levAts L lv : sProp 𝕄) ⊢ Pipeline.cellsWaits cfgs (dats m attnC) () 0 c :=
  Pipeline.cellsWaits_intro cfgs (dats m attnC) () 0 c fun w s t =>
    mayWait_stage c _ (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m attnC 0 c).arrAt w cfg0.N

def QC : PUnit × MemSt nD τ sig (Elt F) → Prop := fun r =>
  ∀ c : Dev nD, ∀ w : Fin cfg0.W, r.2.mem ((cfg0.win w).arr.view.loc (c : Thread nD τ)) = finalA m attnC c w

set_option maxRecDepth 8000 in
theorem run_main (hbody : ∀ c : Dev nD, BodyObligation (dats (F := F) m attnC 0 c) (defs₀ (F := F)) 𝒱₀ () Set.univ) :
    θ_run defs (onTc (τ := τ) (main (F := F))) ⟨m, fun _ => 0, ρ⟩ (QC m attnC) :=
  Pipeline.θ_run_region_owing_glob_pf (fun p => (cfgs p).toPCfg) (fun p => (cfgs p).toPCfg_adm) (dats m attnC) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m attnC)
    (hdistinct := winFacts0.arr_inj)
    (howed₀ := fun _ => rfl) (howedN := fun _ => rfl) (hL := L_of_ne) (hwaits := waits m attnC)
    (hu₀ := hu₀_all m attnC) (hglob := glob m attnC)
    (hA := fun _ _ => rfl) (hpf := fun _ k => k.elim0)
    (hX := start_intro m ρ attnC) (hin := phi0_intro m attnC) (hout := phi1_exit m attnC)
    (QY := fun _ _ => True)
    (hY := fun c s' => by
      iintro ⟨-, -, HSI⟩
      imodintro
      iframe)
    (hQ := fun _ h c w => (h c).1 w)

theorem finalA_in (c : Dev nD) (w : Fin cfg0.W) (hw : w.val < 5) :
    finalA m attnC c w = m ((cfg0.win w).arr.view.loc (c : Thread nD τ)) := by
  fin_cases w <;> first | exact absurd hw (by decide) | exact (dats (F := F) m attnC 0 c).arrAt_in _ rfl _

theorem after_out (c : Dev nD) (t : Fin cfg0.N) : (dats (F := F) m attnC 0 c).after 5 t = outV m attnC c := by dsimp only [dats]

theorem finalA_out (c : Dev nD) : finalA m attnC c (5 : Fin 6) = outV m attnC c := by
  unfold finalA
  rw [show cfg0.N = (t₀ : Fin cfg0.N).val + 1 from rfl, (dats (F := F) m attnC 0 c).arrAt_succ (5 : Fin 6) t₀, if_pos (flush0_5 t₀)]
  have hz : (fun a => (win0_5.index t₀) a * main_v1.ty.shape.size a) = fun _ => 0 := funext fun a => by fin_cases a <;> decide
  refine (Memref.write_access_unit_zero_univ (Elt F) main_v1 hz (fun a => by fin_cases a <;> decide) _ _).trans ?_
  show (cfg0.win (5 : Fin 6)).cut _ ((dats (F := F) m attnC 0 c).after 5 t₀) = _
  rw [after_out]
  exact funext fun j => congrArg (outV m attnC c) (funext fun a => Fin.ext rfl)

end Cert.Kernel.Proto

end
-- ==== Proof.KOffs.lean ====
import proofs.«900513_g7700000000000514_dist_attn_self_gqa_htp_b2_sq256_skv256_d768_hq8_dh64_v7x_i4_f32_1_alg».proof.Proof.KMesh
import Idealize.ShloMosaic.Lib.Tactic

namespace Cert.Kernel.Mesh

open Cert.Kernel Cert.Kernel.Gen Idealize.ShloMosaic

instance (c : Dev nD) : ClosedOff (k0_off2 c) := ⟨_, off2_eq c⟩
instance (c : Dev nD) : ClosedOff (k0_off3 c) := ⟨_, off3_eq c⟩
instance (c : Dev nD) : ClosedOff (k0_off4 c) := ⟨_, off4_eq c⟩
instance (c : Dev nD) : ClosedOff (k0_off5 c) := ⟨_, off5_eq c⟩
instance (c : Dev nD) : ClosedOff (k0_off6 c) := ⟨_, off6_eq c⟩
instance (c : Dev nD) : ClosedOff (k0_off7 c) := ⟨_, off7_eq c⟩
instance (c : Dev nD) : ClosedOff (k0_off8 c) := ⟨_, off8_eq c⟩
instance (c : Dev nD) : ClosedOff (k0_off9 c) := ⟨_, off9_eq c⟩
instance (c : Dev nD) : ClosedOff (k0_off10 c) := ⟨_, off10_eq c⟩
instance (c : Dev nD) : ClosedOff (k0_off11 c) := ⟨_, off11_eq c⟩
instance (c : Dev nD) : ClosedOff (k0_off12 c) := ⟨_, off12_eq c⟩
instance (c : Dev nD) : ClosedOff (k0_off13 c) := ⟨_, off13_eq c⟩
instance (c : Dev nD) : ClosedOff (k0_off14 c) := ⟨_, off14_eq c⟩
instance (c : Dev nD) : ClosedOff (k0_off15 c) := ⟨_, off15_eq c⟩
instance (c : Dev nD) : ClosedOff (k0_off16 c) := ⟨_, off16_eq c⟩
instance (c : Dev nD) : ClosedOff (k0_off17 c) := ⟨_, off17_eq c⟩
instance (c : Dev nD) : ClosedOff (k0_off18 c) := ⟨_, off18_eq c⟩
instance (c : Dev nD) : ClosedOff (k0_off19 c) := ⟨_, off19_eq c⟩
instance (c : Dev nD) : ClosedOff (k0_off20 c) := ⟨_, off20_eq c⟩
instance (c : Dev nD) : ClosedOff (k0_off21 c) := ⟨_, off21_eq c⟩
instance (c : Dev nD) : ClosedOff (k0_off22 c) := ⟨_, off22_eq c⟩
instance (c : Dev nD) : ClosedOff (k0_off23 c) := ⟨_, off23_eq c⟩

end Cert.Kernel.Mesh
-- ==== Proof.KAttnOf.lean ====
import proofs.«900513_g7700000000000514_dist_attn_self_gqa_htp_b2_sq256_skv256_d768_hq8_dh64_v7x_i4_f32_1_alg».proof.Proof.KGhost
import proofs.«900513_g7700000000000514_dist_attn_self_gqa_htp_b2_sq256_skv256_d768_hq8_dh64_v7x_i4_f32_1_alg».proof.Proof.KOffs

noncomputable section

namespace Cert.Kernel.Proto

open Cert.Kernel Cert.Kernel.Gen Cert.Kernel.Mesh
open Idealize.ShloMosaic
open Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

def xIn (c : Dev nD) : Vec F S2x256x768 .f32 :=
  View.readAt (Elt F) (Memref.whole cc0_stg0_0 : Memref sig .tc .vmem S2x256x768 .f32).view (Rect.unit (s := S2x256x768) ![0, 0, 0] S2x256x768.size inb_S2x256x768_S2x256x768_0_0_0).toLoadRect (inC0 m c)
def wqIn (c : Dev nD) : Vec F S768x512 .f32 :=
  View.readAt (Elt F) (Memref.whole cc0_stg1_0 : Memref sig .tc .vmem S768x512 .f32).view (Rect.unit (s := S768x512) ![0, 0] S768x512.size inb_S768x512_S768x512_0_0).toLoadRect (inC1 m c)
def wkIn (c : Dev nD) : Vec F S768x128 .f32 :=
  View.readAt (Elt F) (Memref.whole cc0_stg3_0 : Memref sig .tc .vmem S768x512 .f32).view (Rect.unit (s := S768x512) (k0_off1 c) S768x128.size (k0_off1_inb c)).toLoadRect (inC3 m c)
def wvIn (c : Dev nD) : Vec F S768x128 .f32 :=
  View.readAt (Elt F) (Memref.whole cc0_stg4_0 : Memref sig .tc .vmem S768x512 .f32).view (Rect.unit (s := S768x512) (k0_off1 c) S768x128.size (k0_off1_inb c)).toLoadRect (inC4 m c)

def w3 (c : Dev nD) : BitVec 32 := Scalar.shrui (Scalar.remsi (Scalar.divsi c.word 1#32) 4#32) 1#32
def w5 (c : Dev nD) : BitVec 32 := Scalar.andi (Scalar.xori (Scalar.remsi (Scalar.divsi c.word 1#32) 4#32) (Scalar.shrui (Scalar.remsi (Scalar.divsi c.word 1#32) 4#32) 1#32)) 1#32
def w6 (c : Dev nD) : BitVec 32 := Scalar.xori (Scalar.remsi (Scalar.divsi c.word 1#32) 4#32) 1#32

/-- A part of the body applied to the body's own twelve buffers and two semaphore arrays. -/
abbrev bufs {α : Sort _} (k : (a0 : Memref sig .tc .vmem S2x256x768 .f32) → a0.IsWhole → (a1 : Memref sig .tc .vmem S768x512 .f32) → a1.IsWhole → (a2 : Memref sig .tc .vmem S512x768 .f32) → a2.IsWhole → (a3 : Memref sig .tc .vmem S768x512 .f32) → a3.IsWhole → (a4 : Memref sig .tc .vmem S768x512 .f32) → a4.IsWhole → (a5 : Memref sig .tc .vmem S2x256x768 .f32) → a5.IsWhole → (a6 : Memref sig .tc .vmem S512x512 .f32) → a6.IsWhole → (a7 : Memref sig .tc .vmem S512x768 .bf16) → a7.IsWhole → (a8 : Memref sig .tc .vmem S256x384 .bf16) → a8.IsWhole → (a9 : Memref sig .tc .vmem S256x384 .bf16) → a9.IsWhole → (a10 : Memref sig .tc .vmem S128x384 .bf16) → a10.IsWhole → (a11 : Memref sig .tc .vmem S128x384 .bf16) → a11.IsWhole → DmaSems sig S8 → DmaSems sig S8 → α) : α :=
  k (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7

def localParts (c : Dev nD) : Prog (TpuEff nD τ sig (Elt F) Λ₀ .tc) (Σ' (v239 : BitVec 32) (v241 : BitVec 32) (v242 : BitVec 32) (v244 : BitVec 32) (v246 : BitVec 32), BitVec 32) := do
  let ⟨v30, v70⟩ : Σ' (v30 : FVec F S512x128 .f32), FVec F S256x64 .f32 ← bufs k0_part2 (k0_pay2 (xIn m c)) (k0_pay3 (xIn m c) (wqIn m c)) (k0_pay4 (wvIn m c)) (k0_pay5 (xIn m c) (wkIn m c))
  let ⟨v109, v110, v111, cst_43⟩ : Σ' (v109 : FVec F S256x64 .f32) (v110 : FVec F S256x64 .f32) (v111 : FVec F S256x64 .f32), FVec F S256x256 .f32 ← bufs k0_part3 (k0_pay3 (xIn m c) (wqIn m c)) (k0_pay5 (xIn m c) (wkIn m c)) v30 v70
  let ⟨v150, v152⟩ : Σ' (v150 : FVec F S256x64 .f32), FVec F S256x256 .f32 ← bufs k0_part4 (k0_pay3 (xIn m c) (wqIn m c)) (k0_pay5 (xIn m c) (wkIn m c)) v30 v109 v110 v111 cst_43
  let ⟨v189, v191, v193, cst_73⟩ : Σ' (v189 : FVec F S256x64 .f32) (v191 : FVec F S256x256 .f32) (v193 : FVec F S256x1 .f32), FVec F S256x64 .f32 ← bufs k0_part5 (k0_pay3 (xIn m c) (wqIn m c)) (k0_pay5 (xIn m c) (wkIn m c)) v30 v150 v152
  let v235 : FVec F S256x64 .f32 ← bufs k0_part6 (k0_pay3 (xIn m c) (wqIn m c)) (k0_pay5 (xIn m c) (wkIn m c)) v30 v189 v191 v193 cst_73
  bufs k0_part7 c (w3 c) (w5 c) (w6 c) v235

abbrev ptW (c : Dev nD) {S : Shape} {e : EltTy} (M : Memref sig .tc .vmem S e) (f : Buf (Elt F) (M.view.loc (c : Thread nD τ))) : sProp 𝕄 :=
  M.view.loc (c : Thread nD τ) ↦{fullShare} f

set_option maxHeartbeats 8000000 in

noncomputable def attnRun (c : Dev nD) :
    { A : Buf (Elt F) (attM.view.loc (c : Thread nD τ)) //
      ∀ (f6 : Buf (Elt F) (attM.view.loc (c : Thread nD τ)))
        (f7 : Buf (Elt F) (accM.view.loc (c : Thread nD τ)))
        (E : Set ℕ) (Q : (Σ' (v239 : BitVec 32) (v241 : BitVec 32) (v242 : BitVec 32) (v244 : BitVec 32) (v246 : BitVec 32), BitVec 32) → sProp 𝕄),
        iprop(ptW c attM f6 ∗ ptW c accM f7 ∗ ptW c woM (woC m c)
          ∗ (∀ r, iprop(ptW c attM A ∗ (∃ f, ptW c accM f) ∗ ptW c woM (woC m c)) -∗ Q r))
        ⊢ wp frame (wpE (defs₀ (F := F)) Variants.none (c : Thread nD τ) none) E (localParts m c) Q } := by
  refine ⟨?_, fun f6 f7 E Q => ?run⟩
  case run =>
    iintro ⟨H6, H7, H2, Hk⟩
    unfold localParts bufs
    sl_exec_parts!
    sl_step
    iapply Hk
    isplitl [H6]; · iexact H6
    isplitl [H7]; · iexists _; iexact H7
    iexact H2

noncomputable def attnOf (c : Dev nD) : Buf (Elt F) (attM.view.loc (c : Thread nD τ)) :=
  (attnRun m c).val

theorem attnOf_eq (c : Dev nD) :
    attnOf m c = attM.view.writes (Elt F) attM.view.junk (attnRun.sl.H6_16 m c) := rfl

end Cert.Kernel.Proto

end
-- ==== Proof.KBodyPre.lean ====
import proofs.«900513_g7700000000000514_dist_attn_self_gqa_htp_b2_sq256_skv256_d768_hq8_dh64_v7x_i4_f32_1_alg».proof.Proof.KGhost
import proofs.«900513_g7700000000000514_dist_attn_self_gqa_htp_b2_sq256_skv256_d768_hq8_dh64_v7x_i4_f32_1_alg».proof.Proof.KAttnOf

noncomputable section

namespace Cert.Kernel.Proto

open Cert.Kernel Cert.Kernel.Gen Cert.Kernel.Mesh
open Idealize.ShloMosaic
open Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × Fin 17 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m (attnOf m) K c ∗ cred (tallyAt (barCell c) () 2) ∗ creds8 c ∗ levAts L lv ∗ scr c)
    ∗ (dats m (attnOf m) 0 c).owesAt () t₀.castSucc
    ∗ (∃ d, stg c cc0_stg0_0 ((dats m (attnOf m) 0 c).before (0 : Fin 6) t₀ d))
    ∗ (∃ d, stg c cc0_stg1_0 ((dats m (attnOf m) 0 c).before (1 : Fin 6) t₀ d))
    ∗ (∃ d, stg c cc0_stg2_0 ((dats m (attnOf m) 0 c).before (2 : Fin 6) t₀ d))
    ∗ (∃ d, stg c cc0_stg3_0 ((dats m (attnOf m) 0 c).before (3 : Fin 6) t₀ d))
    ∗ (∃ d, stg c cc0_stg4_0 ((dats m (attnOf m) 0 c).before (4 : Fin 6) t₀ d))
    ∗ (∃ d, stg c cc0_stg5_0 ((dats m (attnOf m) 0 c).before (5 : Fin 6) t₀ d)))

def bodyPost (c : Dev nD) : sProp 𝕄 :=
  iprop(Φ₁ c ∗ (dats m (attnOf m) 0 c).owesAt () t₀.succ
    ∗ stg c cc0_stg0_0 (inC0 m c) ∗ stg c cc0_stg1_0 (inC1 m c) ∗ stg c cc0_stg2_0 (woC m c) ∗ stg c cc0_stg3_0 (inC3 m c)
    ∗ stg c cc0_stg4_0 (inC4 m c) ∗ stg c cc0_stg5_0 (outV m (attnOf m) c))

omit [FloatOps F] in
/-- A buffer held whole is owned through any view that covers it. -/
theorem owned_of_whole (c : Dev nD) {S : Shape} {e : EltTy} (M : Memref sig .tc .vmem S e) (h : M.view.set = Finset.univ)
    (f : Buf (Elt F) (M.view.loc (c : Thread nD τ))) : (M.view.loc (c : Thread nD τ) ↦{fullShare} f : sProp 𝕄) ⊢ owned (F := F) c M := by
  unfold owned; rw [h]; exact exists_intro f
omit [FloatOps F] in
theorem hz2 : (![0, 0] : Fin 2 → Nat) = fun _ => 0 := funext fun a => by fin_cases a <;> rfl

end Cert.Kernel.Proto

end
-- ==== Proof.KBodyOb.lean ====
import proofs.«900513_g7700000000000514_dist_attn_self_gqa_htp_b2_sq256_skv256_d768_hq8_dh64_v7x_i4_f32_1_alg».proof.Proof.KBodyPre

noncomputable section

namespace Cert.Kernel.Proto

open Cert.Kernel Cert.Kernel.Gen Cert.Kernel.Mesh
open Idealize.ShloMosaic
open Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

seal outV in
theorem after_5 (attnC : (d : Dev nD) → Buf (Elt F) (attM.view.loc (d : Thread nD τ))) (c : Dev nD) :
    (dats m attnC 0 c).after (5 : Fin 6) t₀ = outV m attnC c := rfl

set_option maxRecDepth 8000 in
theorem body_obligation
    (hsound : ∀ (K : Dev nD × Fin 17 → ℕ) (c : Dev nD) (Kt : PUnit → sProp 𝕄),
      iprop(bodyPre m K c ∗ (bodyPost m c -∗ Kt ⟨⟩))
        ⊢ wp frame (wpE (defs₀ (F := F)) 𝒱₀ (c : Thread nD τ) none) Set.univ ((defs₀ (F := F)) Proc.tc 0 (t₀, cfg0.slots t₀)) Kt)
    (c : Dev nD) : BodyObligation (dats (F := F) m (attnOf m) 0 c) (defs₀ (F := F)) 𝒱₀ () Set.univ := fun t => by
  rw [fin_N t, bigSep_W0, bigSep_W0]
  simp only [owns_whole_eq]
  rw [show (dats m (attnOf m) 0 c).Φ t₀.castSucc = Φ₀ m (attnOf m) c from rfl, after_5]
  unfold Φ₀ start
  iintro ⟨⟨⟨⟨%K, Hg⟩, Hb, Hc8, Hlev⟩, Hscr⟩, Ho, H0, H1, H2, H3, H4, H5⟩
  iapply (hsound K c fun _ => bodyPost m c)
  unfold bodyPre
  iframe
  iintro H; iexact H

end Cert.Kernel.Proto

end
-- ==== Proof.KGeom.lean ====
import proofs.«900513_g7700000000000514_dist_attn_self_gqa_htp_b2_sq256_skv256_d768_hq8_dh64_v7x_i4_f32_1_alg».proof.Proof.KSched

noncomputable section

namespace Cert.Kernel.Proto

open Cert.Kernel Cert.Kernel.Gen Cert.Kernel.Mesh
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev sl256 (off : Fin 2 → Nat) (inb : ∀ a, off a + S256x384.size a ≤ S512x768.size a) : Memref sig .tc .vmem S256x384 .bf16 :=
  accM.slice (Rect.unit (s := S512x768) off S256x384.size inb) (fun _ => rfl)
abbrev sl128 (off : Fin 2 → Nat) (inb : ∀ a, off a + S128x384.size a ≤ S512x768.size a) : Memref sig .tc .vmem S128x384 .bf16 :=
  accM.slice (Rect.unit (s := S512x768) off S128x384.size inb) (fun _ => rfl)

section Through
variable {κ : Kind} {sp : Space} {s : Shape} {e : EltTy} (M : Memref sig κ sp s e) (r : Rect s) (hr : ∀ a, r.stride a = 1)

theorem load_sub : M.view.setOn r.toLoadRect.set ⊆ (M.slice r hr).view.set := by
  show M.view.setOn r.toLoadRect.set ⊆ (M.view.slice r).set
  rw [View.set_slice]; exact Finset.Subset.refl _
theorem holds_load (Val : EltTy → Type) (f : M.view.ty.Contents Val) (v : r.shape.Idx → Val e)
    (hf : (M.slice r hr).view.read Val f = v) : M.view.readAt Val r.toLoadRect f = v := hf
theorem store_sub : (M.access r).setOn Finset.univ ⊆ (M.slice r hr).view.set := Finset.Subset.refl _

end Through

theorem holds_store (c : Dev nD) (r : Rect S512x768) (hr : ∀ a, r.stride a = 1)
    (f : Buf (Elt F) ((accM.slice r hr).view.loc (c : Thread nD τ))) (w : r.shape.Idx → Elt F .bf16) :
    ((accM.slice r hr).view.loc (c : Thread nD τ) ↦[(accM.slice r hr).view.set]{fullShare} (View.write (Elt F) (accM.access r) f w Finset.univ))
      ⊢ (holds c (accM.slice r hr) fullShare w : sProp 𝕄) := by
  unfold holds
  iintro H
  iexists _
  isplitl [H]
  · iexact H
  · ipureintro; exact View.read_write_univ (v := accM.access r) f w

-- A block held or owned at one spelling of its offsets is held or owned at any equal one.
theorem holds_move256 (c : Dev nD) {off off' : Fin 2 → Nat} (h : off = off') (inb : ∀ a, off a + S256x384.size a ≤ S512x768.size a)
    (inb' : ∀ a, off' a + S256x384.size a ≤ S512x768.size a) (q : PosShare TreeShare) (v : S256x384.Idx → Elt F .bf16) :
    (holds c (sl256 off inb) q v : sProp 𝕄) ⊣⊢ holds c (sl256 off' inb') q v := by
  subst h; exact .rfl
theorem holds_move128 (c : Dev nD) {off off' : Fin 2 → Nat} (h : off = off') (inb : ∀ a, off a + S128x384.size a ≤ S512x768.size a)
    (inb' : ∀ a, off' a + S128x384.size a ≤ S512x768.size a) (q : PosShare TreeShare) (v : S128x384.Idx → Elt F .bf16) :
    (holds c (sl128 off inb) q v : sProp 𝕄) ⊣⊢ holds c (sl128 off' inb') q v := by
  subst h; exact .rfl
theorem owned_move256 (c : Dev nD) {off off' : Fin 2 → Nat} (h : off = off') (inb : ∀ a, off a + S256x384.size a ≤ S512x768.size a)
    (inb' : ∀ a, off' a + S256x384.size a ≤ S512x768.size a) :
    (owned c (sl256 off inb) : sProp 𝕄) ⊣⊢ owned c (sl256 off' inb') := by
  subst h; exact .rfl
theorem owned_move128 (c : Dev nD) {off off' : Fin 2 → Nat} (h : off = off') (inb : ∀ a, off a + S128x384.size a ≤ S512x768.size a)
    (inb' : ∀ a, off' a + S128x384.size a ≤ S512x768.size a) :
    (owned c (sl128 off inb) : sProp 𝕄) ⊣⊢ owned c (sl128 off' inb') := by
  subst h; exact .rfl

theorem owned_whole (c : Dev nD) (i : Fin (sig.nNear .tc .vmem)) (hn : sig.names .tc .vmem i = true) :
    (owned c (Memref.whole (⟨.vmem, i, hn⟩ : Ref sig .tc)) : sProp 𝕄)
      ⊣⊢ iprop(∃ f, (Memref.whole (⟨.vmem, i, hn⟩ : Ref sig .tc)).view.loc (c : Thread nD τ) ↦{fullShare} f) := by
  unfold owned
  simp only [Memref.view_whole, View.set_whole]
  exact .rfl

-- The two halves of a share agree on the contents where both hold them, and join.
theorem pointsTo_halves_join {ℓ : Loc nD τ sig} {I : Finset (Idx ℓ)} (q : PosShare TreeShare) (f g : Buf (Elt F) ℓ) :
    iprop((ℓ ↦[I]{q.left} f) ∗ ℓ ↦[I]{q.right} g) ⊢ (iprop(⌜∀ i ∈ I, g i = f i⌝ ∗ ℓ ↦[I]{q} f) : sProp 𝕄) :=
  Laws.pure_elim _ pointsTo_agree fun h => by
    have hfg : ∀ i ∈ I, g i = f i := fun i hi => ((h i (Finset.mem_inter.mpr ⟨hi, hi⟩)).1).symm
    rw [pointsTo_congr (q := q.right) hfg]
    exact ((pointsTo_share (PosShare.mem_left_op_right q)).2).trans (persistent_entails_right (BIClass.pure_intro hfg))

theorem holds_share (c : Dev nD) {S : Shape} {e : EltTy} (M : Memref sig .tc .vmem S e) (q : PosShare TreeShare) (v : S.Idx → Elt F e) :
    (holds c M q v : sProp 𝕄) ⊣⊢ iprop(holds c M q.left v ∗ holds c M q.right v) := by
  unfold holds
  constructor
  · iintro ⟨%f, H, %hf⟩
    ihave ⟨H1, H2⟩ := (pointsTo_share (PosShare.mem_left_op_right q)).1 $$ H
    isplitl [H1]
    · iexists f
      isplitl [H1]
      · iexact H1
      · ipureintro; exact hf
    · iexists f
      isplitl [H2]
      · iexact H2
      · ipureintro; exact hf
  · iintro ⟨⟨%f, H1, %hf⟩, ⟨%g, H2, %hg⟩⟩
    ihave ⟨%hfg, H⟩ := (pointsTo_halves_join q f g) $$ [H1 H2]
    · isplitl [H1]
      · iexact H1
      · iexact H2
    iexists f
    isplitl [H]
    · iexact H
    · ipureintro; exact hf

theorem set256 (off : Fin 2 → Nat) (inb : ∀ a, off a + S256x384.size a ≤ S512x768.size a) :
    (sl256 off inb).view.set = (Rect.unit (s := S512x768) off S256x384.size inb).set := View.set_slice_whole cc0_scratch1 _
theorem set128 (off : Fin 2 → Nat) (inb : ∀ a, off a + S128x384.size a ≤ S512x768.size a) :
    (sl128 off inb).view.set = (Rect.unit (s := S512x768) off S128x384.size inb).set := View.set_slice_whole cc0_scratch1 _

theorem mem256 {off : Fin 2 → Nat} {inb : ∀ a, off a + S256x384.size a ≤ S512x768.size a} {i : S512x768.Idx} :
    i ∈ (Rect.unit (s := S512x768) off S256x384.size inb).set
      ↔ (off 0 ≤ (i 0).val ∧ (i 0).val < off 0 + 256) ∧ (off 1 ≤ (i 1).val ∧ (i 1).val < off 1 + 384) := by
  rw [Rect.mem_set_unit]
  exact ⟨fun h => ⟨h 0, h 1⟩, fun h a => match a with | ⟨0, _⟩ => h.1 | ⟨1, _⟩ => h.2⟩
theorem mem128 {off : Fin 2 → Nat} {inb : ∀ a, off a + S128x384.size a ≤ S512x768.size a} {i : S512x768.Idx} :
    i ∈ (Rect.unit (s := S512x768) off S128x384.size inb).set
      ↔ (off 0 ≤ (i 0).val ∧ (i 0).val < off 0 + 128) ∧ (off 1 ≤ (i 1).val ∧ (i 1).val < off 1 + 384) := by
  rw [Rect.mem_set_unit]
  exact ⟨fun h => ⟨h 0, h 1⟩, fun h a => match a with | ⟨0, _⟩ => h.1 | ⟨1, _⟩ => h.2⟩

-- A block of 128 rows at row `k` of a block of 256 reads that block's rows from `k` on.
theorem read_quarter {off offA : Fin 2 → Nat} (inb : ∀ a, off a + S256x384.size a ≤ S512x768.size a)
    (inbA : ∀ a, offA a + S128x384.size a ≤ S512x768.size a) {k : Nat} (hk : k + 128 ≤ 256)
    (hA0 : offA 0 = off 0 + k) (hA1 : offA 1 = off 1)
    (Val : EltTy → Type) (f : accM.view.ty.Contents Val) :
    (sl128 offA inbA).view.read Val f = rows128 k ((sl256 off inb).view.read Val f) := by
  funext y
  have h0 : (y 0).val < 128 := (y 0).isLt
  have he : (sl128 offA inbA).view.emb y
      = (sl256 off inb).view.emb (ValueIdx.ix2 ⟨(k + (y 0).val) % 256, Nat.mod_lt _ (by decide)⟩ ⟨(y 1).val, (y 1).isLt⟩) :=
    funext fun a => Fin.ext (by
      match a with
      | ⟨0, _⟩ => show offA 0 + 1 * (y 0).val = off 0 + 1 * ((k + (y 0).val) % 256); omega
      | ⟨1, _⟩ => show offA 1 + 1 * (y 1).val = off 1 + 1 * (y 1).val; omega)
  exact congrArg (fun i => _root_.cast (congrArg Val (sl256 off inb).view.elt_eq) (f i)) he

/-- The blocks at `offA` and `offB` are the two halves of 128 rows of the block at `off`, the first at its row `k`, the second at `kB`. -/
abbrev Halves (off offA offB : Fin 2 → Nat) (k kB : Nat) : Prop :=
  ((k = 0 ∧ kB = 128) ∨ (k = 128 ∧ kB = 0)) ∧ offA 0 = off 0 + k ∧ offA 1 = off 1 ∧ offB 0 = off 0 + kB ∧ offB 1 = off 1

section Halves
variable {off offA offB : Fin 2 → Nat} (inb : ∀ a, off a + S256x384.size a ≤ S512x768.size a)
  (inbA : ∀ a, offA a + S128x384.size a ≤ S512x768.size a) (inbB : ∀ a, offB a + S128x384.size a ≤ S512x768.size a)
  {k kB : Nat} (h : Halves off offA offB k kB)
include h

theorem half_sub : (sl128 offA inbA).view.set ⊆ (sl256 off inb).view.set := by
  obtain ⟨hk, hA0, hA1, hB0, hB1⟩ := h
  rw [set128, set256]
  intro i hi
  rw [mem128] at hi
  rw [mem256]
  omega
theorem half_sdiff : (sl256 off inb).view.set \ (sl128 offA inbA).view.set = (sl128 offB inbB).view.set := by
  obtain ⟨hk, hA0, hA1, hB0, hB1⟩ := h
  rw [set128, set128, set256]
  ext i
  rw [Finset.mem_sdiff, mem128, mem128, mem256]
  omega

-- Contents that are `f` on the first half and `g` off it read, through the block, as the two halves' readings glued.
theorem read_glue (Val : EltTy → Type) (f g : accM.view.ty.Contents Val) :
    (sl256 off inb).view.read Val ((sl128 offA inbA).view.set.piecewise f g)
      = glue128 k ((sl128 offA inbA).view.read Val f) ((sl128 offB inbB).view.read Val g) := by
  obtain ⟨hk, hA0, hA1, hB0, hB1⟩ := h
  funext y
  have h0 : (y 0).val < 256 := (y 0).isLt
  have h1 : (y 1).val < 384 := (y 1).isLt
  unfold glue128
  by_cases hy : k ≤ (y 0).val ∧ (y 0).val < k + 128
  · rw [if_pos hy]
    have hmem : (sl256 off inb).view.emb y ∈ (sl128 offA inbA).view.set := by
      rw [set128, mem128]
      show (offA 0 ≤ off 0 + 1 * (y 0).val ∧ off 0 + 1 * (y 0).val < offA 0 + 128)
        ∧ (offA 1 ≤ off 1 + 1 * (y 1).val ∧ off 1 + 1 * (y 1).val < offA 1 + 384)
      omega
    have he : (sl256 off inb).view.emb y
        = (sl128 offA inbA).view.emb (ValueIdx.ix2 ⟨((y 0).val - k) % 128, Nat.mod_lt _ (by decide)⟩ ⟨(y 1).val, (y 1).isLt⟩) :=
      funext fun a => Fin.ext (by
        match a with
        | ⟨0, _⟩ => show off 0 + 1 * (y 0).val = offA 0 + 1 * (((y 0).val - k) % 128); omega
        | ⟨1, _⟩ => show off 1 + 1 * (y 1).val = offA 1 + 1 * (y 1).val; omega)
    show _root_.cast _ (((sl128 offA inbA).view.set.piecewise f g) ((sl256 off inb).view.emb y))
      = _root_.cast _ (f ((sl128 offA inbA).view.emb _))
    rw [Finset.piecewise_eq_of_mem _ _ _ hmem, he]
  · rw [if_neg hy]
    have hnot : (sl256 off inb).view.emb y ∉ (sl128 offA inbA).view.set := by
      rw [set128, mem128]
      show ¬((offA 0 ≤ off 0 + 1 * (y 0).val ∧ off 0 + 1 * (y 0).val < offA 0 + 128)
        ∧ (offA 1 ≤ off 1 + 1 * (y 1).val ∧ off 1 + 1 * (y 1).val < offA 1 + 384))
      omega
    have he : (sl256 off inb).view.emb y
        = (sl128 offB inbB).view.emb (ValueIdx.ix2 ⟨(y 0).val % 128, Nat.mod_lt _ (by decide)⟩ ⟨(y 1).val, (y 1).isLt⟩) :=
      funext fun a => Fin.ext (by
        match a with
        | ⟨0, _⟩ => show off 0 + 1 * (y 0).val = offB 0 + 1 * ((y 0).val % 128); omega
        | ⟨1, _⟩ => show off 1 + 1 * (y 1).val = offB 1 + 1 * (y 1).val; omega)
    show _root_.cast _ (((sl128 offA inbA).view.set.piecewise f g) ((sl256 off inb).view.emb y))
      = _root_.cast _ (g ((sl128 offB inbB).view.emb _))
    rw [Finset.piecewise_eq_of_notMem _ _ _ hnot, he]

theorem join256 (c : Dev nD) (q : PosShare TreeShare) (a b : S128x384.Idx → Elt F .bf16) :
    iprop(holds c (sl128 offA inbA) q a ∗ holds c (sl128 offB inbB) q b) ⊢ (holds c (sl256 off inb) q (glue128 k a b) : sProp 𝕄) := by
  unfold holds
  iintro ⟨⟨%f, HA, %hf⟩, ⟨%g, HB, %hg⟩⟩
  iexists ((sl128 offA inbA).view.set.piecewise f g)
  isplitl [HA HB]
  · iapply (pointsTo_join_subset (half_sub inb inbA h))
    isplitl [HA]
    · iexact HA
    · rw [half_sdiff inb inbA inbB h]; iexact HB
  · ipureintro
    subst hf hg
    exact read_glue inb inbA inbB h (Elt F) f g

theorem split256 (c : Dev nD) (q : PosShare TreeShare) (v : S256x384.Idx → Elt F .bf16) :
    (holds c (sl256 off inb) q v : sProp 𝕄)
      ⊢ iprop(holds c (sl128 offA inbA) q (rows128 k v) ∗ holds c (sl128 offB inbB) q (rows128 kB v)) := by
  unfold holds
  iintro ⟨%f, H, %hf⟩
  ihave ⟨HA, HB⟩ := (pointsTo_split_subset (half_sub inb inbA h)).1 $$ H
  rw [half_sdiff inb inbA inbB h]
  subst hf
  isplitl [HA]
  · iexists f
    isplitl [HA]
    · iexact HA
    · ipureintro; exact read_quarter inb inbA (by have := h.1; omega) h.2.1 h.2.2.1 (Elt F) f
  · iexists f
    isplitl [HB]
    · iexact HB
    · ipureintro; exact read_quarter inb inbB (by have := h.1; omega) h.2.2.2.1 h.2.2.2.2 (Elt F) f

end Halves

/-- The four blocks of 256 rows tile the accumulator: two row halves of the left columns, two of the right. -/
abbrev Quads (o1 o2 o3 o4 : Fin 2 → Nat) : Prop :=
  (o1 0 = 0 ∨ o1 0 = 256) ∧ o1 1 = 0 ∧ o2 0 = 256 - o1 0 ∧ o2 1 = 0
    ∧ (o3 0 = 0 ∨ o3 0 = 256) ∧ o3 1 = 384 ∧ o4 0 = 256 - o3 0 ∧ o4 1 = 384

section Quadrants
variable {o1 o2 o3 o4 : Fin 2 → Nat}
  (inb1 : ∀ a, o1 a + S256x384.size a ≤ S512x768.size a) (inb2 : ∀ a, o2 a + S256x384.size a ≤ S512x768.size a)
  (inb3 : ∀ a, o3 a + S256x384.size a ≤ S512x768.size a) (inb4 : ∀ a, o4 a + S256x384.size a ≤ S512x768.size a)
  (h : Quads o1 o2 o3 o4)

omit h in
theorem quad1_sub : (sl256 o1 inb1).view.set ⊆ accM.view.set := by
  rw [show accM.view.set = Finset.univ from View.set_whole cc0_scratch1]
  exact Finset.subset_univ _
include h
theorem quad2_sub : (sl256 o2 inb2).view.set
    ⊆ accM.view.set \ (sl256 o1 inb1).view.set := by
  rw [show accM.view.set = Finset.univ from View.set_whole cc0_scratch1, set256, set256]
  intro i hi
  rw [mem256] at hi
  rw [Finset.mem_sdiff, mem256]
  exact ⟨Finset.mem_univ _, by omega⟩
theorem quad3_sub : (sl256 o3 inb3).view.set
    ⊆ (accM.view.set \ (sl256 o1 inb1).view.set) \ (sl256 o2 inb2).view.set := by
  rw [show accM.view.set = Finset.univ from View.set_whole cc0_scratch1, set256, set256, set256]
  intro i hi
  rw [mem256] at hi
  rw [Finset.mem_sdiff, Finset.mem_sdiff, mem256, mem256]
  exact ⟨⟨Finset.mem_univ _, by omega⟩, by omega⟩
theorem quad4_eq : ((accM.view.set \ (sl256 o1 inb1).view.set) \ (sl256 o2 inb2).view.set)
    \ (sl256 o3 inb3).view.set = (sl256 o4 inb4).view.set := by
  rw [show accM.view.set = Finset.univ from View.set_whole cc0_scratch1, set256, set256, set256, set256]
  ext i
  have h0 : (i 0).val < 512 := (i 0).isLt
  have h1 : (i 1).val < 768 := (i 1).isLt
  rw [Finset.mem_sdiff, Finset.mem_sdiff, Finset.mem_sdiff, mem256, mem256, mem256, mem256]
  constructor
  · rintro ⟨⟨⟨-, n1⟩, n2⟩, n3⟩; omega
  · intro h'; exact ⟨⟨⟨Finset.mem_univ _, by omega⟩, by omega⟩, by omega⟩

-- The accumulator at contents `g` is its four quadrants at `g`.
theorem cut4_pt (c : Dev nD) (q : PosShare TreeShare) (g : Buf (Elt F) (accM.view.loc (c : Thread nD τ))) :
    (accM.view.loc (c : Thread nD τ) ↦{q} g : sProp 𝕄)
      ⊢ iprop((accM.view.loc (c : Thread nD τ) ↦[(sl256 o1 inb1).view.set]{q} g)
        ∗ (accM.view.loc (c : Thread nD τ) ↦[(sl256 o2 inb2).view.set]{q} g)
        ∗ (accM.view.loc (c : Thread nD τ) ↦[(sl256 o3 inb3).view.set]{q} g)
        ∗ (accM.view.loc (c : Thread nD τ) ↦[(sl256 o4 inb4).view.set]{q} g)) := by
  rw [← show accM.view.set = Finset.univ from View.set_whole cc0_scratch1]
  iintro H
  ihave ⟨H1, H⟩ := (pointsTo_split_subset (quad1_sub inb1)).1 $$ H
  ihave ⟨H2, H⟩ := (pointsTo_split_subset (quad2_sub inb1 inb2 h)).1 $$ H
  ihave ⟨H3, H4⟩ := (pointsTo_split_subset (quad3_sub inb1 inb2 inb3 h)).1 $$ H
  rw [quad4_eq inb1 inb2 inb3 inb4 h]
  isplitl [H1]
  · iexact H1
  isplitl [H2]
  · iexact H2
  isplitl [H3]
  · iexact H3
  · iexact H4

-- Four owned quadrants are the accumulator, owned: each is put back over the rest at its own contents.
theorem join4 (c : Dev nD) :
    iprop(owned c (sl256 o1 inb1) ∗ owned c (sl256 o2 inb2) ∗ owned c (sl256 o3 inb3) ∗ owned c (sl256 o4 inb4))
      ⊢ (owned c accM : sProp 𝕄) := by
  unfold owned
  iintro ⟨⟨%f1, H1⟩, ⟨%f2, H2⟩, ⟨%f3, H3⟩, ⟨%f4, H4⟩⟩
  iexists _
  iapply (pointsTo_join_subset (quad1_sub inb1))
  isplitl [H1]
  · iexact H1
  iapply (pointsTo_join_subset (quad2_sub inb1 inb2 h))
  isplitl [H2]
  · iexact H2
  iapply (pointsTo_join_subset (quad3_sub inb1 inb2 inb3 h))
  isplitl [H3]
  · iexact H3
  · rw [quad4_eq inb1 inb2 inb3 inb4 h]; iexact H4

end Quadrants

theorem off3_off4_eq (d : Dev nD) : k0_off3 d = k0_off4 d := (off3_eq d).trans (off4_eq d).symm
theorem off6_off7_eq (d : Dev nD) : k0_off6 d = k0_off7 d := (off6_eq d).trans (off7_eq d).symm
theorem off10_off18_eq (d : Dev nD) : k0_off10 d = k0_off18 d := (off10_eq d).trans (off18_eq d).symm
theorem off12_off19_eq (d : Dev nD) : k0_off12 d = k0_off19 d := (off12_eq d).trans (off19_eq d).symm
theorem off14_off15_eq (d : Dev nD) : k0_off14 d = k0_off15 d := (off14_eq d).trans (off15_eq d).symm
theorem off16_off17_eq (d : Dev nD) : k0_off16 d = k0_off17 d := (off16_eq d).trans (off17_eq d).symm
theorem off4py_off18_eq (d : Dev nD) : k0_off4 (py d) = k0_off18 d := (off4_eq (py d)).trans ((congrArg (fun r => ![r, 0]) (aS1_py d)).trans (off18_eq d).symm)
theorem off7px_off19_eq (d : Dev nD) : k0_off7 (px d) = k0_off19 d := (off7_eq (px d)).trans ((congrArg (fun r => ![r, 384]) (bS1_px d)).trans (off19_eq d).symm)
theorem off11px_off15_eq (d : Dev nD) : k0_off11 (px d) = k0_off15 d := (off11_eq (px d)).trans ((congrArg (fun r => ![r, 0]) (aS2_px d)).trans (off15_eq d).symm)
theorem off13py_off17_eq (d : Dev nD) : k0_off13 (py d) = k0_off17 d := (off13_eq (py d)).trans ((congrArg (fun r => ![r, 384]) (bS2_py d)).trans (off17_eq d).symm)

-- The half a device keeps at the first step is the quarter it keeps and the quarter it sends at the second.
theorem halves10 (d : Dev nD) : Halves (k0_off10 d) (k0_off14 d) (k0_off11 d) (aK2 d - aK1 d) (aS2 d - aK1 d) := by revert d; decide +kernel
theorem halves12 (d : Dev nD) : Halves (k0_off12 d) (k0_off16 d) (k0_off13 d) (bK2 d - bK1 d) (bS2 d - bK1 d) := by revert d; decide +kernel

end Cert.Kernel.Proto

end
-- ==== Proof.KGeomB.lean ====
import proofs.«900513_g7700000000000514_dist_attn_self_gqa_htp_b2_sq256_skv256_d768_hq8_dh64_v7x_i4_f32_1_alg».proof.Proof.KGeom

noncomputable section

namespace Cert.Kernel.Proto

open Cert.Kernel Cert.Kernel.Gen Cert.Kernel.Mesh
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem off18py_off3_eq (d : Dev nD) : k0_off18 (py d) = k0_off3 d := (off18_eq (py d)).trans ((congrArg (fun r => ![r, 0]) (aK1_py d)).trans (off3_eq d).symm)
theorem off19px_off6_eq (d : Dev nD) : k0_off19 (px d) = k0_off6 d := (off19_eq (px d)).trans ((congrArg (fun r => ![r, 384]) (bK1_px d)).trans (off6_eq d).symm)

-- On the way back a device's own summed quarter and its partner's are the two halves of the half the last transfer sends.
theorem halves18 (c : Dev nD) : Halves (k0_off18 c) (k0_off15 c) (k0_off15 (px c)) (aK2 c - aK1 c) (aS2 c - aK1 c) := by revert c; decide +kernel
theorem halves19 (c : Dev nD) : Halves (k0_off19 c) (k0_off17 c) (k0_off17 (py c)) (bK2 c - bK1 c) (bS2 c - bK1 c) := by revert c; decide +kernel

-- The four blocks of a device's first stores, and the four of its last two transfers, tile the accumulator.
theorem quads_first (c : Dev nD) : Quads (k0_off4 c) (k0_off10 c) (k0_off6 c) (k0_off12 c) := by revert c; decide +kernel
theorem quads_last (c : Dev nD) : Quads (k0_off18 c) (k0_off18 (py c)) (k0_off19 c) (k0_off19 (px c)) := by revert c; decide +kernel

theorem holds_owned (c : Dev nD) {S : Shape} {e : EltTy} (M : Memref sig .tc .vmem S e) (v : S.Idx → Elt F e) :
    (holds c M fullShare v : sProp 𝕄) ⊢ owned c M := by
  unfold holds owned
  iintro ⟨%f, H, -⟩
  iexists f
  iexact H

-- Right after the first store through the accumulator its stored quadrant holds the stored vector; the other three are owned.
theorem cut_first (c : Dev nD) (f : Buf (Elt F) (accM.view.loc (c : Thread nD τ)))
    (w : S256x384.Idx → Elt F .bf16) :
    (accM.view.loc (c : Thread nD τ) ↦{fullShare}
        accM.view.writes (Elt F) f [⟨Rect.unit (s := S512x768) (k0_off3 c) S256x384.size (k0_off3_inb c), w⟩] : sProp 𝕄)
      ⊢ iprop(holds c (sl256 (k0_off4 c) (k0_off4_inb c)) fullShare w ∗ owned c (sl256 (k0_off10 c) (k0_off10_inb c))
        ∗ owned c (sl256 (k0_off6 c) (k0_off6_inb c)) ∗ owned c (sl256 (k0_off12 c) (k0_off12_inb c))) := by
  have key : ∀ (off : Fin 2 → Nat) (h : k0_off3 c = off) (inb : ∀ a, off a + S256x384.size a ≤ S512x768.size a),
      (sl256 off inb).view.read (Elt F)
        (accM.view.writes (Elt F) f [⟨Rect.unit (s := S512x768) (k0_off3 c) S256x384.size (k0_off3_inb c), w⟩]) = w := by
    intro off h inb
    subst h
    rw [View.writes_singleton]
    exact View.read_write_univ (v := accM.access (Rect.unit (s := S512x768) (k0_off3 c) S256x384.size (k0_off3_inb c))) f w
  refine (cut4_pt (k0_off4_inb c) (k0_off10_inb c) (k0_off6_inb c) (k0_off12_inb c) (quads_first c) c fullShare _).trans ?_
  unfold holds owned
  iintro ⟨H1, H2, H3, H4⟩
  isplitl [H1]
  · iexists _
    isplitl [H1]
    · iexact H1
    · ipureintro; exact key _ (off3_off4_eq c) _
  isplitl [H2]
  · iexists _; iexact H2
  isplitl [H3]
  · iexists _; iexact H3
  · iexists _; iexact H4

-- The four quadrants at the offsets of the last two transfers, owned, are the accumulator's buffer at some contents.
theorem rejoin_final (c : Dev nD) :
    iprop(owned c (sl256 (k0_off18 c) (k0_off18_inb c)) ∗ owned c (sl256 (k0_off18 (py c)) (k0_off18_inb (py c)))
        ∗ owned c (sl256 (k0_off19 c) (k0_off19_inb c)) ∗ owned c (sl256 (k0_off19 (px c)) (k0_off19_inb (px c))))
      ⊢ (iprop(∃ f, ((c : Thread nD τ).loc cc0_scratch1) ↦{fullShare} f) : sProp 𝕄) :=
  (join4 (F := F) (k0_off18_inb c) (k0_off18_inb (py c)) (k0_off19_inb c) (k0_off19_inb (px c)) (quads_last c) c).trans
    (owned_whole (F := F) c 7 rfl).1

-- An unmasked write through a view does not depend, at an element the view covers, on the contents written over.
theorem write_indep_step {κ : Kind} {sp : Space} {s : Shape} {e : EltTy} {Val : EltTy → Type} (V : View sig κ sp s e)
    (g g' : V.ty.Contents Val) (w : s.Idx → Val e) (i : V.ty.Idx) (h : g i = g' i ∨ i ∈ V.set) :
    V.write Val g w Finset.univ i = V.write Val g' w Finset.univ i := by
  by_cases hi : i ∈ V.setOn Finset.univ
  · obtain ⟨x, -, rfl⟩ := Finset.mem_map.mp hi
    rw [View.write_emb_of_mem _ _ (Finset.mem_univ x), View.write_emb_of_mem _ _ (Finset.mem_univ x)]
  · rw [View.write_of_not_mem _ _ _ hi, View.write_of_not_mem _ _ _ hi]
    exact h.resolve_right hi

abbrev outAt (off : Fin 3 → Nat) (inb : ∀ a, off a + S1x256x384.size a ≤ S2x256x768.size a) :=
  (outM : Memref sig .tc .vmem S2x256x768 .f32).access (rO off inb)

theorem mem_rO {off : Fin 3 → Nat} {inb : ∀ a, off a + S1x256x384.size a ≤ S2x256x768.size a} {i : S2x256x768.Idx} :
    i ∈ (outAt off inb).set
      ↔ (off 0 ≤ (i 0).val ∧ (i 0).val < off 0 + 1) ∧ (off 1 ≤ (i 1).val ∧ (i 1).val < off 1 + 256)
        ∧ (off 2 ≤ (i 2).val ∧ (i 2).val < off 2 + 384) := by
  rw [show (outAt off inb).set = (rO off inb).set from View.set_slice_whole cc0_stg5_0 _, Rect.mem_set_unit]
  exact ⟨fun h => ⟨h 0, h 1, h 2⟩, fun h a => match a with | ⟨0, _⟩ => h.1 | ⟨1, _⟩ => h.2.1 | ⟨2, _⟩ => h.2.2⟩

-- The four blocks a device stores cover its buffer of the result.
theorem out_cover (c : Dev nD) (i : S2x256x768.Idx) :
    i ∈ (outAt (k0_off20 c) (k0_off20_inb c)).set
      ∨ i ∈ (outAt (k0_off21 c) (k0_off21_inb c)).set
      ∨ i ∈ (outAt (k0_off22 c) (k0_off22_inb c)).set
      ∨ i ∈ (outAt (k0_off23 c) (k0_off23_inb c)).set := by
  have h0 : (i 0).val < 2 := (i 0).isLt
  have h1 : (i 1).val < 256 := (i 1).isLt
  have h2 : (i 2).val < 768 := (i 2).isLt
  have a0 : k0_off20 c 0 = cy c := congrFun (off20_eq c) 0
  have a1 : k0_off20 c 1 = 0 := congrFun (off20_eq c) 1
  have a2 : k0_off20 c 2 = 0 := congrFun (off20_eq c) 2
  have b0 : k0_off21 c 0 = cx c := congrFun (off21_eq c) 0
  have b1 : k0_off21 c 1 = 0 := congrFun (off21_eq c) 1
  have b2 : k0_off21 c 2 = 384 := congrFun (off21_eq c) 2
  have c0 : k0_off22 c 0 = 1 - cy c := congrFun (off22_eq c) 0
  have c1 : k0_off22 c 1 = 0 := congrFun (off22_eq c) 1
  have c2 : k0_off22 c 2 = 0 := congrFun (off22_eq c) 2
  have d0 : k0_off23 c 0 = 1 - cx c := congrFun (off23_eq c) 0
  have d1 : k0_off23 c 1 = 0 := congrFun (off23_eq c) 1
  have d2 : k0_off23 c 2 = 384 := congrFun (off23_eq c) 2
  have hcy : cy c < 2 := by revert c; decide
  have hcx : cx c < 2 := by revert c; decide
  rw [mem_rO, mem_rO, mem_rO, mem_rO]
  omega

section Out
variable (m : (ℓ : Loc nD τ sig) → Buf (Elt F) ℓ)
variable (attnC : (d : Dev nD) → Buf (Elt F) ((attM : Memref sig .tc .vmem S512x512 .f32).view.loc (d : Thread nD τ)))

-- What a device's buffer of the result holds after the body does not depend on what it held before.
theorem outOver_eq_outV (c : Dev nD) (f : (cc0_stg5_0 : Ref sig .tc).ty.Contents (Elt F)) :
    outOver m attnC c f = outV m attnC c := by
  funext i
  unfold outV outOver
  rcases out_cover c i with h | h | h | h
  · refine write_indep_step (outAt _ (k0_off23_inb c)) _ _ _ i (.inl ?_)
    refine write_indep_step (outAt _ (k0_off22_inb c)) _ _ _ i (.inl ?_)
    refine write_indep_step (outAt _ (k0_off21_inb c)) _ _ _ i (.inl ?_)
    exact write_indep_step (outAt _ (k0_off20_inb c)) _ _ _ i (.inr h)
  · refine write_indep_step (outAt _ (k0_off23_inb c)) _ _ _ i (.inl ?_)
    refine write_indep_step (outAt _ (k0_off22_inb c)) _ _ _ i (.inl ?_)
    exact write_indep_step (outAt _ (k0_off21_inb c)) _ _ _ i (.inr h)
  · refine write_indep_step (outAt _ (k0_off23_inb c)) _ _ _ i (.inl ?_)
    exact write_indep_step (outAt _ (k0_off22_inb c)) _ _ _ i (.inr h)
  · exact write_indep_step (outAt _ (k0_off23_inb c)) _ _ _ i (.inr h)

end Out

end Cert.Kernel.Proto

end
-- ==== Proof.KSteps.lean ====
import proofs.«900513_g7700000000000514_dist_attn_self_gqa_htp_b2_sq256_skv256_d768_hq8_dh64_v7x_i4_f32_1_alg».proof.Proof.KGhost
import proofs.«900513_g7700000000000514_dist_attn_self_gqa_htp_b2_sq256_skv256_d768_hq8_dh64_v7x_i4_f32_1_alg».proof.Proof.KTables
import proofs.«900513_g7700000000000514_dist_attn_self_gqa_htp_b2_sq256_skv256_d768_hq8_dh64_v7x_i4_f32_1_alg».proof.Proof.KLevels
import proofs.«900513_g7700000000000514_dist_attn_self_gqa_htp_b2_sq256_skv256_d768_hq8_dh64_v7x_i4_f32_1_alg».proof.Proof.KGlob

noncomputable section

namespace Cert.Kernel.Proto

open Cert.Kernel Cert.Kernel.Gen Cert.Kernel.Mesh
open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (attnC : (d : Dev nD) → Buf (Elt F) ((attM : Memref sig .tc .vmem S512x512 .f32).view.loc (d : Thread nD τ)))
variable (K : Dev nD × Fin 17 → ℕ)

theorem false_mem_send (c : Dev nD) (j : Fin 8) : false ∈ (Rd (F := F) m attnC).duties (sendCell c j) 0 := by
  rw [duties_send]; exact Finset.mem_singleton_self _
theorem false_mem_recv (c : Dev nD) (j : Fin 8) : false ∈ (Rd (F := F) m attnC).duties (recvCell c j) 0 := by
  rw [duties_recv]; exact Finset.mem_singleton_self _

theorem records_inv (ck : Dev nD × Fin 17) : records m attnC K ⊢ cellInv ER (Rd m attnC) (K ck) (kcell ck) := by
  unfold records; exact sep_elim_left.trans (bigSep_elim (Finset.mem_univ ck))
theorem records_reached (ck : Dev nD × Fin 17) : records m attnC K ⊢ reached ER (kcell ck) 0 := by
  unfold records; exact sep_elim_right.trans (bigSep_elim (Finset.mem_univ ck))
theorem inv_send (c : Dev nD) (j : Fin 8) : records m attnC K ⊢ cellInv ER (Rd m attnC) (K (c, kS j)) (sendCell c j) := by
  rw [← kcell_send]; exact records_inv m attnC K (c, kS j)
theorem inv_recv (c : Dev nD) (j : Fin 8) : records m attnC K ⊢ cellInv ER (Rd m attnC) (K (c, kR j)) (recvCell c j) := by
  rw [← kcell_recv]; exact records_inv m attnC K (c, kR j)
theorem reached_send (c : Dev nD) (j : Fin 8) : records m attnC K ⊢ reached ER (sendCell c j) 0 := by
  rw [← kcell_send]; exact records_reached m attnC K (c, kS j)
theorem reached_recv (c : Dev nD) (j : Fin 8) : records m attnC K ⊢ reached ER (recvCell c j) 0 := by
  rw [← kcell_recv]; exact records_reached m attnC K (c, kR j)

theorem credit256 (M : Memref sig .tc .vmem S256x384 .bf16) : M.view.dmaCredit = N256 := rfl
theorem credit128 (M : Memref sig .tc .vmem S128x384 .bf16) : M.view.dmaCredit = N128 := rfl

theorem waitS (c : Dev nD) (j : Fin 8) (i : ℕ) (W : Waits sig Unit)
    {sp sp' : Space} {s s' : Shape} {e e' : EltTy} {κ' : Kind} {srcM : Memref sig .tc sp' s' e'} {dstM : Memref sig κ' sp s e}
    {hs : srcM.view.WordExact} {hd : dstM.view.WordExact} (hcredit : dstM.view.dmaCredit = amt j) {P : sProp 𝕄} (hP : sendPay m attnC c j = P)
    {α : Type} {Q : α → sProp 𝕄} {k : PUnit → Prog (TpuEff nD τ sig (Elt F) Λ₀ .tc) α} :
    iprop(records m attnC K ∗ levAts L lv ∗ cred (tallyAt (sendCell c j) () (amt j)) ∗ atPos ER (sendCell c j) 0 ∅ 0)
      ⊢ iprop(owes (c : Thread nD τ) (Oafter c i) W -∗ ((owes (c : Thread nD τ) (Oafter c i) (insert (.dma (sendS j), ()) W) ∗ atPos ER (sendCell c j) 1 ∅ 0 ∗ P) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS j) srcM dstM hs hd) k) Q) := by
  subst hP
  iintro ⟨#HR, #HL, Hc, Ha⟩ HO Hk
  iapply (wp_wait_rest_token (Γ := .empty) (defs := defs₀ (F := F)) 𝒱₀ ER (Rd m attnC) (c : Thread nD τ) none
    (w := .waitDma2 (sendS j) srcM dstM hs hd) (sm := .dma (sendS j)) (k' := amt j) (Es := Set.univ) (κ := K (c, kS j))
    (fun K' => by rw [← hcredit]; exact wpE_waitDma2_eq 𝒱₀ (c : Thread nD τ) none Set.univ K') (Set.mem_univ _)
    (k := k) (Q := Q) () (O := Oafter c i) (W := W) (R := 0) (m := 0) (T := ∅) (by rw [expect_send, Nat.zero_add])) $$ [Hc HO Ha]
  · iframe Hc HO Ha
    isplitr; · iapply (inv_send m attnC K c j); iexact HR
    iapply (mayWait_send c j i); iexact HL
  rw [rest_send]; iintro ⟨HO, Ha, -, Hp⟩
  iapply Hk; iframe

theorem waitR (c : Dev nD) (j : Fin 8) (i : ℕ) (hi : 2 + 2 * (j.val % 4) + j.val / 4 < i) (W : Waits sig Unit)
    {sp sp' : Space} {s s' : Shape} {e e' : EltTy} {κ' : Kind} {srcM : Memref sig .tc sp' s' e'} {dstM : Memref sig κ' sp s e}
    {hs : srcM.view.WordExact} {hd : dstM.view.WordExact} (hcredit : dstM.view.dmaCredit = amt j) {P : sProp 𝕄} (hP : recvPay m attnC c j = P)
    {α : Type} {Q : α → sProp 𝕄} {k : PUnit → Prog (TpuEff nD τ sig (Elt F) Λ₀ .tc) α} :
    iprop(records m attnC K ∗ levAts L lv ∗ cred (tallyAt (recvCell c j) () (amt j)) ∗ atPos ER (recvCell c j) 0 ∅ 0)
      ⊢ iprop(owes (c : Thread nD τ) (Oafter c i) W -∗ ((owes (c : Thread nD τ) (Oafter c i) (insert (.dma (recvS j), ()) W) ∗ atPos ER (recvCell c j) 1 ∅ 0 ∗ P) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS j) srcM dstM hs hd) k) Q) := by
  subst hP
  iintro ⟨#HR, #HL, Hc, Ha⟩ HO Hk
  iapply (wp_wait_rest_token (Γ := .empty) (defs := defs₀ (F := F)) 𝒱₀ ER (Rd m attnC) (c : Thread nD τ) none
    (w := .waitDma2 (recvS j) srcM dstM hs hd) (sm := .dma (recvS j)) (k' := amt j) (Es := Set.univ) (κ := K (c, kR j))
    (fun K' => by rw [← hcredit]; exact wpE_waitDma2_eq 𝒱₀ (c : Thread nD τ) none Set.univ K') (Set.mem_univ _)
    (k := k) (Q := Q) () (O := Oafter c i) (W := W) (R := 0) (m := 0) (T := ∅) (by rw [expect_recv, Nat.zero_add])) $$ [Hc HO Ha]
  · iframe Hc HO Ha
    isplitr; · iapply (inv_recv m attnC K c j); iexact HR
    iapply (mayWait_recv c j i hi); iexact HL
  rw [rest_recv]; iintro ⟨HO, Ha, -, Hp⟩
  iapply Hk; iframe

theorem send_out {S : Shape} (c n p : Dev nD) (j : Fin 8) (hn : n = p) (hp : peer c j = p)
    (src : Dev nD → Memref sig .tc .vmem S .bf16) (dst : Memref sig .tc .vmem S .bf16) (v : Dev nD → S.Idx → Elt F .bf16) (i : ℕ)
    (hpayS : sendPay m attnC c j = iprop(emp))
    (hpayR : ∀ d, recvPay m attnC d j = iprop(holds d dst fullShare (v (peer d j)) ∗ owned (peer d j) (src (peer d j))))
    (hN : dst.view.amount (.dma (recvS j)) = amt j)
    (hO : Oafter c i = Oafter c (i + 1) + tallyAt (recvCell p j) () (amt j))
    {hsc : dst.view.ref.isScScratch = false} {hsrc : (src c).view.WordExact} {hdst : dst.view.WordExact}
    {hsem : DmaTarget.Typed .vmem (.dma (recvS j)) (.remote (Dev.tc n : Thread nD τ) dst (.dma (sendS j)) hsc)}
    {α : Type} {Q : α → sProp 𝕄} {k : PUnit → Prog (TpuEff nD τ sig (Elt F) Λ₀ .tc) α} (W : Waits sig Unit) :
    iprop(records m attnC K ∗ holds c (src c) fullShare (v c) ∗ owned p dst ∗ dutyTok ER (sendCell c j) 0 false ∗ dutyTok ER (recvCell (peer c j) j) 0 false)
      ⊢ iprop(owes (c : Thread nD τ) (Oafter c i) W -∗ ((cred (tallyAt (sendCell c j) () (amt j)) ∗ owes (c : Thread nD τ) (Oafter c (i + 1)) W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (src c) (.remote (Dev.tc n : Thread nD τ) dst (.dma (sendS j)) hsc) (.dma (recvS j)) hsrc hdst hsem) k) Q) := by
  subst hn hp
  have hR := hpayR (peer c j)
  rw [peer_peer] at hR
  unfold holds owned at hR ⊢
  iintro ⟨#HR, ⟨%fs, Hsrc, %hv⟩, ⟨%fd, Hdst⟩, Ht₁, Ht₂⟩ HL Hk
  iapply (wp_send_landing_pointsTo (Γ := .empty) (defs := defs₀ (F := F)) 𝒱₀ ER (Rd m attnC) (c : Thread nD τ) none
    (src := src c) (dst := dst) (c' := (Dev.tc (peer c j) : Thread nD τ)) (sS := .dma (sendS j)) (sem := .dma (recvS j))
    (q := fullShare) (fs := fs) (fd := fd) (r₁ := 0) (r₂ := 0) (d₁ := false) (d₂ := false)
    (κ₁ := K (c, kS j)) (κ₂ := K (peer c j, kR j)) (Es := Set.univ) (W := W)
    (false_mem_send m attnC c j) (false_mem_recv m attnC (peer c j) j) () () (amt j) hN
    (amount_send m attnC c j false) (amount_recv m attnC (peer c j) j false)
    (O₀ := Oafter c i) (Oafter c (i + 1)) hO
    (by rw [payload_send, hpayS])
    (by
      rw [payload_recv, hR]
      iintro ⟨Hd, Hs⟩
      isplitl [Hd]
      · iexists _; iframe Hd
        ipureintro; rw [View.read_write_univ]; exact hv
      · iexists fs; iexact Hs))
    $$ [Hsrc Hdst HL Ht₁ Ht₂] Hk
  iframe Hsrc Hdst HL Ht₁ Ht₂
  isplitr; · iapply (inv_send m attnC K c j); iexact HR
  isplitr; · iapply (inv_recv m attnC K (peer c j) j); iexact HR
  isplitr; · iapply (reached_send m attnC K c j); iexact HR
  iapply (reached_recv m attnC K (peer c j) j); iexact HR

theorem send_home {S : Shape} (c n p : Dev nD) (j : Fin 8) (hn : n = p) (hp : peer c j = p)
    (sl : Dev nD → Memref sig .tc .vmem S .bf16) (q : PosShare TreeShare) (v : Dev nD → S.Idx → Elt F .bf16) (i : ℕ)
    (hpayS : ∀ d, sendPay m attnC d j = holds d (sl d) q (v d))
    (hpayR : ∀ d, recvPay m attnC d j = holds d (sl (peer d j)) fullShare (v (peer d j)))
    (hN : (sl c).view.amount (.dma (recvS j)) = amt j)
    (hO : Oafter c i = Oafter c (i + 1) + tallyAt (recvCell p j) () (amt j))
    {hsc : (sl c).view.ref.isScScratch = false} {hsrc : (sl c).view.WordExact} {hdst : (sl c).view.WordExact}
    {hsem : DmaTarget.Typed .vmem (.dma (recvS j)) (.remote (Dev.tc n : Thread nD τ) (sl c) (.dma (sendS j)) hsc)}
    {α : Type} {Q : α → sProp 𝕄} {k : PUnit → Prog (TpuEff nD τ sig (Elt F) Λ₀ .tc) α} (W : Waits sig Unit) :
    iprop(records m attnC K ∗ holds c (sl c) q (v c) ∗ owned p (sl c) ∗ dutyTok ER (sendCell c j) 0 false ∗ dutyTok ER (recvCell (peer c j) j) 0 false)
      ⊢ iprop(owes (c : Thread nD τ) (Oafter c i) W -∗ ((cred (tallyAt (sendCell c j) () (amt j)) ∗ owes (c : Thread nD τ) (Oafter c (i + 1)) W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (sl c) (.remote (Dev.tc n : Thread nD τ) (sl c) (.dma (sendS j)) hsc) (.dma (recvS j)) hsrc hdst hsem) k) Q) := by
  subst hn hp
  have hS := hpayS c
  have hR := hpayR (peer c j)
  rw [peer_peer] at hR
  unfold holds at hS hR ⊢
  unfold owned
  iintro ⟨#HR, ⟨%fs, Hsrc, %hv⟩, ⟨%fd, Hdst⟩, Ht₁, Ht₂⟩ HL Hk
  iapply (wp_send_pointsTo (Γ := .empty) (defs := defs₀ (F := F)) 𝒱₀ ER (Rd m attnC) (c : Thread nD τ) none
    (src := sl c) (dst := sl c) (c' := (Dev.tc (peer c j) : Thread nD τ)) (sS := .dma (sendS j)) (sem := .dma (recvS j))
    (q := q) (fs := fs) (fd := fd) (r₁ := 0) (r₂ := 0) (d₁ := false) (d₂ := false)
    (κ₁ := K (c, kS j)) (κ₂ := K (peer c j, kR j)) (Es := Set.univ) (W := W)
    (false_mem_send m attnC c j) (false_mem_recv m attnC (peer c j) j) () () (amt j) hN
    (amount_send m attnC c j false) (amount_recv m attnC (peer c j) j false)
    (O₀ := Oafter c i) (Oafter c (i + 1)) hO
    (by
      rw [payload_send, hS]
      iintro Hs
      iexists fs; iframe Hs
      ipureintro; exact hv)
    (by
      rw [payload_recv, hR]
      iintro Hd
      iexists _; iframe Hd
      ipureintro; rw [View.read_write_univ]; exact hv))
    $$ [Hsrc Hdst HL Ht₁ Ht₂] Hk
  iframe Hsrc Hdst HL Ht₁ Ht₂
  isplitr; · iapply (inv_send m attnC K c j); iexact HR
  isplitr; · iapply (inv_recv m attnC K (peer c j) j); iexact HR
  isplitr; · iapply (reached_send m attnC K c j); iexact HR
  iapply (reached_recv m attnC K (peer c j) j); iexact HR

theorem close_cell (ck : Dev nD × Fin 17) :
    iprop(records m attnC K ∗ atPos ER (kcell ck) 1 ∅ 0) ⊢ (|={Set.univ}=> semVal (kcell ck) 0 : sProp 𝕄) := by
  iintro ⟨#HR, A⟩
  iapply (Rounds.cell_close ER (Rd m attnC) (Set.mem_univ _) (fun h => h) (duties_later m attnC (kcell ck)))
  iframe A
  iapply (records_inv m attnC K ck); iexact HR

theorem close_all (c : Dev nD) :
    iprop(records m attnC K ∗ atPos ER (sendCell c 0) 1 ∅ 0 ∗ atPos ER (sendCell c 1) 1 ∅ 0 ∗ atPos ER (sendCell c 2) 1 ∅ 0 ∗ atPos ER (sendCell c 3) 1 ∅ 0 ∗ atPos ER (sendCell c 4) 1 ∅ 0 ∗ atPos ER (sendCell c 5) 1 ∅ 0 ∗ atPos ER (sendCell c 6) 1 ∅ 0 ∗ atPos ER (sendCell c 7) 1 ∅ 0 ∗ atPos ER (recvCell c 0) 1 ∅ 0 ∗ atPos ER (recvCell c 1) 1 ∅ 0 ∗ atPos ER (recvCell c 2) 1 ∅ 0 ∗ atPos ER (recvCell c 3) 1 ∅ 0 ∗ atPos ER (recvCell c 4) 1 ∅ 0 ∗ atPos ER (recvCell c 5) 1 ∅ 0 ∗ atPos ER (recvCell c 6) 1 ∅ 0 ∗ atPos ER (recvCell c 7) 1 ∅ 0)
      ⊢ (|={Set.univ}=> Pipeline.ownSems0 osem c : sProp 𝕄) := by
  iintro ⟨#HR, A1, A2, A3, A4, A5, A6, A7, A8, A9, A10, A11, A12, A13, A14, A15, A16⟩
  imod (close_cell m attnC K (c, 1)) $$ [$HR $A1] with Z1
  imod (close_cell m attnC K (c, 2)) $$ [$HR $A2] with Z2
  imod (close_cell m attnC K (c, 3)) $$ [$HR $A3] with Z3
  imod (close_cell m attnC K (c, 4)) $$ [$HR $A4] with Z4
  imod (close_cell m attnC K (c, 5)) $$ [$HR $A5] with Z5
  imod (close_cell m attnC K (c, 6)) $$ [$HR $A6] with Z6
  imod (close_cell m attnC K (c, 7)) $$ [$HR $A7] with Z7
  imod (close_cell m attnC K (c, 8)) $$ [$HR $A8] with Z8
  imod (close_cell m attnC K (c, 9)) $$ [$HR $A9] with Z9
  imod (close_cell m attnC K (c, 10)) $$ [$HR $A10] with Z10
  imod (close_cell m attnC K (c, 11)) $$ [$HR $A11] with Z11
  imod (close_cell m attnC K (c, 12)) $$ [$HR $A12] with Z12
  imod (close_cell m attnC K (c, 13)) $$ [$HR $A13] with Z13
  imod (close_cell m attnC K (c, 14)) $$ [$HR $A14] with Z14
  imod (close_cell m attnC K (c, 15)) $$ [$HR $A15] with Z15
  imod (close_cell m attnC K (c, 16)) $$ [$HR $A16] with Z16
  imodintro
  rw [ownSems0_eq']
  iframe

end Cert.Kernel.Proto

end
-- ==== Proof.KBody.lean ====
import proofs.«900513_g7700000000000514_dist_attn_self_gqa_htp_b2_sq256_skv256_d768_hq8_dh64_v7x_i4_f32_1_alg».proof.Proof.KBodyPre
import proofs.«900513_g7700000000000514_dist_attn_self_gqa_htp_b2_sq256_skv256_d768_hq8_dh64_v7x_i4_f32_1_alg».proof.Proof.KTables
import proofs.«900513_g7700000000000514_dist_attn_self_gqa_htp_b2_sq256_skv256_d768_hq8_dh64_v7x_i4_f32_1_alg».proof.Proof.KOffs
import proofs.«900513_g7700000000000514_dist_attn_self_gqa_htp_b2_sq256_skv256_d768_hq8_dh64_v7x_i4_f32_1_alg».proof.Proof.KLevels
import proofs.«900513_g7700000000000514_dist_attn_self_gqa_htp_b2_sq256_skv256_d768_hq8_dh64_v7x_i4_f32_1_alg».proof.Proof.KGlob
import proofs.«900513_g7700000000000514_dist_attn_self_gqa_htp_b2_sq256_skv256_d768_hq8_dh64_v7x_i4_f32_1_alg».proof.Proof.KGeomB
import proofs.«900513_g7700000000000514_dist_attn_self_gqa_htp_b2_sq256_skv256_d768_hq8_dh64_v7x_i4_f32_1_alg».proof.Proof.KSteps

noncomputable section

namespace Cert.Kernel.Proto

open Cert.Kernel Cert.Kernel.Gen Cert.Kernel.Mesh
open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "attnC" => (attnOf m)

theorem owned_holds (c : Dev nD) {S : Shape} {e : EltTy} (M : Memref sig .tc .vmem S e) :
    (owned c M : sProp 𝕄) ⊢ iprop(∃ v, holds (F := F) c M fullShare v) := by
  unfold holds owned
  iintro ⟨%f, H⟩
  iexists _, f; iframe H
  ipureintro; rfl

theorem acc_load (c : Dev nD) (r : Rect S512x768) (hr : ∀ a, r.stride a = 1) (q : PosShare TreeShare) (v : r.shape.Idx → Elt F .bf16)
    {hl : (accM : Memref sig .tc .vmem S512x768 .bf16).view.LoadsAt r.toLoadRect} {α : Type} {Q : α → sProp 𝕄}
    {k : (r.toLoadRect.shape.Idx → Elt F .bf16) → Prog (TpuEff nD τ sig (Elt F) Λ₀ .tc) α} :
    (holds c (accM.slice r hr) q v : sProp 𝕄)
      ⊢ iprop((holds c (accM.slice r hr) q v -∗ wp frame (wpE (defs₀ (F := F)) 𝒱₀ (c : Thread nD τ) none) Set.univ (k v) Q) -∗ wp frame (wpE (defs₀ (F := F)) 𝒱₀ (c : Thread nD τ) none) Set.univ (.op (.load accM r.toLoadRect hl) k) Q) := by
  unfold holds
  iintro ⟨%f, H, %hf⟩ Hk
  subst hf
  iapply (wp_load 𝒱₀ (c : Thread nD τ) none Set.univ (m := accM) (load_sub accM r hr)) $$ H
  iintro H
  iapply Hk
  iexists f; iframe H
  ipureintro; rfl

theorem acc_store (c : Dev nD) (r : Rect S512x768) (hr : ∀ a, r.stride a = 1) (v w : r.shape.Idx → Elt F .bf16)
    {hx : ((accM : Memref sig .tc .vmem S512x768 .bf16).access r).Stores Finset.univ} {hm : Finset.univ = Finset.univ ∨ ∀ a, r.stride a = 1}
    {α : Type} {Q : α → sProp 𝕄} {k : PUnit → Prog (TpuEff nD τ sig (Elt F) Λ₀ .tc) α} :
    (holds c (accM.slice r hr) fullShare v : sProp 𝕄)
      ⊢ iprop((holds c (accM.slice r hr) fullShare w -∗ wp frame (wpE (defs₀ (F := F)) 𝒱₀ (c : Thread nD τ) none) Set.univ (k ⟨⟩) Q) -∗ wp frame (wpE (defs₀ (F := F)) 𝒱₀ (c : Thread nD τ) none) Set.univ (.op (.store accM r w Finset.univ hx hm) k) Q) := by
  unfold holds
  iintro ⟨%f, H, -⟩ Hk
  iapply (wp_store 𝒱₀ (c : Thread nD τ) none Set.univ (m := accM) (r := r) (Mk := Finset.univ) (store_sub accM r hr)) $$ H
  iintro H
  iapply Hk
  iexists _; iframe H
  ipureintro; exact View.read_write_univ (v := accM.access r) f w

theorem land_load (c : Dev nD) (i : Fin (sig.nNear .tc .vmem)) (hn : sig.names .tc .vmem i = true) (q : PosShare TreeShare)
    (v : (⟨.vmem, i, hn⟩ : Ref sig .tc).ty.shape.Idx → Elt F (⟨.vmem, i, hn⟩ : Ref sig .tc).ty.elt)
    {off : Fin (⟨.vmem, i, hn⟩ : Ref sig .tc).ty.shape.rank → Nat} (h0 : off = fun _ => 0)
    (inb : ∀ a, off a + (⟨.vmem, i, hn⟩ : Ref sig .tc).ty.shape.size a ≤ (⟨.vmem, i, hn⟩ : Ref sig .tc).ty.shape.size a)
    {hl : (Memref.whole (⟨.vmem, i, hn⟩ : Ref sig .tc)).view.LoadsAt (Rect.unit off _ inb).toLoadRect} {α : Type} {Q : α → sProp 𝕄}
    {k : ((Rect.unit off _ inb).toLoadRect.shape.Idx → Elt F _) → Prog (TpuEff nD τ sig (Elt F) Λ₀ .tc) α} :
    (holds c (Memref.whole (⟨.vmem, i, hn⟩ : Ref sig .tc)) q v : sProp 𝕄)
      ⊢ iprop((holds c (Memref.whole (⟨.vmem, i, hn⟩ : Ref sig .tc)) q v -∗ wp frame (wpE (defs₀ (F := F)) 𝒱₀ (c : Thread nD τ) none) Set.univ (k v) Q)
          -∗ wp frame (wpE (defs₀ (F := F)) 𝒱₀ (c : Thread nD τ) none) Set.univ (.op (.load (Memref.whole (⟨.vmem, i, hn⟩ : Ref sig .tc)) (Rect.unit off _ inb).toLoadRect hl) k) Q) := by
  unfold holds
  iintro ⟨%f, H, %hf⟩ Hk
  iapply (wp_load 𝒱₀ (c : Thread nD τ) none Set.univ (m := Memref.whole (⟨.vmem, i, hn⟩ : Ref sig .tc)) (View.setOn_subset_set _ _)) $$ H
  iintro H
  rw [Memref.readAt_unit_zero (Elt F) _ h0 inb f]
  have hv : f = v := hf
  subst hv
  iapply Hk
  iexists f; iframe H
  ipureintro; exact hf

theorem whole_loc (c : Dev nD) (b : Ref sig .tc) (f : Buf (Elt F) ((c : Thread nD τ).loc b)) :
    (((c : Thread nD τ).loc b) ↦{fullShare} f : sProp 𝕄) ⊢ ((Memref.whole b).view.loc (c : Thread nD τ) ↦{fullShare} f) := .rfl

set_option maxHeartbeats 16000000 in
theorem sound_body (K : Dev nD × Fin 17 → ℕ) (c : Dev nD) (Kt : PUnit → sProp 𝕄) :
    iprop(bodyPre m K c ∗ (bodyPost m c -∗ Kt ⟨⟩))
      ⊢ wp frame (wpE (defs₀ (F := F)) 𝒱₀ c none) Set.univ (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7) Kt := by
  simp only [cc0_body_eq_skeleton]; unfold cc0_body_skel
  simp only [k0_part1_eq_skeleton, k0_part8_eq_skeleton, k0_part9_eq_skeleton, k0_part10_eq_skeleton, k0_part11_eq_skeleton, k0_part12_eq_skeleton, k0_part13_eq_skeleton]
  unfold k0_part1_skel k0_part8_skel k0_part9_skel k0_part10_skel k0_part11_skel k0_part12_skel k0_part13_skel
  simp only [semSignalWord, semWaitWord, Prog.lift, Prog.bind_op, Prog.bind_ret, Prog.pure_eq_ret, wp_deviceId]
  unfold bodyPre ghost linear payToks creds8
  rw [bigSep_fin17, bigSep_fin8, bigSep_fin8]
  iintro ⟨⟨⟨⟨#HR, ⟨Ha0, Ha1, Ha2, Ha3, Ha4, Ha5, Ha6, Ha7, Ha8, Ha9, Ha10, Ha11, Ha12, Ha13, Ha14, Ha15, Ha16⟩, HtBy, HtBx, ⟨HtR0, HtR1, HtR2, HtR3, HtR4, HtR5, HtR6, HtR7⟩, ⟨HtS0, HtS1, HtS2, HtS3, HtS4, HtS5, HtS6, HtS7⟩⟩, HcB, ⟨Hc0, Hc1, Hc2, Hc3, Hc4, Hc5, Hc6, Hc7⟩, #Hlev, Hscr⟩, Ho, Hs0, Hs1, Hs2, Hs3, Hs4, Hs5⟩, Hk⟩
  unfold Dat.owesAt Pipeline.owesWithin
  icases Ho with ⟨%W, %hW, HO⟩
  rw [show (dats m attnC 0 c).owed t₀.castSucc = Oafter c 0 from rfl]
  simp only [dev1_eq c, dev2_eq c]
  unfold scr
  icases Hscr with ⟨⟨%f6, H6⟩, ⟨%f7, H7⟩, ⟨%f8, H8⟩, ⟨%f9, H9⟩, ⟨%f10, H10⟩, ⟨%f11, H11⟩⟩
  iapply (Rounds.wp_signal 𝒱₀ ER (Rd m attnC) (c : Thread nD τ) none (dst := (py c : Thread nD τ)) (κ := K (py c, 0))
      (d := false) (by rw [duties_bar]; exact Finset.mem_univ _) ((amount_bar m attnC (py c) false).trans (by decide)) () (Oafter c 1) rfl)
    $$ [HO HtBy H8 H11]
  · isplitr; · iapply (records_inv m attnC K (py c, 0)); iexact HR
    isplitl [HO]; · iexact HO
    isplitl [HtBy]; · iexact HtBy
    isplitl [H8 H11]
    · rw [payload_bar, barPay_false, py_py]
      isplitl [H8]; · iapply (owned_of_whole c la1M (View.set_whole _) f8); iexact H8
      isplitl [H11]; · iapply (owned_of_whole c lb2M (View.set_whole _) f11); iexact H11
      isplitr; · iapply (records_reached m attnC K (c, kR 0)); iexact HR
      isplitr; · iapply (records_reached m attnC K (c, kR 5)); iexact HR
      isplitr; · iapply (records_reached m attnC K (c, kR 6)); iexact HR
      iapply (records_reached m attnC K (c, kR 3)); iexact HR
    · iapply (records_reached m attnC K (py c, 0)); iexact HR
  iintro HO
  iapply (Rounds.wp_signal 𝒱₀ ER (Rd m attnC) (c : Thread nD τ) none (dst := (px c : Thread nD τ)) (κ := K (px c, 0))
      (d := true) (by rw [duties_bar]; exact Finset.mem_univ _) ((amount_bar m attnC (px c) true).trans (by decide)) () (Oafter c 2) rfl)
    $$ [HO HtBx H9 H10]
  · isplitr; · iapply (records_inv m attnC K (px c, 0)); iexact HR
    isplitl [HO]; · iexact HO
    isplitl [HtBx]; · iexact HtBx
    isplitl [H9 H10]
    · rw [payload_bar, barPay_true, px_px]
      isplitl [H9]; · iapply (owned_of_whole c lb1M (View.set_whole _) f9); iexact H9
      isplitl [H10]; · iapply (owned_of_whole c la2M (View.set_whole _) f10); iexact H10
      isplitr; · iapply (records_reached m attnC K (c, kR 4)); iexact HR
      isplitr; · iapply (records_reached m attnC K (c, kR 1)); iexact HR
      isplitr; · iapply (records_reached m attnC K (c, kR 2)); iexact HR
      iapply (records_reached m attnC K (c, kR 7)); iexact HR
    · iapply (records_reached m attnC K (px c, 0)); iexact HR
  iintro HO
  iapply (Rounds.wp_wait_rest_token 𝒱₀ ER (Rd m attnC) (c : Thread nD τ) none (κ := K (c, 0))
      (wpE_semWait_eq 𝒱₀ (c : Thread nD τ) none Set.univ) (Set.mem_univ _) () (O := Oafter c 2) (W := W) (R := 0) (m := 0) (T := ∅)
      (by rw [expect_bar]; decide)) $$ [HcB HO Ha0]
  · isplitr; · iapply (records_inv m attnC K (c, 0)); iexact HR
    isplitl [HcB]; · iexact HcB
    isplitl [HO]; · iexact HO
    isplitr; · iapply (mayWait_bar c); iexact Hlev
    iexact Ha0
  iintro ⟨HO, Ha0, -, Hpay⟩
  ihave Hp := (Entails.of_eq ((rest_bar m attnC c).trans (by rw [barPay_false, barPay_true]))) $$ Hpay
  icases Hp with ⟨⟨HLa1y, HLb2y, -⟩, ⟨HLb1x, HLa2x, -⟩⟩
  icases Hs0 with ⟨%d0, %g0, %hg0, Hs0⟩
  obtain rfl : g0 = inC0 m c := by rw [hg0]; unfold Dat.before; rw [if_pos (fetch0_0 t₀)]; rfl
  icases Hs1 with ⟨%d1, %g1, %hg1, Hs1⟩
  obtain rfl : g1 = inC1 m c := by rw [hg1]; unfold Dat.before; rw [if_pos (fetch0_1 t₀)]; rfl
  icases Hs2 with ⟨%d2, %g2, %hg2, Hs2⟩
  obtain rfl : g2 = woC m c := by rw [hg2]; unfold Dat.before; rw [if_pos (fetch0_2 t₀)]; rfl
  icases Hs3 with ⟨%d3, %g3, %hg3, Hs3⟩
  obtain rfl : g3 = inC3 m c := by rw [hg3]; unfold Dat.before; rw [if_pos (fetch0_3 t₀)]; rfl
  icases Hs4 with ⟨%d4, %g4, %hg4, Hs4⟩
  obtain rfl : g4 = inC4 m c := by rw [hg4]; unfold Dat.before; rw [if_pos (fetch0_4 t₀)]; rfl
  icases Hs5 with ⟨%d5, %g5, %hg5, Hs5⟩
  ihave Hs0 := (whole_loc c cc0_stg0_0 _) $$ Hs0
  ihave Hs1 := (whole_loc c cc0_stg1_0 _) $$ Hs1
  ihave Hs2 := (whole_loc c cc0_stg2_0 _) $$ Hs2
  ihave Hs3 := (whole_loc c cc0_stg3_0 _) $$ Hs3
  ihave Hs4 := (whole_loc c cc0_stg4_0 _) $$ Hs4
  ihave Hs5 := (whole_loc c cc0_stg5_0 _) $$ Hs5
  ihave H6 := (whole_loc c cc0_scratch0 _) $$ H6
  ihave H7 := (whole_loc c cc0_scratch1 _) $$ H7
  sl_exec
  have hX : (attM : Memref sig .tc .vmem S512x512 .f32).view.writes (Elt F) (attM : Memref sig .tc .vmem S512x512 .f32).view.junk (sound_body.sl.H6_16 m c) = attnOf m c := by
    rw [attnOf_eq]; rfl
  have hv256 : sound_body.sl.v256 m c = attRows (attnOf m) c (k0_off2 c) (k0_off2_inb c) := by
    unfold sound_body.sl.v256 attRows; rw [hX]
  ihave H6 := (Entails.of_eq (congrArg (fun X => ((attM : Memref sig .tc .vmem S512x512 .f32).view.loc (c : Thread nD τ) ↦{fullShare} X : sProp 𝕄)) hX)) $$ H6
  ihave Hq := (cut_first c f7 _) $$ H7
  icases Hq with ⟨HA1, HAk, HBs, HBk⟩
  ihave ⟨%vAk, HAk⟩ := (owned_holds c _) $$ HAk
  ihave ⟨%vBs, HBs⟩ := (owned_holds c _) $$ HBs
  ihave ⟨%vBk, HBk⟩ := (owned_holds c _) $$ HBk
  iapply (send_out m attnC K c _ _ 0 (dev3_eq c) rfl slA1 la1M (pAs m attnC) 2 rfl (fun _ => rfl) rfl rfl _) $$ [$HR HA1 $HLa1y $HtS0 $HtR0] HO
  · rw [hv256]; iexact HA1
  iintro ⟨HcS0, HO⟩
  iapply (wp_load 𝒱₀ (c : Thread nD τ) none Set.univ (m := attM) (Finset.subset_univ _)) $$ H6; iintro H6
  iapply (wp_load 𝒱₀ (c : Thread nD τ) none Set.univ (m := woM) (Finset.subset_univ _)) $$ Hs2; iintro Hs2
  iapply (acc_load c _ _ _ _) $$ HBs; iintro HBs
  iapply (acc_store c _ _ _ _) $$ HBs; iintro HBs
  ihave HBs := (holds_move256 c (off6_off7_eq c) (k0_off6_inb c) (k0_off7_inb c) fullShare _).1 $$ HBs
  iapply (send_out m attnC K c _ _ 4 (dev4_eq c) rfl slB1 lb1M (pBs m attnC) 3 rfl (fun _ => rfl) rfl rfl _) $$ [$HR HBs $HLb1x $HtS4 $HtR4] HO
  · iexact HBs
  iintro ⟨HcS4, HO⟩
  iapply (wp_load 𝒱₀ (c : Thread nD τ) none Set.univ (m := attM) (Finset.subset_univ _)) $$ H6; iintro H6
  iapply (wp_load 𝒱₀ (c : Thread nD τ) none Set.univ (m := woM) (Finset.subset_univ _)) $$ Hs2; iintro Hs2
  iapply (wp_load 𝒱₀ (c : Thread nD τ) none Set.univ (m := attM) (Finset.subset_univ _)) $$ H6; iintro H6
  iapply (wp_load 𝒱₀ (c : Thread nD τ) none Set.univ (m := woM) (Finset.subset_univ _)) $$ Hs2; iintro Hs2
  iapply (waitS m attnC K c 0 4 _ (credit256 _) rfl) $$ [$HR $Hlev $HcS0 $Ha1] HO; iintro ⟨HO, Ha1, -⟩
  iapply (waitR m attnC K c 0 4 (by decide) _ (credit256 _) (recvPay_0 m attnC c)) $$ [$HR $Hlev $Hc0 $Ha9] HO; iintro ⟨HO, Ha9, HL1, HP1⟩
  iapply (land_load c 8 rfl _ _ hz2 _) $$ HL1; iintro HL1
  iapply (acc_load c _ _ _ _) $$ HAk; iintro HAk
  iapply (acc_store c _ _ _ _) $$ HAk; iintro HAk
  ihave HS1 := (split256 (k0_off10_inb c) (k0_off14_inb c) (k0_off11_inb c) (halves10 c) c fullShare _) $$ HAk
  icases HS1 with ⟨H14, H11⟩
  iapply (send_out m attnC K c _ _ 1 (dev5_eq c) rfl slA2 la2M (hAs m attnC) 4 rfl (fun _ => rfl) rfl rfl _) $$ [$HR H11 $HLa2x $HtS1 $HtR1] HO
  · iexact H11
  iintro ⟨HcS1, HO⟩
  iapply (waitS m attnC K c 4 5 _ (credit256 _) rfl) $$ [$HR $Hlev $HcS4 $Ha5] HO; iintro ⟨HO, Ha5, -⟩
  iapply (waitR m attnC K c 4 5 (by decide) _ (credit256 _) (recvPay_4 m attnC c)) $$ [$HR $Hlev $Hc4 $Ha13] HO; iintro ⟨HO, Ha13, HL4, HP4⟩
  iapply (land_load c 9 rfl _ _ hz2 _) $$ HL4; iintro HL4
  iapply (acc_load c _ _ _ _) $$ HBk; iintro HBk
  iapply (acc_store c _ _ _ _) $$ HBk; iintro HBk
  ihave HS4 := (split256 (k0_off12_inb c) (k0_off16_inb c) (k0_off13_inb c) (halves12 c) c fullShare _) $$ HBk
  icases HS4 with ⟨H16, H13⟩
  iapply (send_out m attnC K c _ _ 5 (dev6_eq c) rfl slB2 lb2M (hBs m attnC) 5 rfl (fun _ => rfl) rfl rfl _) $$ [$HR H13 $HLb2y $HtS5 $HtR5] HO
  · iexact H13
  iintro ⟨HcS5, HO⟩
  iapply (waitS m attnC K c 1 6 _ (credit128 _) rfl) $$ [$HR $Hlev $HcS1 $Ha2] HO; iintro ⟨HO, Ha2, -⟩
  iapply (waitR m attnC K c 1 6 (by decide) _ (credit128 _) (recvPay_1 m attnC c)) $$ [$HR $Hlev $Hc1 $Ha10] HO; iintro ⟨HO, Ha10, HL2, HP2⟩
  iapply (acc_load c _ _ _ _) $$ H14; iintro H14
  iapply (land_load c 10 rfl _ _ hz2 _) $$ HL2; iintro HL2
  iapply (acc_load c _ _ _ _) $$ H14; iintro H14
  iapply (acc_store c _ _ _ _) $$ H14; iintro H14
  ihave H14 := (holds_move128 c (off14_off15_eq c) (k0_off14_inb c) (k0_off15_inb c) fullShare _).1 $$ H14
  iapply (send_home m attnC K c _ _ 2 (dev7_eq c) rfl slA3 fullShare (tA m attnC) 6 (fun _ => rfl) (fun _ => rfl) rfl rfl _) $$ [$HR H14 HP2 $HtS2 $HtR2] HO
  · isplitl [H14]; · iexact H14
    iapply (owned_move128 (px c) (off11px_off15_eq c) (k0_off11_inb (px c)) (k0_off15_inb c)).1; iexact HP2
  iintro ⟨HcS2, HO⟩
  iapply (waitS m attnC K c 5 7 _ (credit128 _) rfl) $$ [$HR $Hlev $HcS5 $Ha6] HO; iintro ⟨HO, Ha6, -⟩
  iapply (waitR m attnC K c 5 7 (by decide) _ (credit128 _) (recvPay_5 m attnC c)) $$ [$HR $Hlev $Hc5 $Ha14] HO; iintro ⟨HO, Ha14, HL5, HP5⟩
  iapply (acc_load c _ _ _ _) $$ H16; iintro H16
  iapply (land_load c 11 rfl _ _ hz2 _) $$ HL5; iintro HL5
  iapply (acc_load c _ _ _ _) $$ H16; iintro H16
  iapply (acc_store c _ _ _ _) $$ H16; iintro H16
  ihave H16 := (holds_move128 c (off16_off17_eq c) (k0_off16_inb c) (k0_off17_inb c) fullShare _).1 $$ H16
  iapply (send_home m attnC K c _ _ 6 (dev8_eq c) rfl slB3 fullShare (tB m attnC) 7 (fun _ => rfl) (fun _ => rfl) rfl rfl _) $$ [$HR H16 HP5 $HtS6 $HtR6] HO
  · isplitl [H16]; · iexact H16
    iapply (owned_move128 (py c) (off13py_off17_eq c) (k0_off13_inb (py c)) (k0_off17_inb c)).1; iexact HP5
  iintro ⟨HcS6, HO⟩
  iapply (waitS m attnC K c 2 8 _ (credit128 _) (sendPay_2 m attnC c)) $$ [$HR $Hlev $HcS2 $Ha3] HO; iintro ⟨HO, Ha3, HsA3⟩
  iapply (waitR m attnC K c 2 8 (by decide) _ (credit128 _) (recvPay_2 m attnC c)) $$ [$HR $Hlev $Hc2 $Ha11] HO; iintro ⟨HO, Ha11, Hb2⟩
  ihave HU := (join256 (k0_off18_inb c) (k0_off15_inb c) (k0_off15_inb (px c)) (halves18 c) c fullShare _ _) $$ [$HsA3 $Hb2]
  ihave HU := (holds_share c (sl256 (k0_off18 c) (k0_off18_inb c)) fullShare _).1 $$ HU
  icases HU with ⟨HUl, HUr⟩
  iapply (send_home m attnC K c _ _ 3 (dev9_eq c) rfl slA4 fullShare.left (uA m attnC) 8 (fun _ => rfl) (fun _ => rfl) rfl rfl _) $$ [$HR HUl HP1 $HtS3 $HtR3] HO
  · isplitl [HUl]; · iexact HUl
    iapply (owned_move256 (py c) (off4py_off18_eq c) (k0_off4_inb (py c)) (k0_off18_inb c)).1; iexact HP1
  iintro ⟨HcS3, HO⟩
  iapply (waitS m attnC K c 6 9 _ (credit128 _) (sendPay_6 m attnC c)) $$ [$HR $Hlev $HcS6 $Ha7] HO; iintro ⟨HO, Ha7, HsB3⟩
  iapply (waitR m attnC K c 6 9 (by decide) _ (credit128 _) (recvPay_6 m attnC c)) $$ [$HR $Hlev $Hc6 $Ha15] HO; iintro ⟨HO, Ha15, Hb6⟩
  ihave HUB := (join256 (k0_off19_inb c) (k0_off17_inb c) (k0_off17_inb (py c)) (halves19 c) c fullShare _ _) $$ [$HsB3 $Hb6]
  ihave HUB := (holds_share c (sl256 (k0_off19 c) (k0_off19_inb c)) fullShare _).1 $$ HUB
  icases HUB with ⟨HUBl, HUBr⟩
  iapply (send_home m attnC K c _ _ 7 (dev10_eq c) rfl slB4 fullShare.left (uB m attnC) 9 (fun _ => rfl) (fun _ => rfl) rfl rfl _) $$ [$HR HUBl HP4 $HtS7 $HtR7] HO
  · isplitl [HUBl]; · iexact HUBl
    iapply (owned_move256 (px c) (off7px_off19_eq c) (k0_off7_inb (px c)) (k0_off19_inb c)).1; iexact HP4
  iintro ⟨HcS7, HO⟩
  ihave HUr := (holds_move256 c (off10_off18_eq c) (k0_off10_inb c) (k0_off18_inb c) fullShare.right _).2 $$ HUr
  iapply (acc_load c _ _ _ _) $$ HUr; iintro HUr
  iapply (wp_load 𝒱₀ (c : Thread nD τ) none Set.univ (m := outM) (Finset.subset_univ _)) $$ Hs5; iintro Hs5
  iapply (wp_store 𝒱₀ (c : Thread nD τ) none Set.univ (m := outM) (r := (rO (k0_off20 c) (k0_off20_inb c))) (Mk := Finset.univ) (Finset.subset_univ _)) $$ Hs5; iintro Hs5
  ihave HUBr := (holds_move256 c (off12_off19_eq c) (k0_off12_inb c) (k0_off19_inb c) fullShare.right _).2 $$ HUBr
  iapply (acc_load c _ _ _ _) $$ HUBr; iintro HUBr
  iapply (wp_load 𝒱₀ (c : Thread nD τ) none Set.univ (m := outM) (Finset.subset_univ _)) $$ Hs5; iintro Hs5
  iapply (wp_store 𝒱₀ (c : Thread nD τ) none Set.univ (m := outM) (r := (rO (k0_off21 c) (k0_off21_inb c))) (Mk := Finset.univ) (Finset.subset_univ _)) $$ Hs5; iintro Hs5
  iapply (waitS m attnC K c 3 10 _ (credit256 _) (sendPay_3 m attnC c)) $$ [$HR $Hlev $HcS3 $Ha4] HO; iintro ⟨HO, Ha4, HsA4⟩
  iapply (waitR m attnC K c 3 10 (by decide) _ (credit256 _) (recvPay_3 m attnC c)) $$ [$HR $Hlev $Hc3 $Ha12] HO; iintro ⟨HO, Ha12, Hb3⟩
  ihave Hb3 := (holds_move256 c (off18py_off3_eq c) (k0_off18_inb (py c)) (k0_off3_inb c) fullShare _).1 $$ Hb3
  iapply (acc_load c _ _ _ _) $$ Hb3; iintro Hb3
  iapply (wp_load 𝒱₀ (c : Thread nD τ) none Set.univ (m := outM) (Finset.subset_univ _)) $$ Hs5; iintro Hs5
  iapply (wp_store 𝒱₀ (c : Thread nD τ) none Set.univ (m := outM) (r := (rO (k0_off22 c) (k0_off22_inb c))) (Mk := Finset.univ) (Finset.subset_univ _)) $$ Hs5; iintro Hs5
  iapply (waitS m attnC K c 7 10 _ (credit256 _) (sendPay_7 m attnC c)) $$ [$HR $Hlev $HcS7 $Ha8] HO; iintro ⟨HO, Ha8, HsB4⟩
  iapply (waitR m attnC K c 7 10 (by decide) _ (credit256 _) (recvPay_7 m attnC c)) $$ [$HR $Hlev $Hc7 $Ha16] HO; iintro ⟨HO, Ha16, Hb7⟩
  ihave Hb7 := (holds_move256 c (off19px_off6_eq c) (k0_off19_inb (px c)) (k0_off6_inb c) fullShare _).1 $$ Hb7
  iapply (acc_load c _ _ _ _) $$ Hb7; iintro Hb7
  iapply (wp_load 𝒱₀ (c : Thread nD τ) none Set.univ (m := outM) (Finset.subset_univ _)) $$ Hs5; iintro Hs5
  iapply (wp_store 𝒱₀ (c : Thread nD τ) none Set.univ (m := outM) (r := (rO (k0_off23 c) (k0_off23_inb c))) (Mk := Finset.univ) (Finset.subset_univ _)) $$ Hs5; iintro Hs5
  imod (close_all m attnC K c) $$ [$HR $Ha1 $Ha2 $Ha3 $Ha4 $Ha5 $Ha6 $Ha7 $Ha8 $Ha9 $Ha10 $Ha11 $Ha12 $Ha13 $Ha14 $Ha15 $Ha16] with Hsems
  rw [wp_ret]; imodintro
  iapply Hk
  unfold bodyPost Φ₁ scr Dat.owesAt Pipeline.owesWithin
  rw [show (dats m attnC 0 c).owed t₀.succ = 0 from rfl]
  isplitl [H6 HUr HsA4 Hb3 HUBr HsB4 Hb7 HL1 HL4 HL2 HL5 Hsems]
  · iframe Hsems
    isplitl [H6]; · iexists _; iexact H6
    isplitl [HUr HsA4 Hb3 HUBr HsB4 Hb7]
    · iapply (rejoin_final c)
      isplitl [HUr HsA4]
      · iapply (holds_owned c _ (uA m attnC c))
        iapply (holds_share c (sl256 (k0_off18 c) (k0_off18_inb c)) fullShare _).2
        isplitl [HsA4]; · iexact HsA4
        iapply (holds_move256 c (off10_off18_eq c) (k0_off10_inb c) (k0_off18_inb c) fullShare.right _).1; iexact HUr
      isplitl [Hb3]
      · iapply (holds_owned c _ (uA m attnC (py c)))
        iapply (holds_move256 c (off18py_off3_eq c) (k0_off18_inb (py c)) (k0_off3_inb c) fullShare _).2; iexact Hb3
      isplitl [HUBr HsB4]
      · iapply (holds_owned c _ (uB m attnC c))
        iapply (holds_share c (sl256 (k0_off19 c) (k0_off19_inb c)) fullShare _).2
        isplitl [HsB4]; · iexact HsB4
        iapply (holds_move256 c (off12_off19_eq c) (k0_off12_inb c) (k0_off19_inb c) fullShare.right _).1; iexact HUBr
      iapply (holds_owned c _ (uB m attnC (px c)))
      iapply (holds_move256 c (off19px_off6_eq c) (k0_off19_inb (px c)) (k0_off6_inb c) fullShare _).2; iexact Hb7
    isplitl [HL1]; · iapply (owned_whole c 8 rfl).1; iapply (holds_owned c _ _); iexact HL1
    isplitl [HL4]; · iapply (owned_whole c 9 rfl).1; iapply (holds_owned c _ _); iexact HL4
    isplitl [HL2]; · iapply (owned_whole c 10 rfl).1; iapply (holds_owned c _ _); iexact HL2
    iapply (owned_whole c 11 rfl).1; iapply (holds_owned c _ _); iexact HL5
  isplitl [HO]
  · iexists (insert (SemLoc.dma (recvS 7), ()) (insert (SemLoc.dma (sendS 7), ()) (insert (SemLoc.dma (recvS 3), ()) (insert (SemLoc.dma (sendS 3), ()) (insert (SemLoc.dma (recvS 6), ()) (insert (SemLoc.dma (sendS 6), ()) (insert (SemLoc.dma (recvS 2), ()) (insert (SemLoc.dma (sendS 2), ()) (insert (SemLoc.dma (recvS 5), ()) (insert (SemLoc.dma (sendS 5), ()) (insert (SemLoc.dma (recvS 1), ()) (insert (SemLoc.dma (sendS 1), ()) (insert (SemLoc.dma (recvS 4), ()) (insert (SemLoc.dma (sendS 4), ()) (insert (SemLoc.dma (recvS 0), ()) (insert (SemLoc.dma (sendS 0), ()) (insert (SemLoc.reg barS, ()) W)))))))))))))))))
    isplitr; · ipureintro; exact fun _ _ => Or.inl trivial
    iexact HO
  isplitl [Hs0]; · iexists _; isplitr; · (ipureintro; rfl)
                   iexact Hs0
  isplitl [Hs1]; · iexists _; isplitr; · (ipureintro; rfl)
                   iexact Hs1
  isplitl [Hs2]; · iexists _; isplitr; · (ipureintro; rfl)
                   iexact Hs2
  isplitl [Hs3]; · iexists _; isplitr; · (ipureintro; rfl)
                   iexact Hs3
  isplitl [Hs4]; · iexists _; isplitr; · (ipureintro; rfl)
                   iexact Hs4
  iexists _; isplitr; · (ipureintro; exact outOver_eq_outV m attnC c g5)
  iexact Hs5
end Cert.Kernel.Proto
end
-- ==== Proof.KRunK.lean ====
import proofs.«900513_g7700000000000514_dist_attn_self_gqa_htp_b2_sq256_skv256_d768_hq8_dh64_v7x_i4_f32_1_alg».proof.Proof.KLaunch
import proofs.«900513_g7700000000000514_dist_attn_self_gqa_htp_b2_sq256_skv256_d768_hq8_dh64_v7x_i4_f32_1_alg».proof.Proof.KBodyOb
import proofs.«900513_g7700000000000514_dist_attn_self_gqa_htp_b2_sq256_skv256_d768_hq8_dh64_v7x_i4_f32_1_alg».proof.Proof.KBody

noncomputable section

namespace Cert.Kernel.Proto

open Cert.Kernel Cert.Kernel.Gen Cert.Kernel.Mesh
open Idealize.ShloMosaic
open Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem run_kernel :
    θ_run defs (onTc (τ := τ) (main (F := F))) ⟨m, fun _ => 0, ρ⟩ (fun r => ∀ c : Dev nD,
      r.2.mem ((c.tc : Thread nD τ).loc main_v1) = outV m (attnOf m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c 5).trans (finalA_out m _ c),
      (h c 0).trans (finalA_in m _ c 0 (by decide)),
      (h c 1).trans (finalA_in m _ c 1 (by decide)),
      (h c 2).trans (finalA_in m _ c 2 (by decide)),
      (h c 3).trans (finalA_in m _ c 3 (by decide)),
      (h c 4).trans (finalA_in m _ c 4 (by decide))⟩)
    (run_main m ρ _ fun c => body_obligation m (sound_body m) c)

end Cert.Kernel.Proto

end
-- ==== Proof.HeadVal.lean ====
import proofs.«900513_g7700000000000514_dist_attn_self_gqa_htp_b2_sq256_skv256_d768_hq8_dh64_v7x_i4_f32_1_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.HeadVal

open Cert.KernelIdeal Cert.KernelIdeal.Gen Idealize.ShloMosaic Idealize.ShloMosaic.ValueIdx

theorem ix2_ext {a b : ℕ} (x : (⟨2, ![a, b]⟩ : Shape).Idx) (i : Fin a) (j : Fin b) (h0 : (x 0).val = i.val)
    (h1 : (x 1).val = j.val) : x = ix2 i j :=
  (eq_ix2 x).trans (congrArg₂ ix2 (Fin.ext h0) (Fin.ext h1))

-- Re-index the contraction by its one coordinate; `h` names the two operand indices at coordinate `k`.
theorem mm_apply {sl sr so : Shape} (D : DotDims sl sr so) (K : ℕ) (hr : D.contr.rank = 1)
    (hs : D.contr.size ⟨0, by omega⟩ = K) (A : FVec Ideal sl .f32) (B : FVec Ideal sr .f32) (j : so.Idx)
    (L : Fin K → sl.Idx) (R : Fin K → sr.Idx)
    (h : ∀ c k, (c ⟨0, by omega⟩).val = k.val → D.lhsIdx j c = L k ∧ D.rhsIdx j c = R k) :
    FloatOps.matmul D none A B (constant so .f32 0x00000000#32) j = ∑ k : Fin K, A (L k) * B (R k) := by
  rw [Ideal.matmul_constant_zero_apply, ← Equiv.sum_comp (contrEquiv1 D K hr hs).symm]
  refine Finset.sum_congr rfl fun k _ => ?_
  obtain ⟨hl, hr'⟩ := h _ k (contrEquiv1_symm_val D K hr hs k)
  rw [hl, hr']

def headVal (q k v : FVec Ideal S256x64 .f32) : FVec Ideal S256x64 .f32 :=
  shapeCast S256x64 (divf (matmul dot_S256x256_S256x64_S256x64_1_0_0_1_n_n none (exp (matmul dot_S256x64_S256x64_S256x256_1_1_0_0_n_n none q k (constant S256x256 .f32 0x00000000#32))) v (constant S256x64 .f32 0x00000000#32)) (broadcastTo S256x64 (shapeCast S256x1 (multiReduction .add [1] S256 (exp (matmul dot_S256x64_S256x64_S256x256_1_1_0_0_n_n none q k (constant S256x256 .f32 0x00000000#32))) 0x00000000#32 reduces_S256x256_S256 (.inl rfl) rfl) shapeCasts_S256_S256x1) broadcasts_S256x1_S256x64)) shapeCasts_S256x64_S256x64

theorem headVal_apply (q k v : FVec Ideal S256x64 .f32) (i : Fin 256) (dd : Fin 64) :
    headVal q k v (ix2 i dd)
      = Ideal.div (∑ j : Fin 256, Ideal.exp (∑ d : Fin 64, q (ix2 i d) * k (ix2 j d)) * v (ix2 j dd))
          (∑ j : Fin 256, Ideal.exp (∑ d : Fin 64, q (ix2 i d) * k (ix2 j d))) := by
  have hw : ∀ j : Fin 256, exp (matmul dot_S256x64_S256x64_S256x256_1_1_0_0_n_n none q k (constant S256x256 .f32 0x00000000#32)) (ix2 i j)
      = Ideal.exp (∑ d : Fin 64, q (ix2 i d) * k (ix2 j d)) := fun j =>
    congrArg Ideal.exp (mm_apply _ 64 rfl rfl q k _ _ _ fun c d e => ⟨ix2_ext _ _ _ rfl e, ix2_ext _ _ _ rfl e⟩)
  unfold headVal
  rw [shapeCast_self, divf_apply]
  refine congrArg₂ Ideal.div ?_ ?_
  · refine (mm_apply dot_S256x256_S256x64_S256x64_1_0_0_1_n_n 256 rfl rfl _ v (ix2 i dd) (ix2 i ·) (ix2 · dd) fun c d e =>
      ⟨ix2_ext _ _ _ rfl e, ix2_ext _ _ _ e rfl⟩).trans (Finset.sum_congr rfl fun j _ => ?_)
    rw [hw]
  · refine (broadcastTo_apply _ _ _ (ix2 i (0 : Fin 1)) fun a => match a with | ⟨0, _⟩ => rfl | ⟨1, _⟩ => rfl).trans ?_
    refine (shapeCast_apply _ _ _ (ix1 i) (by
      rw [Shape.rowMajor_val_two, Shape.rowMajor_val_one]; show i.val = i.val * 1 + 0; omega)).trans ?_
    exact (Ideal.multiReduction_add_single _ _ _ _ _ _).trans (Finset.sum_congr rfl fun (j : Fin 256) _ =>
      (congrArg _ (ix2_ext _ i j rfl rfl)).trans (hw j))

theorem pay2_apply (X : Vec Ideal S2x256x768 .f32) (r : Fin 512) (t : Fin 768) :
    k0_pay2 X (ix2 r t) = X (ix3 (⟨r.val / 256, by omega⟩ : Fin 2) (⟨r.val % 256, by omega⟩ : Fin 256) t) := by
  unfold k0_pay2
  rw [shapeCast_self]
  refine shapeCast_apply _ _ _ _ ?_
  rw [Shape.rowMajor_val_three, Shape.rowMajor_val_two]
  show (r.val / 256 * 256 + r.val % 256) * 768 + t.val = r.val * 768 + t.val
  omega

theorem pay4_eq (W : Vec Ideal S768x128 .f32) : k0_pay4 W = W := shapeCast_self _ _

theorem pay3_apply (X : Vec Ideal S2x256x768 .f32) (W : Vec Ideal S768x512 .f32) (r k : Fin 512) :
    k0_pay3 X W (ix2 r k)
      = ∑ t : Fin 768, k0_pay2 X (ix2 r t) * (W (ix2 t k) * Ideal.ofBits .f32 0x3E000000#32) := by
  unfold k0_pay3
  rw [shapeCast_self]
  exact mm_apply _ 768 rfl rfl _ _ _ _ _ fun c t e => ⟨ix2_ext _ _ _ rfl e, ix2_ext _ _ _ e rfl⟩

theorem pay6_apply (A : FVec Ideal S512x768 .f32) (W : FVec Ideal S768x128 .f32) (r : Fin 512) (k : Fin 128) :
    k0_pay6 A W (ix2 r k) = ∑ t : Fin 768, A (ix2 r t) * W (ix2 t k) :=
  mm_apply _ 768 rfl rfl _ _ _ _ _ fun c t e => ⟨ix2_ext _ _ _ rfl e, ix2_ext _ _ _ e rfl⟩

theorem pay5_apply (X : Vec Ideal S2x256x768 .f32) (W : Vec Ideal S768x128 .f32) (r : Fin 512) (k : Fin 128) :
    k0_pay5 X W (ix2 r k) = ∑ t : Fin 768, k0_pay2 X (ix2 r t) * W (ix2 t k) := by
  unfold k0_pay5
  rw [shapeCast_self]
  exact pay6_apply _ W r k

end Cert.KernelIdeal.HeadVal

end
-- ==== Proof.KVal.lean ====
import proofs.«900513_g7700000000000514_dist_attn_self_gqa_htp_b2_sq256_skv256_d768_hq8_dh64_v7x_i4_f32_1_alg».proof.Proof.Core
import proofs.«900513_g7700000000000514_dist_attn_self_gqa_htp_b2_sq256_skv256_d768_hq8_dh64_v7x_i4_f32_1_alg».proof.Proof.HeadVal

noncomputable section

namespace Cert.KernelIdeal.KVal

open Cert.KernelIdeal Cert.KernelIdeal.Gen Cert.KernelIdeal.Mesh Cert.KernelIdeal.Proto Cert.KernelIdeal.HeadVal
open Idealize.ShloMosaic Idealize.ShloMosaic.ValueIdx Idealize.ShloMosaic.TcCoe

variable (m : (ℓ : Loc nD τ sig) → Buf (Elt Ideal) ℓ)
variable (attnC : (d : Dev nD) → Buf (Elt Ideal) ((attM : Memref sig .tc .vmem S512x512 .f32).view.loc (d : Thread nD τ)))

def PP (d : Dev nD) (r : Fin 512) (n : Fin 768) : EReal :=
  ∑ k : Fin 512, @HMul.hMul EReal EReal EReal instHMul (attnC d (ix2 r k)) (woC m d (ix2 k n))

-- Device `d`'s partial output at a row and a column given as naturals; zero outside the array.
def PN (d : Dev nD) (r n : ℕ) : EReal := if h : r < 512 ∧ n < 768 then PP m attnC d ⟨r, h.1⟩ ⟨n, h.2⟩ else 0

def TN (r n : ℕ) : EReal := ∑ p : Dev nD, PN m attnC p r n

-- 256 rows of the attention from row `off 0` times 384 columns of the weights from column `co 1`.
theorem quad (d : Dev nD) (off : Fin 2 → ℕ) (inb : ∀ a, off a + S256x512.size a ≤ S512x512.size a)
    (co : Fin 2 → ℕ) (inc : ∀ a, co a + S512x384.size a ≤ S512x768.size a) (y0 : Fin 256) (y1 : Fin 384) :
    k0_pay35 (attRows attnC d off inb) ((woM : Memref sig .tc .vmem S512x768 .f32).view.readAt (Elt Ideal)
        (Rect.unit (s := S512x768) co S512x384.size inc).toLoadRect (woC m d)) (ix2 y0 y1)
      = PN m attnC d (off 0 + y0.val) (co 1 + y1.val) := by
  have h0 : off 0 + 256 ≤ 512 := inb 0
  have h1 : off 1 + 512 ≤ 512 := inb 1
  have c0 : co 0 + 512 ≤ 512 := inc 0
  have c1 : co 1 + 384 ≤ 768 := inc 1
  unfold k0_pay35 PN PP
  simp only [shapeCast_self, truncf_apply]
  rw [dif_pos ⟨by omega, by omega⟩]
  refine (mm_apply dot_S256x512_S512x384_S256x384_1_0_0_1_n_n 512 rfl rfl _ _ (ix2 y0 y1) (ix2 y0 ·) (ix2 · y1) fun c k e =>
    ⟨ix2_ext _ _ _ rfl e, ix2_ext _ _ _ e rfl⟩).trans (Finset.sum_congr rfl fun k _ => ?_)
  exact congr (congrArg _ (congrArg (attnC d) (ix2_ext _ _ _ (by show off 0 + 1 * y0.val = off 0 + y0.val; omega)
      (by show off 1 + 1 * k.val = k.val; omega))))
    (congrArg (woC m d) (ix2_ext _ _ _ (by show co 0 + 1 * k.val = k.val; omega)
      (by show co 1 + 1 * y1.val = co 1 + y1.val; omega)))

theorem sA1_apply (d : Dev nD) (r c : ℕ) (hr : r < 256) (hc : c < 384) :
    sA1 m attnC d (ix2 ⟨r, hr⟩ ⟨c, hc⟩) = PN m attnC d (aK1 d + r) (0 + c) + PN m attnC (py d) (aK1 d + r) (0 + c) := by
  unfold sA1 k0_pay37
  simp only [shapeCast_self, addf_apply]
  exact congrArg₂ (· + ·)
    ((quad m attnC d _ (k0_off8_inb d) ![0, 0] inb_S512x768_S512x384_0_0 ⟨r, hr⟩ ⟨c, hc⟩).trans (by rw [off8_eq]; rfl))
    ((congrFun (shapeCast_self _ _) _).trans ((quad m attnC (py d) _ (k0_off2_inb _) ![0, 0] inb_S512x768_S512x384_0_0
      ⟨r, hr⟩ ⟨c, hc⟩).trans (by rw [off2_eq, aS1_py]; rfl)))

theorem sB1_apply (d : Dev nD) (r c : ℕ) (hr : r < 256) (hc : c < 384) :
    sB1 m attnC d (ix2 ⟨r, hr⟩ ⟨c, hc⟩) = PN m attnC d (bK1 d + r) (384 + c) + PN m attnC (px d) (bK1 d + r) (384 + c) := by
  unfold sB1 k0_pay39 k0_pay38
  simp only [shapeCast_self, addf_apply]
  exact congrArg₂ (· + ·)
    ((quad m attnC d _ (k0_off9_inb d) ![0, 384] inb_S512x768_S512x384_0_384 ⟨r, hr⟩ ⟨c, hc⟩).trans (by rw [off9_eq]; rfl))
    ((congrFun (shapeCast_self _ _) _).trans ((quad m attnC (px d) _ (k0_off5_inb _) ![0, 384] inb_S512x768_S512x384_0_384
      ⟨r, hr⟩ ⟨c, hc⟩).trans (by rw [off5_eq, bS1_px]; rfl)))

theorem sum_dev_yx (f : Dev nD → EReal) (d : Dev nD) :
    (f d + f (py d)) + (f (px d) + f (py (px d))) = ∑ p : Dev nD, f p := by
  have hb : Function.Bijective ![d, py d, px d, py (px d)] := by revert d; decide
  rw [← (Equiv.ofBijective _ hb).sum_comp f, Fin.sum_univ_four]
  exact (add_assoc _ _ _).symm

theorem sum_dev_xy (f : Dev nD → EReal) (d : Dev nD) :
    (f d + f (px d)) + (f (py d) + f (px (py d))) = ∑ p : Dev nD, f p := by
  rw [← sum_dev_yx f d, py_px]; ac_rfl

-- Two exchange steps: halves of 256 rows with partner `σ`, then quarters of 128 rows with partner `ρ`, and one step back.
theorem exch (σ ρ : Dev nD → Dev nD) (k₁ c₂ : Dev nD → ℕ) (co : ℕ) (s : Dev nD → S256x384.Idx → EReal)
    (t : Dev nD → S128x384.Idx → EReal)
    (hs : ∀ d (r c : ℕ) (hr : r < 256) (hc : c < 384), s d (ix2 ⟨r, hr⟩ ⟨c, hc⟩)
      = PN m attnC d (k₁ d + r) (co + c) + PN m attnC (σ d) (k₁ d + r) (co + c))
    (ht : ∀ d y, t d y = rows128 (128 * c₂ d) (s d) y + rows128 (128 * c₂ d) (s (ρ d)) y)
    (hc : ∀ d, c₂ d < 2 ∧ k₁ (ρ d) = k₁ d ∧ c₂ (ρ d) = 1 - c₂ d)
    (hsum : ∀ (f : Dev nD → EReal) d, (f d + f (σ d)) + (f (ρ d) + f (σ (ρ d))) = ∑ p, f p)
    (d : Dev nD) (y0 : Fin 256) (y1 : Fin 384) :
    glue128 (128 * c₂ d) (t d) (t (ρ d)) (ix2 y0 y1) = TN m attnC (k₁ d + y0.val) (co + y1.val) := by
  have key : ∀ d (r : ℕ) (hr : r < 128), t d (ix2 ⟨r, hr⟩ ⟨y1.val, y1.isLt⟩)
      = TN m attnC (k₁ d + 128 * c₂ d + r) (co + y1.val) := fun d r hr => by
    obtain ⟨h2, h1, -⟩ := hc d
    refine (ht d _).trans ((congrArg₂ (· + ·) (hs d ((128 * c₂ d + r) % 256) y1.val (Nat.mod_lt _ (by omega)) y1.isLt)
      (hs (ρ d) ((128 * c₂ d + r) % 256) y1.val (Nat.mod_lt _ (by omega)) y1.isLt)).trans ?_)
    rw [h1, show k₁ d + (128 * c₂ d + r) % 256 = k₁ d + 128 * c₂ d + r by omega]
    exact hsum (fun p => PN m attnC p _ _) d
  obtain ⟨h2, h1, h3⟩ := hc d
  show (if 128 * c₂ d ≤ y0.val ∧ y0.val < 128 * c₂ d + 128 then _ else _) = _
  split_ifs with h
  · exact (key d ((y0.val - 128 * c₂ d) % 128) (Nat.mod_lt _ (by omega))).trans (by congr 1; omega)
  · exact (key (ρ d) (y0.val % 128) (Nat.mod_lt _ (by omega))).trans (by rw [h1, h3]; congr 1; omega)

theorem uA_apply (d : Dev nD) (y0 : Fin 256) (y1 : Fin 384) :
    uA m attnC d (ix2 y0 y1) = TN m attnC (aK1 d + y0.val) (0 + y1.val) := by
  have e : ∀ d, aK2 d - aK1 d = 128 * cx d := fun d => by unfold aK2; omega
  have e' : ∀ d, aK1 (px d) = aK1 d := by decide
  unfold uA
  rw [e]
  refine exch m attnC py px aK1 cx 0 _ _ (sA1_apply m attnC) (fun d y => ?_) (fun d => by revert d; decide) sum_dev_yx d y0 y1
  unfold tA k0_pay40 hAk hAs
  rw [shapeCast_self, aS2_px, e', e]
  rfl

theorem uB_apply (d : Dev nD) (y0 : Fin 256) (y1 : Fin 384) :
    uB m attnC d (ix2 y0 y1) = TN m attnC (bK1 d + y0.val) (384 + y1.val) := by
  have e : ∀ d, bK2 d - bK1 d = 128 * cy d := fun d => by unfold bK2; omega
  have e' : ∀ d, bK1 (py d) = bK1 d := by decide
  unfold uB
  rw [e]
  refine exch m attnC px py bK1 cy 384 _ _ (sB1_apply m attnC) (fun d y => ?_) (fun d => by revert d; decide) sum_dev_xy d y0 y1
  unfold tB k0_pay41 hBk hBs
  rw [shapeCast_self, bS2_py, e', e]
  rfl

theorem pay42_apply (v : Vec Ideal S256x384 .bf16) (u : Fin 1) (i : Fin 256) (j : Fin 384) :
    k0_pay42 v (ix3 u i j) = v (ix2 i j) := by
  unfold k0_pay42
  rw [shapeCast_ab_1ab_apply, extf_apply]

-- One stored block read at an index: the payload where the block covers it, the earlier contents elsewhere.
theorem wr_apply (off : Fin 3 → Nat) (inb : ∀ a, off a + S1x256x384.size a ≤ S2x256x768.size a) (o0 o2 : ℕ)
    (ho : off = ![o0, 0, o2]) (f : (cc0_stg5_0 : Ref sig .tc).ty.Contents (Elt Ideal)) (w : FVec Ideal S1x256x384 .f32)
    (b : Fin 2) (i : Fin 256) (n : Fin 768) :
    ((outM : Memref sig .tc .vmem S2x256x768 .f32).access (rO off inb)).write (Elt Ideal) f w Finset.univ (ix3 b i n)
      = if b.val = o0 ∧ o2 ≤ n.val ∧ n.val < o2 + 384
        then w (ix3 (0 : Fin 1) i ⟨(n.val - o2) % 384, Nat.mod_lt _ (by omega)⟩)
        else f (ix3 b i n) := by
  have e0 : off 0 = o0 := congrFun ho 0
  have e1 : off 1 = 0 := congrFun ho 1
  have e2 : off 2 = o2 := congrFun ho 2
  rw [show ((outM : Memref sig .tc .vmem S2x256x768 .f32).access (rO off inb)).write (Elt Ideal) f w Finset.univ
      = updateSlice f w off ⟨rfl, inb⟩ from View.write_whole_slice_unit cc0_stg5_0 off S1x256x384.size inb f w]
  unfold updateSlice
  split_ifs with hin hc hc
  · congr 1
    funext c
    apply Fin.ext
    match c with
    | ⟨0, _⟩ => show b.val - off 0 = 0; omega
    | ⟨1, _⟩ => show i.val - off 1 = i.val; omega
    | ⟨2, _⟩ => show n.val - off 2 = (n.val - o2) % 384; omega
  · have a0 : off 0 ≤ b.val ∧ b.val < off 0 + 1 := hin 0
    have a2 : off 2 ≤ n.val ∧ n.val < off 2 + 384 := hin 2
    exact absurd ⟨by omega, by omega, by omega⟩ hc
  · refine absurd (fun a => ?_) hin
    match a with
    | ⟨0, _⟩ => show off 0 ≤ b.val ∧ b.val < off 0 + 1; omega
    | ⟨1, _⟩ => show off 1 ≤ i.val ∧ i.val < off 1 + 256; omega
    | ⟨2, _⟩ => show off 2 ≤ n.val ∧ n.val < off 2 + 384; omega
  · rfl

theorem outV_apply (d : Dev nD) (b : Fin 2) (i : Fin 256) (n : Fin 768) :
    outV m attnC d (ix3 b i n) = ∑ p : Dev nD, PP m attnC p ⟨b.val * 256 + i.val, by omega⟩ n := by
  have hd : cx d < 2 ∧ cy d < 2 ∧ cx (px d) = 1 - cx d ∧ cy (py d) = 1 - cy d := by revert d; decide
  have key : ∀ r c, r = b.val * 256 + i.val → c = n.val →
      TN m attnC r c = ∑ p : Dev nD, PP m attnC p ⟨b.val * 256 + i.val, by omega⟩ n := by
    rintro _ _ rfl rfl
    exact Finset.sum_congr rfl fun p _ => dif_pos ⟨by omega, n.isLt⟩
  unfold outV outOver
  rw [wr_apply _ _ _ _ (off23_eq d), wr_apply _ _ _ _ (off22_eq d), wr_apply _ _ _ _ (off21_eq d),
    wr_apply _ _ _ _ (off20_eq d)]
  split_ifs with c3 c2 c1 c0
  · exact (pay42_apply _ _ _ _).trans ((uB_apply m attnC _ _ _).trans (key _ _ (by unfold bK1; omega)
      (by show 384 + (n.val - 384) % 384 = n.val; omega)))
  · exact (pay42_apply _ _ _ _).trans ((uA_apply m attnC _ _ _).trans (key _ _ (by unfold aK1; omega)
      (by show 0 + (n.val - 0) % 384 = n.val; omega)))
  · exact (pay42_apply _ _ _ _).trans ((uB_apply m attnC _ _ _).trans (key _ _ (by unfold bK1; omega)
      (by show 384 + (n.val - 384) % 384 = n.val; omega)))
  · exact (pay42_apply _ _ _ _).trans ((uA_apply m attnC _ _ _).trans (key _ _ (by unfold aK1; omega)
      (by show 0 + (n.val - 0) % 384 = n.val; omega)))
  · exfalso; omega

end Cert.KernelIdeal.KVal

end
-- ==== Proof.Spec.lean ====
import Idealize.ShloMosaic.PureOps.Ideal
import Idealize.ShloMosaic.Lib.ValueIdx

noncomputable section

namespace Cert.Spec

open Idealize.ShloMosaic

def col512 (p : Fin 4) (c : Fin 512) : Fin 2048 := ⟨p.val * 512 + c.val, by have := p.isLt; have := c.isLt; omega⟩

def col128 (p : Fin 4) (c : Fin 128) : Fin 512 := ⟨p.val * 128 + c.val, by have := p.isLt; have := c.isLt; omega⟩

def hd (h : Fin 8) (d : Fin 64) : Fin 512 := ⟨h.val * 64 + d.val, by have := h.isLt; have := d.isLt; omega⟩

def gd (h : Fin 8) (d : Fin 64) : Fin 128 := ⟨(h.val / 4) * 64 + d.val, by have := h.isLt; have := d.isLt; omega⟩

def hOf (k : Fin 512) : Fin 8 := ⟨k.val / 64, by have := k.isLt; omega⟩
def dOf (k : Fin 512) : Fin 64 := ⟨k.val % 64, Nat.mod_lt _ (by decide)⟩

def eighth : EReal := Ideal.ofBits .f32 0x3E000000#32

variable (X : Fin 2 → Fin 256 → Fin 768 → EReal) (WQ : Fin 768 → Fin 2048 → EReal) (WO : Fin 2048 → Fin 768 → EReal)
  (WK WV : Fin 768 → Fin 512 → EReal)

def q (p : Fin 4) (b : Fin 2) (i : Fin 256) (c : Fin 512) : EReal := ∑ t : Fin 768, X b i t * (WQ t (col512 p c) * eighth)

def kk (p : Fin 4) (b : Fin 2) (j : Fin 256) (c : Fin 128) : EReal := ∑ t : Fin 768, X b j t * WK t (col128 p c)
def vv (p : Fin 4) (b : Fin 2) (j : Fin 256) (c : Fin 128) : EReal := ∑ t : Fin 768, X b j t * WV t (col128 p c)

def e (p : Fin 4) (b : Fin 2) (h : Fin 8) (i j : Fin 256) : EReal :=
  Ideal.exp (∑ d : Fin 64, q X WQ p b i (hd h d) * kk X WK p b j (gd h d))

def att (p : Fin 4) (b : Fin 2) (i : Fin 256) (k : Fin 512) : EReal :=
  Ideal.div (∑ j : Fin 256, e X WQ WK p b (hOf k) i j * vv X WV p b j (gd (hOf k) (dOf k))) (∑ j : Fin 256, e X WQ WK p b (hOf k) i j)

-- Device `p`'s share: its eight query heads over its two key/value heads, the softmax-weighted values times its rows of the output weights.
def part (p : Fin 4) (b : Fin 2) (i : Fin 256) (n : Fin 768) : EReal :=
  ∑ k : Fin 512, att X WQ WK WV p b i k * WO (col512 p k) n

-- What every device ends with: the four devices' shares summed.
def G (b : Fin 2) (i : Fin 256) (n : Fin 768) : EReal := ∑ p : Fin 4, part X WQ WO WK WV p b i n

end Cert.Spec

namespace Cert.Spec

open Idealize.ShloMosaic ValueIdx

def Gv (a0 : (⟨3, ![2, 256, 768]⟩ : Shape).Idx → EReal) (a1 : (⟨2, ![768, 2048]⟩ : Shape).Idx → EReal)
    (a2 : (⟨2, ![2048, 768]⟩ : Shape).Idx → EReal) (a3 a4 : (⟨2, ![768, 512]⟩ : Shape).Idx → EReal) :
    (⟨3, ![2, 256, 768]⟩ : Shape).Idx → EReal := fun i =>
  G (fun b r t => a0 (ix3 b r t)) (fun t c => a1 (ix2 t c)) (fun k n => a2 (ix2 k n)) (fun t c => a3 (ix2 t c)) (fun t c => a4 (ix2 t c))
    (i 0) (i 1) (i 2)

end Cert.Spec

end
-- ==== Proof.KVal2.lean ====
import proofs.«900513_g7700000000000514_dist_attn_self_gqa_htp_b2_sq256_skv256_d768_hq8_dh64_v7x_i4_f32_1_alg».proof.Proof.KVal
import proofs.«900513_g7700000000000514_dist_attn_self_gqa_htp_b2_sq256_skv256_d768_hq8_dh64_v7x_i4_f32_1_alg».proof.Proof.AttnOf
import proofs.«900513_g7700000000000514_dist_attn_self_gqa_htp_b2_sq256_skv256_d768_hq8_dh64_v7x_i4_f32_1_alg».proof.Proof.Spec
import Idealize.ShloMosaic.Lib.Layout

noncomputable section

namespace Cert.KernelIdeal.KVal2

open Cert.KernelIdeal Cert.KernelIdeal.Gen Cert.KernelIdeal.Mesh Cert.KernelIdeal.Proto Cert.KernelIdeal.KVal Cert.KernelIdeal.HeadVal
open Idealize.ShloMosaic Idealize.ShloMosaic.ValueIdx Idealize.ShloMosaic.TcCoe

variable (m : (ℓ : Loc nD τ sig) → Buf (Elt Ideal) ℓ)

theorem inC0_eq (c : Dev nD) : inC0 m c = m ((c : Thread nD τ).loc main_arg0) :=
  funext fun y => congrArg (m _) (funext fun a => Fin.ext (Pipeline.Window.rect_emb_val_of_index_zero win0_0 (0 : Fin 1) a rfl y))
theorem inC1_eq (c : Dev nD) : inC1 m c = m ((c : Thread nD τ).loc main_arg1) :=
  funext fun y => congrArg (m _) (funext fun a => Fin.ext (Pipeline.Window.rect_emb_val_of_index_zero win0_1 (0 : Fin 1) a rfl y))
theorem woC_eq (c : Dev nD) : woC m c = m ((c : Thread nD τ).loc main_arg2) :=
  funext fun y => congrArg (m _) (funext fun a => Fin.ext (Pipeline.Window.rect_emb_val_of_index_zero win0_2 (0 : Fin 1) a rfl y))
theorem inC3_eq (c : Dev nD) : inC3 m c = m ((c : Thread nD τ).loc main_arg3) :=
  funext fun y => congrArg (m _) (funext fun a => Fin.ext (Pipeline.Window.rect_emb_val_of_index_zero win0_3 (0 : Fin 1) a rfl y))
theorem inC4_eq (c : Dev nD) : inC4 m c = m ((c : Thread nD τ).loc main_arg4) :=
  funext fun y => congrArg (m _) (funext fun a => Fin.ext (Pipeline.Window.rect_emb_val_of_index_zero win0_4 (0 : Fin 1) a rfl y))

theorem off1_eq (c : Dev nD) : k0_off1 c = ![0, 128 * c.val] := by revert c; decide +kernel

variable (X : (⟨3, ![2, 256, 768]⟩ : Shape).Idx → EReal) (WQ : (⟨2, ![768, 2048]⟩ : Shape).Idx → EReal)
  (WO : (⟨2, ![2048, 768]⟩ : Shape).Idx → EReal) (WK WV : (⟨2, ![768, 512]⟩ : Shape).Idx → EReal)

def Agree : Prop := ∀ c : Dev nD,
  m ((c : Thread nD τ).loc main_arg0) = X
  ∧ m ((c : Thread nD τ).loc main_arg1) = Layout.block ⟨2, ![768, 512]⟩ ⟨2, ![768, 2048]⟩ 1 4 c WQ
  ∧ m ((c : Thread nD τ).loc main_arg2) = Layout.block ⟨2, ![512, 768]⟩ ⟨2, ![2048, 768]⟩ 0 4 c WO
  ∧ m ((c : Thread nD τ).loc main_arg3) = WK
  ∧ m ((c : Thread nD τ).loc main_arg4) = WV

variable {m X WQ WO WK WV}

theorem xIn_apply (hA : Agree m X WQ WO WK WV) (c : Dev nD) (b : Fin 2) (i : Fin 256) (t : Fin 768) :
    xIn m c (ix3 b i t) = X (ix3 b i t) := by
  have e : xIn m c = inC0 m c :=
    Memref.readAt_unit_zero (Elt Ideal) cc0_stg0_0 (funext fun a => by match a with | ⟨0, _⟩ => rfl | ⟨1, _⟩ => rfl | ⟨2, _⟩ => rfl) _ _
  rw [e, inC0_eq, (hA c).1]

theorem wqIn_apply (hA : Agree m X WQ WO WK WV) (c : Dev nD) (t : Fin 768) (k : Fin 512) :
    wqIn m c (ix2 t k) = WQ (ix2 t (Spec.col512 c k)) := by
  have e : wqIn m c = inC1 m c :=
    Memref.readAt_unit_zero (Elt Ideal) cc0_stg1_0 (funext fun a => by match a with | ⟨0, _⟩ => rfl | ⟨1, _⟩ => rfl) _ _
  have h := Layout.idx_cols_val (by decide : Layout.Tiles ⟨2, ![768, 512]⟩ ⟨2, ![768, 2048]⟩ 1 4) c (ix2 t k)
  rw [e, inC1_eq, (hA c).2.1, Layout.block_apply]
  exact congrArg WQ (ix2_ext _ _ _ h.1 h.2)

theorem woC_apply (hA : Agree m X WQ WO WK WV) (c : Dev nD) (k : Fin 512) (n : Fin 768) :
    woC m c (ix2 k n) = WO (ix2 (Spec.col512 c k) n) := by
  have h := Layout.idx_rows_val (by decide : Layout.Tiles ⟨2, ![512, 768]⟩ ⟨2, ![2048, 768]⟩ 0 4) c (ix2 k n)
  rw [woC_eq, (hA c).2.2.1, Layout.block_apply]
  exact congrArg WO (ix2_ext _ _ _ h.1 h.2)

theorem off1_idx (c : Dev nD) (t : Fin 768) (k : Fin 128) :
    (Rect.unit (s := S768x512) (k0_off1 c) S768x128.size (k0_off1_inb c)).toLoadRect.idx (ix2 t k)
      = ix2 t (Spec.col128 c k) := by
  have e0 : k0_off1 c 0 = 0 := congrFun (off1_eq c) 0
  have e1 : k0_off1 c 1 = 128 * c.val := congrFun (off1_eq c) 1
  exact ix2_ext _ _ _ (by show k0_off1 c 0 + 1 * t.val = t.val; omega)
    (by show k0_off1 c 1 + 1 * k.val = c.val * 128 + k.val; omega)

theorem wkIn_apply (hA : Agree m X WQ WO WK WV) (c : Dev nD) (t : Fin 768) (k : Fin 128) :
    wkIn m c (ix2 t k) = WK (ix2 t (Spec.col128 c k)) := by
  unfold wkIn
  rw [View.readAt_apply, View.read_apply, inC3_eq, (hA c).2.2.2.1]
  exact congrArg WK (off1_idx c t k)

theorem wvIn_apply (hA : Agree m X WQ WO WK WV) (c : Dev nD) (t : Fin 768) (k : Fin 128) :
    wvIn m c (ix2 t k) = WV (ix2 t (Spec.col128 c k)) := by
  unfold wvIn
  rw [View.readAt_apply, View.read_apply, inC4_eq, (hA c).2.2.2.2]
  exact congrArg WV (off1_idx c t k)

abbrev X' (X : (⟨3, ![2, 256, 768]⟩ : Shape).Idx → EReal) : Fin 2 → Fin 256 → Fin 768 → EReal := fun b r t => X (ix3 b r t)
abbrev M' {a b : Nat} (W : (⟨2, ![a, b]⟩ : Shape).Idx → EReal) : Fin a → Fin b → EReal := fun t c => W (ix2 t c)

abbrev bOf (r : Fin 512) : Fin 2 := ⟨r.val / 256, by omega⟩
abbrev iOf (r : Fin 512) : Fin 256 := ⟨r.val % 256, by omega⟩

theorem QQ_apply (hA : Agree m X WQ WO WK WV) (c : Dev nD) (r k : Fin 512) :
    k0_pay3 (xIn m c) (wqIn m c) (ix2 r k) = Spec.q (X' X) (M' WQ) c (bOf r) (iOf r) k := by
  rw [pay3_apply]
  unfold Spec.q
  refine Finset.sum_congr rfl fun t _ => ?_
  rw [pay2_apply, xIn_apply hA, wqIn_apply hA]
  rfl

theorem KK_apply (hA : Agree m X WQ WO WK WV) (c : Dev nD) (r : Fin 512) (k : Fin 128) :
    k0_pay5 (xIn m c) (wkIn m c) (ix2 r k) = Spec.kk (X' X) (M' WK) c (bOf r) (iOf r) k := by
  rw [pay5_apply]
  unfold Spec.kk
  refine Finset.sum_congr rfl fun t _ => ?_
  rw [pay2_apply, xIn_apply hA, wkIn_apply hA]

theorem VV_apply (hA : Agree m X WQ WO WK WV) (c : Dev nD) (r : Fin 512) (k : Fin 128) :
    k0_pay6 (k0_pay2 (xIn m c)) (k0_pay4 (wvIn m c)) (ix2 r k) = Spec.vv (X' X) (M' WV) c (bOf r) (iOf r) k := by
  rw [pay6_apply, pay4_eq]
  unfold Spec.vv
  refine Finset.sum_congr rfl fun t _ => ?_
  rw [pay2_apply, xIn_apply hA, wvIn_apply hA]

-- The specification's attention of device `c` at a row among 512 and a column among 512.
def attG (X : (⟨3, ![2, 256, 768]⟩ : Shape).Idx → EReal) (WQ : (⟨2, ![768, 2048]⟩ : Shape).Idx → EReal)
    (WK WV : (⟨2, ![768, 512]⟩ : Shape).Idx → EReal) (c : Dev nD) (y : S512x512.Idx) : EReal :=
  Spec.att (X' X) (M' WQ) (M' WK) (M' WV) c (bOf (y 0)) (iOf (y 0)) (y 1)

theorem hOf_hd (h : Fin 8) (d : Fin 64) : Spec.hOf (Spec.hd h d) = h :=
  Fin.ext (by simp only [Spec.hOf, Spec.hd]; omega)
theorem dOf_hd (h : Fin 8) (d : Fin 64) : Spec.dOf (Spec.hd h d) = d :=
  Fin.ext (by simp only [Spec.dOf, Spec.hd]; omega)

theorem head_att (c : Dev nD) (b : Fin 2) (h : Fin 8) (Qs Ks Vs : FVec Ideal S256x64 .f32)
    (hQ : ∀ i d, Qs (ix2 i d) = Spec.q (X' X) (M' WQ) c b i (Spec.hd h d))
    (hK : ∀ j d, Ks (ix2 j d) = Spec.kk (X' X) (M' WK) c b j (Spec.gd h d))
    (hV : ∀ j d, Vs (ix2 j d) = Spec.vv (X' X) (M' WV) c b j (Spec.gd h d))
    (i : Fin 256) (dd : Fin 64) :
    headVal Qs Ks Vs (ix2 i dd) = Spec.att (X' X) (M' WQ) (M' WK) (M' WV) c b i (Spec.hd h dd) := by
  rw [headVal_apply]
  unfold Spec.att Spec.e
  rw [hOf_hd, dOf_hd]
  simp only [hQ, hK, hV]

theorem slice2_apply {α : Type} {n0 n1 m0 m1 : Nat} (ro co : Nat) (A : (⟨2, ![n0, n1]⟩ : Shape).Idx → α)
    (hs : (⟨2, ![n0, n1]⟩ : Shape).Slices ![ro, co] ⟨2, ![m0, m1]⟩) (i : Fin m0) (d : Fin m1) (r : Fin n0) (k : Fin n1)
    (hr : r.val = ro + i.val) (hk : k.val = co + d.val) :
    extractStridedSlice ⟨2, ![m0, m1]⟩ ![ro, co] A hs (ix2 i d) = A (ix2 r k) :=
  extractStridedSlice_apply _ _ _ _ _ fun ax => match ax with | ⟨0, _⟩ => hr | ⟨1, _⟩ => hk

-- One head: queries cut at rows `ro`, columns `co`; keys and values at the same rows, columns `64 (co / 256)`.
theorem piece_G (hA : Agree m X WQ WO WK WV) (c : Dev nD) {ro co ck : Nat} (hro : ro = 0 ∨ ro = 256)
    (hco : co % 64 = 0 ∧ co < 512) (hck : ck = co / 256 * 64)
    (hsQ : S512x512.Slices ![ro, co] S256x64) (hsK : S512x128.Slices ![ro, ck] S256x64)
    (inb : ∀ a, (![ro, co] : Fin 2 → Nat) a + S256x64.size a ≤ S512x512.size a) (x : S256x64.Idx) :
    headVal (extractStridedSlice S256x64 ![ro, co] (k0_pay3 (xIn m c) (wqIn m c)) hsQ)
        (extractStridedSlice S256x64 ![ro, ck] (k0_pay5 (xIn m c) (wkIn m c)) hsK)
        (extractStridedSlice S256x64 ![ro, ck] (k0_pay6 (k0_pay2 (xIn m c)) (k0_pay4 (wvIn m c))) hsK) x
      = attG X WQ WK WV c ((Rect.unit (s := S512x512) ![ro, co] S256x64.size inb).emb x) := by
  obtain ⟨i, dd, rfl⟩ : ∃ (i : Fin 256) (dd : Fin 64), x = ix2 i dd := ⟨x 0, x 1, eq_ix2 x⟩
  have hb : ∀ j : Fin 256, bOf ⟨ro + j.val, by omega⟩ = ⟨ro / 256, by omega⟩ ∧ iOf ⟨ro + j.val, by omega⟩ = j := fun j =>
    ⟨Fin.ext (by show (ro + j.val) / 256 = ro / 256; omega), Fin.ext (by show (ro + j.val) % 256 = j.val; omega)⟩
  refine (head_att (X := X) (WQ := WQ) (WK := WK) (WV := WV) c ⟨ro / 256, by omega⟩ ⟨co / 64, by omega⟩ _ _ _ (fun j d => ?_) (fun j d => ?_) (fun j d => ?_) i dd).trans ?_
  · rw [slice2_apply ro co _ hsQ j d ⟨ro + j.val, by omega⟩ ⟨co + d.val, by omega⟩ rfl rfl, QQ_apply hA, (hb j).1, (hb j).2]
    exact congrArg _ (Fin.ext (by show co + d.val = co / 64 * 64 + d.val; omega))
  · rw [slice2_apply ro ck _ hsK j d ⟨ro + j.val, by omega⟩ ⟨ck + d.val, by omega⟩ rfl rfl, KK_apply hA, (hb j).1, (hb j).2]
    exact congrArg _ (Fin.ext (by show ck + d.val = co / 64 / 4 * 64 + d.val; omega))
  · rw [slice2_apply ro ck _ hsK j d ⟨ro + j.val, by omega⟩ ⟨ck + d.val, by omega⟩ rfl rfl, VV_apply hA, (hb j).1, (hb j).2]
    exact congrArg _ (Fin.ext (by show ck + d.val = co / 64 / 4 * 64 + d.val; omega))
  · unfold attG
    congr 1 <;> apply Fin.ext
    · show ro / 256 = (ro + 1 * i.val) / 256; omega
    · show i.val = (ro + 1 * i.val) % 256; omega
    · show co / 64 * 64 + dd.val = co + 1 * dd.val; omega

theorem attnOf_apply (hA : Agree m X WQ WO WK WV) (c : Dev nD) (r k : Fin 512) :
    attnOf m c (ix2 r k) = Spec.att (X' X) (M' WQ) (M' WK) (M' WV) c (bOf r) (iOf r) k := by
  rw [attnOf_eq]
  have hp : ∀ p ∈ attnRun.sl.H6_16 m c, ∀ x : p.1.shape.Idx, p.2 x = attG X WQ WK WV c (p.1.emb x) := by
    intro p hp
    unfold attnRun.sl.H6_16 attnRun.sl.H6_12 attnRun.sl.H6_9 attnRun.sl.H6_6 attnRun.sl.H6_3 at hp
    simp only [List.mem_cons, List.mem_singleton, List.not_mem_nil, or_false] at hp
    rcases hp with rfl | rfl | rfl | rfl | rfl | rfl | rfl | rfl | rfl | rfl | rfl | rfl | rfl | rfl | rfl | rfl <;>
      exact piece_G hA c (by omega) (by omega) (by omega) (by decide) (by decide) (by decide)
  exact View.read_writes_apply_of_pieces (attM : Memref sig .tc .vmem S512x512 .f32).view _ (attG X WQ WK WV c) _ hp (ix2 r k)
    (View.cover_of_tiled (attnRun.sl.H6_16 m c) ![256, 64] rfl (ix2 r k))

theorem PP_eq_part (hA : Agree m X WQ WO WK WV) (p : Dev nD) (b : Fin 2) (i : Fin 256) (n : Fin 768) :
    PP m (attnOf m) p ⟨b.val * 256 + i.val, by omega⟩ n = Spec.part (X' X) (M' WQ) (M' WO) (M' WK) (M' WV) p b i n := by
  unfold PP Spec.part
  refine Finset.sum_congr rfl fun k _ => ?_
  rw [attnOf_apply hA, woC_apply hA,
    show bOf (⟨b.val * 256 + i.val, by omega⟩ : Fin 512) = b from Fin.ext (by show (b.val * 256 + i.val) / 256 = b.val; omega),
    show iOf (⟨b.val * 256 + i.val, by omega⟩ : Fin 512) = i from Fin.ext (by show (b.val * 256 + i.val) % 256 = i.val; omega)]

theorem outV_eq_Gv (hA : Agree m X WQ WO WK WV) (d : Dev nD) :
    outV m (attnOf m) d = Spec.Gv X WQ WO WK WV := by
  funext y
  obtain ⟨b, i, n, rfl⟩ : ∃ (b : Fin 2) (i : Fin 256) (n : Fin 768), y = ix3 b i n := ⟨y 0, y 1, y 2, eq_ix3 y⟩
  rw [outV_apply]
  exact Finset.sum_congr rfl fun p _ => PP_eq_part hA p b i n

end Cert.KernelIdeal.KVal2

end
-- ==== Proof.SpecRef.lean ====
import proofs.«900513_g7700000000000514_dist_attn_self_gqa_htp_b2_sq256_skv256_d768_hq8_dh64_v7x_i4_f32_1_alg».proof.Proof.Spec

noncomputable section

namespace Cert.Spec

open Idealize.ShloMosaic ValueIdx

def hq64 (hq : Fin 32) (d : Fin 64) : Fin 2048 := ⟨hq.val * 64 + d.val, by omega⟩
def kv64 (hq : Fin 32) (d : Fin 64) : Fin 512 := ⟨(hq.val / 4) * 64 + d.val, by omega⟩

def hqOf (k : Fin 2048) : Fin 32 := ⟨k.val / 64, by omega⟩
def dqOf (k : Fin 2048) : Fin 64 := ⟨k.val % 64, Nat.mod_lt _ (by decide)⟩

def negInf : EReal := Ideal.ofBits .f32 0xFF800000#32
def zero32 : EReal := Ideal.ofBits .f32 0x00000000#32

variable (X : Fin 2 → Fin 256 → Fin 768 → EReal) (WQ : Fin 768 → Fin 2048 → EReal) (WO : Fin 2048 → Fin 768 → EReal)
  (WK WV : Fin 768 → Fin 512 → EReal)

def proj {n : ℕ} (W : Fin 768 → Fin n → EReal) (b : Fin 2) (i : Fin 256) (k : Fin n) : EReal := ∑ t : Fin 768, X b i t * W t k

def sr (b : Fin 2) (hq : Fin 32) (i j : Fin 256) : EReal :=
  (∑ d : Fin 64, proj X WQ b i (hq64 hq d) * proj X WK b j (kv64 hq d)) * eighth

def mr (b : Fin 2) (hq : Fin 32) (i : Fin 256) : EReal :=
  max negInf (Finset.univ.fold max negInf (fun j : Fin 256 => sr X WQ WK b hq i j))

def alphar (b : Fin 2) (hq : Fin 32) (i : Fin 256) : EReal := Ideal.exp (negInf - mr X WQ WK b hq i)

def pr (b : Fin 2) (hq : Fin 32) (i j : Fin 256) : EReal := Ideal.exp (sr X WQ WK b hq i j - mr X WQ WK b hq i)

def lr (b : Fin 2) (hq : Fin 32) (i : Fin 256) : EReal :=
  zero32 * alphar X WQ WK b hq i + (zero32 + ∑ j : Fin 256, pr X WQ WK b hq i j)

def outr (b : Fin 2) (i : Fin 256) (k : Fin 2048) : EReal :=
  Ideal.div (zero32 * alphar X WQ WK b (hqOf k) i + ∑ j : Fin 256, proj X WV b j (kv64 (hqOf k) (dqOf k)) * pr X WQ WK b (hqOf k) i j)
    (lr X WQ WK b (hqOf k) i)

def Gref (b : Fin 2) (i : Fin 256) (n : Fin 768) : EReal := ∑ k : Fin 2048, outr X WQ WK WV b i k * WO k n

def Grefv (a0 : (⟨3, ![2, 256, 768]⟩ : Shape).Idx → EReal) (a1 : (⟨2, ![768, 2048]⟩ : Shape).Idx → EReal)
    (a2 : (⟨2, ![2048, 768]⟩ : Shape).Idx → EReal) (a3 a4 : (⟨2, ![768, 512]⟩ : Shape).Idx → EReal) :
    (⟨3, ![2, 256, 768]⟩ : Shape).Idx → EReal := fun i =>
  Gref (fun b r t => a0 (ix3 b r t)) (fun t c => a1 (ix2 t c)) (fun k n => a2 (ix2 k n)) (fun t c => a3 (ix2 t c)) (fun t c => a4 (ix2 t c))
    (i 0) (i 1) (i 2)

end Cert.Spec

end
-- ==== Proof.RefValue.lean ====
import proofs.«900513_g7700000000000514_dist_attn_self_gqa_htp_b2_sq256_skv256_d768_hq8_dh64_v7x_i4_f32_1_alg».proof.Proof.Gen.ReferenceIdeal.Read
import proofs.«900513_g7700000000000514_dist_attn_self_gqa_htp_b2_sq256_skv256_d768_hq8_dh64_v7x_i4_f32_1_alg».proof.Proof.SpecRef

noncomputable section

namespace Cert.RefValue

open Cert.ReferenceIdeal Cert.ReferenceIdeal.Gen Cert.ReferenceIdeal.Read Idealize.ShloMosaic Idealize.ShloMosaic.ValueIdx Cert.Spec

def hdiv (h : Fin 32) : Fin 8 := ⟨h.val / 4, by have := h.isLt; omega⟩
def hmod (h : Fin 32) : Fin 4 := ⟨h.val % 4, Nat.mod_lt _ (by decide)⟩

variable (b : Fin 2) (i j : Fin 256) (h : Fin 32) (d : Fin 64) (z : Fin 1) (k : Fin 2048) (c : Fin 512) (t n : Fin 768)
  (g : Fin 8) (r : Fin 4)

theorem lidx_v0 : lidx_main_v0 (ix3 b i k) t = ix3 b i t := eq_ix3 _
theorem ridx_v0 : ridx_main_v0 (ix3 b i k) t = ix2 t k := eq_ix2 _
theorem lidx_v2 : lidx_main_v2 (ix3 b i c) t = ix3 b i t := eq_ix3 _
theorem ridx_v2 : ridx_main_v2 (ix3 b i c) t = ix2 t c := eq_ix2 _
theorem lidx_v4 : lidx_main_v4 (ix3 b i c) t = ix3 b i t := eq_ix3 _
theorem ridx_v4 : ridx_main_v4 (ix3 b i c) t = ix2 t c := eq_ix2 _
theorem idx_v6 : idx_main_v6 (ix5 b i g r d) = ix4 b i g d := eq_ix4 _
theorem idx_v8 : idx_main_v8 (ix5 b i g r d) = ix4 b i g d := eq_ix4 _
theorem lidx_v13 : lidx_main_v13 (ix4 b h i j) d = ix4 b i h d := eq_ix4 _
theorem ridx_v13 : ridx_main_v13 (ix4 b h i j) d = ix4 b j h d := eq_ix4 _
theorem idx_v17 : idx_main_v17 (ix4 b h i z) = ix3 b h i := eq_ix3 _
theorem idx_v21 : idx_main_v21 (ix4 b h i j) = ix4 b h i (0 : Fin 1) := eq_ix4 _
theorem idx_v25 : idx_main_v25 (ix3 b h i) j = ix4 b h i j := eq_ix4 _
theorem idx_v26 : idx_main_v26 (ix4 b h i z) = ix3 b h i := eq_ix3 _
theorem idx_v28 : idx_main_v28 (ix4 b i h z) = ix4 b h i z := eq_ix4 _
theorem idx_v29 : idx_main_v29 (ix4 b i h d) = ix4 b i h (0 : Fin 1) := eq_ix4 _
theorem lidx_v31 : lidx_main_v31 (ix4 b h d i) j = ix4 b j h d := eq_ix4 _
theorem ridx_v31 : ridx_main_v31 (ix4 b h d i) j = ix4 b h i j := eq_ix4 _
theorem idx_v32 : idx_main_v32 (ix4 b i h d) = ix4 b h d i := eq_ix4 _
theorem idx_v34 : idx_main_v34 (ix4 b i h z) = ix4 b h i z := eq_ix4 _
theorem idx_v35 : idx_main_v35 (ix4 b i h d) = ix4 b i h (0 : Fin 1) := eq_ix4 _
theorem lidx_v38 : lidx_main_v38 (ix3 b i n) k = ix3 b i k := eq_ix3 _
theorem ridx_v38 : ridx_main_v38 (ix3 b i n) k = ix2 k n := eq_ix2 _

-- Column `64 h + d` of the 2048 is column `d` of head `h`: both have the same row-major position.
theorem idx_v1 : idx_main_v1 (ix4 b i h d) = ix3 b i (hq64 h d) :=
  funext fun a => Fin.ext (by
    match a with
    | ⟨0, _⟩ => show (((b.val * 256 + i.val) * 32 + h.val) * 64 + d.val) / 524288 = b.val; omega
    | ⟨1, _⟩ => show (((b.val * 256 + i.val) * 32 + h.val) * 64 + d.val) / 2048 % 256 = i.val; omega
    | ⟨2, _⟩ => show (((b.val * 256 + i.val) * 32 + h.val) * 64 + d.val) % 2048 = h.val * 64 + d.val; omega)
theorem idx_v3 : idx_main_v3 (ix4 b i g d) = ix3 b i (hd g d) :=
  funext fun a => Fin.ext (by
    match a with
    | ⟨0, _⟩ => show (((b.val * 256 + i.val) * 8 + g.val) * 64 + d.val) / 131072 = b.val; omega
    | ⟨1, _⟩ => show (((b.val * 256 + i.val) * 8 + g.val) * 64 + d.val) / 512 % 256 = i.val; omega
    | ⟨2, _⟩ => show (((b.val * 256 + i.val) * 8 + g.val) * 64 + d.val) % 512 = g.val * 64 + d.val; omega)
theorem idx_v5 : idx_main_v5 (ix4 b i g d) = ix3 b i (hd g d) := idx_v3 b i d g
-- Head `h` of the 32 is copy `h % 4` of key/value head `h / 4`.
theorem idx_v7 : idx_main_v7 (ix4 b i h d) = ix5 b i (hdiv h) (hmod h) d :=
  funext fun a => Fin.ext (by
    match a with
    | ⟨0, _⟩ => show (((b.val * 256 + i.val) * 32 + h.val) * 64 + d.val) / 524288 = b.val; omega
    | ⟨1, _⟩ => show (((b.val * 256 + i.val) * 32 + h.val) * 64 + d.val) / 2048 % 256 = i.val; omega
    | ⟨2, _⟩ => show (((b.val * 256 + i.val) * 32 + h.val) * 64 + d.val) / 256 % 8 = h.val / 4; omega
    | ⟨3, _⟩ => show (((b.val * 256 + i.val) * 32 + h.val) * 64 + d.val) / 64 % 4 = h.val % 4; omega
    | ⟨4, _⟩ => show (((b.val * 256 + i.val) * 32 + h.val) * 64 + d.val) % 64 = d.val; omega)
theorem idx_v9 : idx_main_v9 (ix4 b i h d) = ix5 b i (hdiv h) (hmod h) d := idx_v7 b i h d
theorem idx_v37 : idx_main_v37 (ix3 b i k) = ix4 b i (hqOf k) (dqOf k) :=
  funext fun a => Fin.ext (by
    match a with
    | ⟨0, _⟩ => show ((b.val * 256 + i.val) * 2048 + k.val) / 524288 = b.val; omega
    | ⟨1, _⟩ => show ((b.val * 256 + i.val) * 2048 + k.val) / 2048 % 256 = i.val; omega
    | ⟨2, _⟩ => show ((b.val * 256 + i.val) * 2048 + k.val) / 64 % 32 = k.val / 64; omega
    | ⟨3, _⟩ => show ((b.val * 256 + i.val) * 2048 + k.val) % 64 = k.val % 64; omega)

theorem red3 : S2x32x256x256.Reduces [3] S2x32x256 := by decide
theorem lift_red3 (q : Fin (S2x32x256x256.size 3)) : red3.lift (ix3 b h i) q = ix4 b h i (⟨q.val, q.isLt⟩ : Fin 256) := eq_ix4 _

section Stages
variable (x0 : (⟨S2x256x768, .f32⟩ : BufTy).Contents (Elt Ideal)) (x1 : (⟨S768x2048, .f32⟩ : BufTy).Contents (Elt Ideal))
  (x3 x4 : (⟨S768x512, .f32⟩ : BufTy).Contents (Elt Ideal))

local notation "Xa" => (fun (b : Fin 2) (r : Fin 256) (t : Fin 768) => x0 (ix3 b r t))
local notation "WQa" => (fun (t : Fin 768) (c : Fin 2048) => x1 (ix2 t c))
local notation "WKa" => (fun (t : Fin 768) (c : Fin 512) => x3 (ix2 t c))
local notation "WVa" => (fun (t : Fin 768) (c : Fin 512) => x4 (ix2 t c))

theorem v15_at : val_main_v15 (F := Ideal) x0 x1 x3 (ix4 b h i j) = sr Xa WQa WKa b h i j := by
  rw [val_main_v15_apply, val_main_v13_apply, val_main_v14_apply, val_main_cst_2_apply]
  simp only [lidx_v13, ridx_v13, val_main_v1_apply, idx_v1, val_main_v0_apply, lidx_v0, ridx_v0, val_main_v7_apply, idx_v7,
    val_main_v6_apply, idx_v6, val_main_v3_apply, idx_v3, val_main_v2_apply, lidx_v2, ridx_v2, Ideal.mulf_def, Ideal.ofBits_def]
  rfl

-- The row maximum is `max` folded over the keys of the row, started from -∞.
theorem v18_at : val_main_v18 (F := Ideal) x0 x1 x3 (ix4 b h i z) = mr Xa WQa WKa b h i := by
  rw [val_main_v18_apply, val_main_v11_apply, val_main_cst_0_apply, val_main_v17_apply, idx_v17]
  unfold val_main_v16
  rw [Host.reduce_eq_fold_single FloatOps.maximumf _ _ reducesTo_S2x32x256x256_S2x32x256_d3 red3 h_S_]
  exact congrArg (max negInf <| Finset.fold max negInf · Finset.univ)
    (funext fun q => (congrArg _ (lift_red3 b i h q)).trans (v15_at b i ⟨q.val, q.isLt⟩ h x0 x1 x3))

theorem v20_at : val_main_v20 (F := Ideal) x0 x1 x3 (ix4 b h i z) = alphar Xa WQa WKa b h i := by
  rw [val_main_v20_apply, val_main_v19_apply, val_main_v11_apply, val_main_cst_0_apply, v18_at]
  rfl
theorem v23_at : val_main_v23 (F := Ideal) x0 x1 x3 (ix4 b h i j) = pr Xa WQa WKa b h i j := by
  rw [val_main_v23_apply, val_main_v22_apply, v15_at, val_main_v21_apply, idx_v21, v18_at]
  rfl
theorem v27_at : val_main_v27 (F := Ideal) x0 x1 x3 (ix4 b h i z) = lr Xa WQa WKa b h i := by
  rw [val_main_v27_apply, val_main_v24_apply, val_main_v12_apply, val_main_cst_1_apply, v20_at,
    val_main_v26_apply, idx_v26, val_main_v25_apply, val_main_cst_4_apply]
  simp only [idx_v25, v23_at]
  rfl

theorem v37_at : val_main_v37 (F := Ideal) x0 x1 x3 x4 (ix3 b i k) = outr Xa WQa WKa WVa b i k := by
  rw [val_main_v37_apply, idx_v37, val_main_v36_apply, val_main_v33_apply, val_main_v30_apply, val_main_v10_apply,
    val_main_cst_apply, val_main_v29_apply, idx_v29, val_main_v28_apply, idx_v28, v20_at, val_main_v32_apply, idx_v32,
    val_main_v31_apply, val_main_v35_apply, idx_v35, val_main_v34_apply, idx_v34, v27_at]
  simp only [lidx_v31, ridx_v31, val_main_v9_apply, idx_v9, val_main_v8_apply, idx_v8, val_main_v5_apply, idx_v5,
    val_main_v4_apply, lidx_v4, ridx_v4, v23_at]
  rfl

end Stages

theorem res_eq_Grefv (m : (ℓ : Loc nD τ sig) → Buf (Elt Ideal) ℓ) (c : Dev nD) :
    Value.res_out0 (F := Ideal) m c = Grefv (m ((c.tc : Thread _ τ).loc main_arg0)) (m ((c.tc : Thread _ τ).loc main_arg1))
      (m ((c.tc : Thread _ τ).loc main_arg2)) (m ((c.tc : Thread _ τ).loc main_arg3)) (m ((c.tc : Thread _ τ).loc main_arg4)) := by
  show Value.res_main_v38 (F := Ideal) m c = _
  rw [val_main_v38_eq]
  funext i
  obtain ⟨b, r, n, rfl⟩ : ∃ (b : Fin 2) (r : Fin 256) (n : Fin 768), i = ix3 b r n := ⟨i 0, i 1, i 2, eq_ix3 i⟩
  rw [val_main_v38_apply]
  simp only [lidx_v38, ridx_v38, v37_at]
  rfl

end Cert.RefValue

end
-- ==== Proof.LibAttnReal.lean ====
import Mathlib.Data.EReal.Operations
import Mathlib.Analysis.Complex.Exponential
import Mathlib.Algebra.BigOperators.Fin
import Mathlib.Data.Fintype.BigOperators
import Mathlib.Logic.Equiv.Fin.Basic
import Mathlib.Algebra.Order.BigOperators.Group.Finset
import Mathlib.Tactic.Ring

namespace Cert.LibAttnReal

open scoped BigOperators

theorem coe_sum {ι : Type*} (s : Finset ι) (f : ι → ℝ) : ((∑ i ∈ s, f i : ℝ) : EReal) = ∑ i ∈ s, (f i : EReal) :=
  map_sum (⟨⟨Real.toEReal, rfl⟩, EReal.coe_add⟩ : ℝ →+ EReal) f s

theorem exists_coe_eq_fold_max {ι : Type*} (s : Finset ι) (hs : s.Nonempty) (f : ι → ℝ) :
    ∃ μ : ℝ, s.fold max (⊥ : EReal) (fun j => (f j : EReal)) = (μ : EReal) := by
  induction hs using Finset.Nonempty.cons_induction with
  | singleton a => exact ⟨f a, by simp⟩
  | cons a s ha hs ih =>
    obtain ⟨μ, hμ⟩ := ih
    exact ⟨max (f a) μ, by rw [Finset.fold_cons, hμ, EReal.coe_strictMono.monotone.map_max]⟩

-- `exp (-μ)` is a common factor of the numerator and the denominator.
theorem softmax_shift {ι : Type*} (s : Finset ι) (σ v : ι → ℝ) (μ : ℝ) :
    (∑ j ∈ s, v j * Real.exp (σ j - μ)) * (1 / ∑ j ∈ s, Real.exp (σ j - μ))
      = (∑ j ∈ s, Real.exp (σ j) * v j) * (1 / ∑ j ∈ s, Real.exp (σ j)) := by
  have h : ∀ j, Real.exp (σ j - μ) = Real.exp (σ j) * Real.exp (-μ) := fun j => by rw [sub_eq_add_neg, Real.exp_add]
  simp only [h, ← mul_assoc, ← Finset.sum_mul, mul_one_div, mul_div_mul_right _ _ (Real.exp_pos (-μ)).ne']
  simp only [mul_comm (v _)]

theorem scale_inner {ι τ : Type*} (s : Finset ι) (u : Finset τ) (x : τ → ℝ) (w : τ → ι → ℝ)
    (K : ι → ℝ) (c : ℝ) :
    (∑ d ∈ s, (∑ t ∈ u, x t * w t d) * K d) * c = ∑ d ∈ s, (∑ t ∈ u, x t * (w t d * c)) * K d := by
  rw [Finset.sum_mul]
  refine Finset.sum_congr rfl fun d _ => ?_
  rw [mul_right_comm, Finset.sum_mul]
  simp only [mul_assoc]

-- `Fin (a * b)` is `a` blocks of `b` places, place `c` of block `p` being `p * b + c`.
theorem sum_fin_blocks {M : Type*} [AddCommMonoid M] {n a b : ℕ} (h : n = a * b) (f : Fin n → M)
    (blk : Fin a → Fin b → Fin n) (hblk : ∀ p c, (blk p c).val = p.val * b + c.val) :
    ∑ k : Fin n, f k = ∑ p : Fin a, ∑ c : Fin b, f (blk p c) := by
  subst h
  rw [← Fintype.sum_prod_type' (fun p c => f (blk p c))]
  refine (Fintype.sum_equiv finProdFinEquiv _ _ fun x => ?_).symm
  congr 1
  apply Fin.ext
  rw [hblk]
  simp [finProdFinEquiv, Nat.mul_comm, Nat.add_comm]

end Cert.LibAttnReal
-- ==== Proof.RefMath.lean ====
import proofs.«900513_g7700000000000514_dist_attn_self_gqa_htp_b2_sq256_skv256_d768_hq8_dh64_v7x_i4_f32_1_alg».proof.Proof.SpecRef
import proofs.«900513_g7700000000000514_dist_attn_self_gqa_htp_b2_sq256_skv256_d768_hq8_dh64_v7x_i4_f32_1_alg».proof.Proof.LibAttnReal

noncomputable section

namespace Cert.Spec

open Idealize.ShloMosaic Cert.LibAttnReal

theorem eighth_eq : eighth = ((1 / 8 : ℝ) : EReal) := by
  simp [eighth, Ideal.ofBits, Ideal.ieee, -EReal.coe_mul]; norm_num
theorem negInf_eq : negInf = ⊥ := by simp [negInf, Ideal.ofBits, Ideal.ieee]
theorem zero32_eq : zero32 = 0 := by simp [zero32, Ideal.ofBits, Ideal.ieee]

theorem hq64_col512 (p : Fin 4) (k : Fin 512) (d : Fin 64) : hq64 (hqOf (col512 p k)) d = col512 p (hd (hOf k) d) :=
  Fin.ext (by simp only [hq64, hqOf, col512, hd, hOf]; omega)
theorem kv64_col512 (p : Fin 4) (k : Fin 512) (d : Fin 64) : kv64 (hqOf (col512 p k)) d = col128 p (gd (hOf k) d) :=
  Fin.ext (by simp only [kv64, hqOf, col512, col128, gd, hOf]; omega)
theorem dqOf_col512 (p : Fin 4) (k : Fin 512) : dqOf (col512 p k) = dOf k :=
  Fin.ext (by simp only [dqOf, col512, dOf]; omega)

-- Real scores have a real maximum `μ`: `exp (-∞ - μ) = 0`, and `exp (-μ)` cancels between the running output and the running sum.
theorem online_softmax {ι : Type*} [Fintype ι] [Nonempty ι] (σ v : ι → ℝ) (M : EReal)
    (hM : M = max negInf (Finset.univ.fold max negInf fun j => (σ j : EReal))) :
    Ideal.div (zero32 * Ideal.exp (negInf - M) + ∑ j, (v j : EReal) * Ideal.exp (σ j - M))
        (zero32 * Ideal.exp (negInf - M) + (zero32 + ∑ j, Ideal.exp (σ j - M)))
      = Ideal.div (∑ j, Ideal.exp (σ j) * v j) (∑ j, Ideal.exp (σ j)) := by
  obtain ⟨μ, hμ⟩ := exists_coe_eq_fold_max Finset.univ Finset.univ_nonempty σ
  rw [negInf_eq, hμ, max_eq_right bot_le] at hM
  subst hM
  have h : ∀ τ : ι → ℝ, (∑ j, Real.exp (τ j)) ≠ 0 := fun τ =>
    (Finset.sum_pos (fun j _ => Real.exp_pos _) Finset.univ_nonempty).ne'
  simp only [negInf_eq, zero32_eq, EReal.bot_sub, Ideal.exp_bot, mul_zero, zero_add, ← EReal.coe_sub, Ideal.exp_coe,
    ← EReal.coe_mul, ← coe_sum]
  rw [Ideal.div_coe (h _), Ideal.div_coe (h _), ← EReal.coe_mul, ← EReal.coe_mul, softmax_shift]

section
variable {X : Fin 2 → Fin 256 → Fin 768 → EReal} {WQ : Fin 768 → Fin 2048 → EReal} (WO : Fin 2048 → Fin 768 → EReal)
  {WK WV : Fin 768 → Fin 512 → EReal} (hX : ∀ b i t, ∃ r : ℝ, X b i t = r) (hQ : ∀ p t c, ∃ r : ℝ, WQ t (col512 p c) = r)
  (hK : ∀ t k, ∃ r : ℝ, WK t k = r) (hV : ∀ t k, ∃ r : ℝ, WV t k = r)
include hX hQ hK hV

-- In block `p` the scale 1/8 moves from the score onto the query projection; head `8 p + h` attends with key/value head `2 p + h / 4`.
theorem outr_col512 (p : Fin 4) (b : Fin 2) (i : Fin 256) (k : Fin 512) :
    outr X WQ WK WV b i (col512 p k) = att X WQ WK WV p b i k := by
  choose x hx using hX
  choose wq hq using hQ
  choose wk hk using hK
  choose wv hv using hV
  have he : ∀ j, e X WQ WK p b (hOf k) i j = Ideal.exp (sr X WQ WK b (hqOf (col512 p k)) i j) := fun j => by
    simp only [e, sr, q, kk, proj, hx, hq, hk, hq64_col512, kv64_col512, eighth_eq, ← EReal.coe_mul, ← coe_sum]
    rw [scale_inner]
  have hVr : ∀ j, proj X WV b j (kv64 (hqOf (col512 p k)) (dqOf (col512 p k))) = vv X WV p b j (gd (hOf k) (dOf k)) :=
    fun j => by simp only [proj, vv, kv64_col512, dqOf_col512]
  have hs : ∀ j, ∃ σ : ℝ, sr X WQ WK b (hqOf (col512 p k)) i j = σ := fun j =>
    ⟨_, by simp only [sr, proj, hx, hq, hk, hq64_col512, eighth_eq, ← EReal.coe_mul, ← coe_sum]; rfl⟩
  have hvv : ∀ j, ∃ v : ℝ, vv X WV p b j (gd (hOf k) (dOf k)) = v := fun j =>
    ⟨_, by simp only [vv, hx, hv, ← EReal.coe_mul, ← coe_sum]; rfl⟩
  choose σ hσ using hs
  choose v hv' using hvv
  simp only [outr, lr, alphar, pr, att, he, hVr, hσ, hv']
  exact online_softmax σ v _ (by simp only [mr, hσ])

-- The sum over the 2048 attention columns is the sum over the four blocks of 512.
theorem Gref_eq_G (b : Fin 2) (i : Fin 256) (n : Fin 768) : Gref X WQ WO WK WV b i n = G X WQ WO WK WV b i n := by
  unfold Gref G part
  rw [sum_fin_blocks (a := 4) (b := 512) (by norm_num) _ col512 fun _ _ => rfl]
  simp only [outr_col512 hX hQ hK hV]

end

open ValueIdx in
theorem Grefv_eq_Gv (a0 : (⟨3, ![2, 256, 768]⟩ : Shape).Idx → EReal) (a1 : (⟨2, ![768, 2048]⟩ : Shape).Idx → EReal)
    (a2 : (⟨2, ![2048, 768]⟩ : Shape).Idx → EReal) (a3 a4 : (⟨2, ![768, 512]⟩ : Shape).Idx → EReal)
    (h0 : ∀ i, ∃ r : ℝ, a0 i = (r : EReal)) (h1 : ∀ p t c, ∃ r : ℝ, a1 (ix2 t (col512 p c)) = (r : EReal))
    (h3 : ∀ i, ∃ r : ℝ, a3 i = (r : EReal)) (h4 : ∀ i, ∃ r : ℝ, a4 i = (r : EReal)) :
    Grefv a0 a1 a2 a3 a4 = Gv a0 a1 a2 a3 a4 :=
  funext fun i => Gref_eq_G _ (fun b r t => h0 (ix3 b r t)) h1 (fun t c => h3 (ix2 t c))
    (fun t c => h4 (ix2 t c)) _ _ _

end Cert.Spec

end
-- ==== Proof.RefSide.lean ====
import proofs.«900513_g7700000000000514_dist_attn_self_gqa_htp_b2_sq256_skv256_d768_hq8_dh64_v7x_i4_f32_1_alg».proof.Defs
import proofs.«900513_g7700000000000514_dist_attn_self_gqa_htp_b2_sq256_skv256_d768_hq8_dh64_v7x_i4_f32_1_alg».proof.Proof.RefValue
import proofs.«900513_g7700000000000514_dist_attn_self_gqa_htp_b2_sq256_skv256_d768_hq8_dh64_v7x_i4_f32_1_alg».proof.Proof.RefMath
import proofs.«900513_g7700000000000514_dist_attn_self_gqa_htp_b2_sq256_skv256_d768_hq8_dh64_v7x_i4_f32_1_alg».proof.Proof.Gen.Pre_finite_inputs_ReferenceIdeal
import Idealize.ShloMosaic.Lib.ReduceAll

noncomputable section

namespace Cert.RefSide

open Idealize.ShloMosaic Idealize.SL.Sem Idealize.ShloMosaic.ValueIdx Cert.Pre_finite_inputs_Kernel

theorem frame_ri : Cert.frame_ReferenceIdeal :=
  fun m ρ _ => (θ_run Cert.ReferenceIdeal.defs _ _).mono (fun _ h c => (h c).2) (Cert.ReferenceIdeal.Value.run (F := Ideal) m ρ)

instance : Subsingleton S_.Idx := ⟨fun a b => funext fun d => d.elim0⟩

-- `|x| < +∞` excludes both infinities.
theorem real_of_abs_lt (x : EReal) (h : Ideal.cmp .olt (max x (-x)) (Ideal.ofBits .f32 0x7F800000#32) = 1#1) :
    ∃ r : ℝ, x = (r : EReal) := by
  induction x using EReal.rec with
  | coe r => exact ⟨r, rfl⟩
  | _ => simp [Ideal.cmp, Ideal.ofBits, Ideal.ieee] at h

theorem finite_of_pre [Facts] (x : FVec Ideal S2x256x768 .f32) (wq : FVec Ideal S768x512 .f32) (wo : FVec Ideal S512x768 .f32)
    (wk wv : FVec Ideal S768x512 .f32) (h : fn (F := Ideal) x wq wo wk wv = (fun _ => 1#1)) :
    (∀ i, ∃ r : ℝ, x i = (r : EReal)) ∧ (∀ i, ∃ r : ℝ, wq i = (r : EReal)) ∧ (∀ i, ∃ r : ℝ, wk i = (r : EReal))
      ∧ (∀ i, ∃ r : ℝ, wv i = (r : EReal)) := by
  have h0 := congrFun h ix0
  dsimp only [fn, fn_part1] at h0
  obtain ⟨h0123, e4⟩ := IntOp.andi_eq_one.1 h0
  obtain ⟨h012, e3⟩ := IntOp.andi_eq_one.1 h0123
  obtain ⟨e0, e1⟩ := IntOp.andi_eq_one.1 (IntOp.andi_eq_one.1 h012).1
  exact ⟨fun i => real_of_abs_lt (x i) (Host.reduce_andi_all _ _ _ _ ix0 e0 i), fun i => real_of_abs_lt (wq i) (Host.reduce_andi_all _ _ _ _ ix0 e1 i),
    fun i => real_of_abs_lt (wk i) (Host.reduce_andi_all _ _ _ _ ix0 e3 i), fun i => real_of_abs_lt (wv i) (Host.reduce_andi_all _ _ _ _ ix0 e4 i)⟩

-- Entry `(t, c)` of column block `p` is entry `(t, 512 p + c)` of the whole array.
theorem block_cols_real (W : (⟨2, ![768, 2048]⟩ : Shape).Idx → EReal) (p : Fin 4)
    (h : ∀ i, ∃ r : ℝ, (Layout.block ⟨2, ![768, 512]⟩ ⟨2, ![768, 2048]⟩ 1 4 p W) i = (r : EReal)) (t : Fin 768) (c : Fin 512) :
    ∃ r : ℝ, W (ix2 t (Cert.Spec.col512 p c)) = (r : EReal) := by
  have := h (ix2 t c)
  rwa [Layout.block_apply, eq_ix2 (Layout.Tiles.idx _ p _)] at this

theorem ref_half [hKernelIdeal : Cert.KernelIdeal.Facts] [hReferenceIdeal : Cert.ReferenceIdeal.Facts] [hPre_finite_inputs_Kernel : Cert.Pre_finite_inputs_Kernel.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (g' : Dev Cert.ReferenceIdeal.nD → PrngReg)
    (hpre : Cert.Pre_KernelIdeal m)
    (hagree : ∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 768]⟩ ⟨2, ![2048, 768]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) :
    θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = Cert.Spec.Gv (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)) (m' (((0 : Dev Cert.ReferenceIdeal.nD).tc : Thread Cert.ReferenceIdeal.nD Cert.ReferenceIdeal.τ).loc Cert.ReferenceIdeal.main_arg4))
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)) := by
  have hfin := fun c : Dev Cert.KernelIdeal.nD => finite_of_pre _ _ _ _ _ (hpre c)
  refine (θ_run _ _ _).mono (fun r h => ⟨?_, (h 0).2⟩) (Cert.ReferenceIdeal.Value.run (F := Ideal) m' g')
  rw [(h 0).1]
  exact (Cert.RefValue.res_eq_Grefv m' 0).trans (Cert.Spec.Grefv_eq_Gv _ _ _ _ _ ((hagree 0).1 ▸ (hfin 0).1)
    (fun p => block_cols_real _ p ((hagree p).2.1 ▸ (hfin p).2.1)) ((hagree 0).2.2.2.1 ▸ (hfin 0).2.2.1)
    ((hagree 0).2.2.2.2 ▸ (hfin 0).2.2.2))

end Cert.RefSide

end
-- ==== Proof.lean ====
import proofs.«900513_g7700000000000514_dist_attn_self_gqa_htp_b2_sq256_skv256_d768_hq8_dh64_v7x_i4_f32_1_alg».proof.Defs
import proofs.«900513_g7700000000000514_dist_attn_self_gqa_htp_b2_sq256_skv256_d768_hq8_dh64_v7x_i4_f32_1_alg».proof.Proof.Gen.Kernel
import proofs.«900513_g7700000000000514_dist_attn_self_gqa_htp_b2_sq256_skv256_d768_hq8_dh64_v7x_i4_f32_1_alg».proof.Proof.Gen.KernelIdeal
import proofs.«900513_g7700000000000514_dist_attn_self_gqa_htp_b2_sq256_skv256_d768_hq8_dh64_v7x_i4_f32_1_alg».proof.Proof.Gen.ReferenceIdeal
import proofs.«900513_g7700000000000514_dist_attn_self_gqa_htp_b2_sq256_skv256_d768_hq8_dh64_v7x_i4_f32_1_alg».proof.Proof.Gen.Pre_finite_inputs_Kernel
import proofs.«900513_g7700000000000514_dist_attn_self_gqa_htp_b2_sq256_skv256_d768_hq8_dh64_v7x_i4_f32_1_alg».proof.Proof.Gen.Pre_finite_inputs_ReferenceIdeal
import proofs.«900513_g7700000000000514_dist_attn_self_gqa_htp_b2_sq256_skv256_d768_hq8_dh64_v7x_i4_f32_1_alg».proof.Proof.RunK
import proofs.«900513_g7700000000000514_dist_attn_self_gqa_htp_b2_sq256_skv256_d768_hq8_dh64_v7x_i4_f32_1_alg».proof.Proof.KRunK
import proofs.«900513_g7700000000000514_dist_attn_self_gqa_htp_b2_sq256_skv256_d768_hq8_dh64_v7x_i4_f32_1_alg».proof.Proof.KVal2
import proofs.«900513_g7700000000000514_dist_attn_self_gqa_htp_b2_sq256_skv256_d768_hq8_dh64_v7x_i4_f32_1_alg».proof.Proof.RefSide
import Idealize.ShloMosaic.Adequacy
import Idealize.ShloMosaic.Init

noncomputable section

namespace Cert.Proof

open Idealize.ShloMosaic Idealize.SL.Sem

-- Each program's frame is its run with the result dropped.
theorem frame_k : Cert.frame_Kernel :=
  fun m g _ => (θ_run Cert.Kernel.defs _ _).mono (fun _ h c => (h c).2) (Cert.Kernel.Proto.run_kernel (F := Bits) m g)

theorem frame_ki : Cert.frame_KernelIdeal :=
  fun m g _ => (θ_run Cert.KernelIdeal.defs _ _).mono (fun _ h c => (h c).2) (Cert.KernelIdeal.Proto.run_kernel (F := Ideal) m g)

-- Every device ends with the sum of the four partial outputs, which is the reference's grouped-query attention of the same inputs.
theorem algebraic_ki_ri : Cert.algebraic_KernelIdeal_ReferenceIdeal :=
  fun m g m' g' hpre hagree =>
    ⟨_,
      (θ_run Cert.KernelIdeal.defs _ _).mono
        (fun _ h c => ⟨(h c).1.trans (Cert.KernelIdeal.KVal2.outV_eq_Gv (fun c => hagree c) c), (h c).2⟩)
        (Cert.KernelIdeal.Proto.run_kernel (F := Ideal) m g),
      Cert.RefSide.ref_half m m' g' hpre hagree⟩

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, Cert.RefSide.frame_ri, trivial, algebraic_ki_ri⟩

end Cert.Proof

end
